-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v205)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v205) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256x1 : Shape := ⟨3, ![512, 256, 1]⟩
abbrev S100000x256 : Shape := ⟨2, ![100000, 256]⟩
abbrev S_ : Shape := ⟨0, ![]⟩
abbrev S512 : Shape := ⟨1, ![512]⟩

class Facts : Prop where
  bcast_S_S512x256x1 : S_.BroadcastsInDim S512x256x1 (![] : Fin 0 → Fin S512x256x1.rank)
  reducesTo_S512x256x1_S_d0_1_2 : S512x256x1.ReducesTo [0, 1, 2] S_
  h_S_ : 0 < S_.numel
  bcast_S_S100000x256 : S_.BroadcastsInDim S100000x256 (![] : Fin 0 → Fin S100000x256.rank)
  reducesTo_S100000x256_S_d0_1 : S100000x256.ReducesTo [0, 1] S_
  reducesTo_S_S_d : S_.ReducesTo [] S_
  bcast_S_S512 : S_.BroadcastsInDim S512 (![] : Fin 0 → Fin S512.rank)
  reducesTo_S512_S_d0 : S512.ReducesTo [0] S_

variable [Facts]

def fn_part2 {F : FTy → Type} [FloatOps F] (main_arg6 : IVec S512 32) (main_v26 : IVec S_ 1) (main_v32 : IVec S_ 1) : IVec S_ 1 :=
  let main_v33 : IVec S_ 1 := andi main_v26 main_v32
  let main_c_13 : IVec S_ 32 := constantI S_ 32 0#32
  let main_v34 : IVec S512 32 := broadcastInDim S512 ![] bcast_S_S512 main_c_13
  let main_v35 : IVec S512 1 := cmpi .sge main_arg6 main_v34
  let main_c_14 : IVec S_ 32 := constantI S_ 32 100000#32
  let main_v36 : IVec S512 32 := broadcastInDim S512 ![] bcast_S_S512 main_c_14
  let main_v37 : IVec S512 1 := cmpi .slt main_arg6 main_v36
  let main_v38 : IVec S512 1 := andi main_v35 main_v37
  let main_c_15 : IVec S_ 1 := constantI S_ 1 1#1
  let main_v39 : IVec S_ 1 := (fun x v => Host.reduce IntOp.andi x v reducesTo_S512_S_d0 h_S_) main_v38 main_c_15
  let main_v40 : IVec S_ 1 := andi main_v33 main_v39
  main_v40

def fn_part1 {F : FTy → Type} [FloatOps F] (main_arg3 : IVec S512 32) (main_arg4 : IVec S512 32) (main_arg5 : IVec S512 32) (main_arg6 : IVec S512 32) (main_v12 : IVec S_ 1) (main_v14 : IVec S512 1) (main_v15 : IVec S512 32) : IVec S_ 1 :=
  let main_v16 : IVec S512 1 := cmpi .slt main_arg3 main_v15
  let main_v17 : IVec S512 1 := andi main_v14 main_v16
  let main_c_6 : IVec S_ 1 := constantI S_ 1 1#1
  let main_v18 : IVec S_ 1 := (fun x v => Host.reduce IntOp.andi x v reducesTo_S512_S_d0 h_S_) main_v17 main_c_6
  let main_v19 : IVec S_ 1 := andi main_v12 main_v18
  let main_c_7 : IVec S_ 32 := constantI S_ 32 0#32
  let main_v20 : IVec S512 32 := broadcastInDim S512 ![] bcast_S_S512 main_c_7
  let main_v21 : IVec S512 1 := cmpi .sge main_arg4 main_v20
  let main_c_8 : IVec S_ 32 := constantI S_ 32 100000#32
  let main_v22 : IVec S512 32 := broadcastInDim S512 ![] bcast_S_S512 main_c_8
  let main_v23 : IVec S512 1 := cmpi .slt main_arg4 main_v22
  let main_v24 : IVec S512 1 := andi main_v21 main_v23
  let main_c_9 : IVec S_ 1 := constantI S_ 1 1#1
  let main_v25 : IVec S_ 1 := (fun x v => Host.reduce IntOp.andi x v reducesTo_S512_S_d0 h_S_) main_v24 main_c_9
  let main_v26 : IVec S_ 1 := andi main_v19 main_v25
  let main_c_10 : IVec S_ 32 := constantI S_ 32 0#32
  let main_v27 : IVec S512 32 := broadcastInDim S512 ![] bcast_S_S512 main_c_10
  let main_v28 : IVec S512 1 := cmpi .sge main_arg5 main_v27
  let main_c_11 : IVec S_ 32 := constantI S_ 32 100000#32
  let main_v29 : IVec S512 32 := broadcastInDim S512 ![] bcast_S_S512 main_c_11
  let main_v30 : IVec S512 1 := cmpi .slt main_arg5 main_v29
  let main_v31 : IVec S512 1 := andi main_v28 main_v30
  let main_c_12 : IVec S_ 1 := constantI S_ 1 1#1
  let main_v32 : IVec S_ 1 := (fun x v => Host.reduce IntOp.andi x v reducesTo_S512_S_d0 h_S_) main_v31 main_c_12
  fn_part2 (F := F) main_arg6 main_v26 main_v32

def fn {F : FTy → Type} [FloatOps F] (main_arg0 : FVec F S512x256x1 .f32) (main_arg1 : FVec F S100000x256 .f32) (main_arg2 : FVec F S_ .f32) (main_arg3 : IVec S512 32) (main_arg4 : IVec S512 32) (main_arg5 : IVec S512 32) (main_arg6 : IVec S512 32) : IVec S_ 1 :=
  let main_v0 : FVec F S512x256x1 .f32 := Host.absf main_arg0
  let main_cst : FVec F S_ .f32 := constant S_ .f32 0x7F800000#32
  let main_v1 : FVec F S512x256x1 .f32 := broadcastInDim S512x256x1 ![] bcast_S_S512x256x1 main_cst
  let main_v2 : IVec S512x256x1 1 := cmpf .olt main_v0 main_v1
  let main_c : IVec S_ 1 := constantI S_ 1 1#1
  let main_v3 : IVec S_ 1 := (fun x v => Host.reduce IntOp.andi x v reducesTo_S512x256x1_S_d0_1_2 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_c_4 : IVec S_ 32 := constantI S_ 32 0#32
  let main_v13 : IVec S512 32 := broadcastInDim S512 ![] bcast_S_S512 main_c_4
  let main_v14 : IVec S512 1 := cmpi .sge main_arg3 main_v13
  let main_c_5 : IVec S_ 32 := constantI S_ 32 100000#32
  let main_v15 : IVec S512 32 := broadcastInDim S512 ![] bcast_S_S512 main_c_5
  fn_part1 (F := F) main_arg3 main_arg4 main_arg5 main_arg6 main_v12 main_v14 main_v15
-- ==== Kernel.lean ====
abbrev S512x256x1 : Shape := ⟨3, ![512, 256, 1]⟩
abbrev S100000x256 : Shape := ⟨2, ![100000, 256]⟩
abbrev S_ : Shape := ⟨0, ![]⟩
abbrev S512 : Shape := ⟨1, ![512]⟩
abbrev S512x256 : Shape := ⟨2, ![512, 256]⟩
abbrev S512x1 : Shape := ⟨2, ![512, 1]⟩
abbrev S2x512x1 : Shape := ⟨3, ![2, 512, 1]⟩
abbrev S2000x256 : Shape := ⟨2, ![2000, 256]⟩
abbrev S1x512x1 : Shape := ⟨3, ![1, 512, 1]⟩
abbrev S2000 : Shape := ⟨1, ![2000]⟩
abbrev S2000x1 : Shape := ⟨2, ![2000, 1]⟩
abbrev S512x2000 : Shape := ⟨2, ![512, 2000]⟩

abbrev nBuf : Space → Nat
  | .hbm => 259
  | .vmem => 9
  | .smem => 0
  | _ => 0

abbrev hbmTy0_0 (i : Nat) : BufTy := match i % 128 with
  | 0 => ⟨S512x256x1, .f32⟩
  | 1 => ⟨S100000x256, .f32⟩
  | 2 => ⟨S_, .f32⟩
  | 3 => ⟨S512, .i32⟩
  | 4 => ⟨S512, .i32⟩
  | 5 => ⟨S512, .i32⟩
  | 6 => ⟨S512, .i32⟩
  | 7 => ⟨S512x256, .f32⟩
  | 8 => ⟨S512x256, .f32⟩
  | 9 => ⟨S_, .f32⟩
  | 10 => ⟨S512, .f32⟩
  | 11 => ⟨S512x1, .f32⟩
  | 12 => ⟨S512x1, .f32⟩
  | 13 => ⟨S_, .f32⟩
  | 14 => ⟨S512x1, .f32⟩
  | 15 => ⟨S512x1, .f32⟩
  | 16 => ⟨S512x256, .f32⟩
  | 17 => ⟨S512x256, .f32⟩
  | 18 => ⟨S512x256, .bf16⟩
  | 19 => ⟨S2x512x1, .f32⟩
  | 20 => ⟨S2x512x1, .f32⟩
  | 21 => ⟨S1x512x1, .f32⟩
  | 22 => ⟨S512x1, .f32⟩
  | 23 => ⟨S1x512x1, .f32⟩
  | 24 => ⟨S512x1, .f32⟩
  | 25 => ⟨S1x512x1, .f32⟩
  | 26 => ⟨S512x1, .f32⟩
  | 27 => ⟨S1x512x1, .f32⟩
  | 28 => ⟨S512x1, .f32⟩
  | 29 => ⟨S512x1, .f32⟩
  | 30 => ⟨S512x1, .f32⟩
  | 31 => ⟨S512x1, .f32⟩
  | 32 => ⟨S512x1, .f32⟩
  | 33 => ⟨S512x1, .f32⟩
  | 34 => ⟨S512x1, .f32⟩
  | 35 => ⟨S512x1, .f32⟩
  | 36 => ⟨S512x1, .f32⟩
  | 37 => ⟨S_, .i32⟩
  | 38 => ⟨S512, .i32⟩
  | 39 => ⟨S512, .i1⟩
  | 40 => ⟨S_, .i32⟩
  | 41 => ⟨S512, .i32⟩
  | 42 => ⟨S512, .i32⟩
  | 43 => ⟨S512, .i32⟩
  | 44 => ⟨S512x1, .i32⟩
  | 45 => ⟨S512x256, .f32⟩
  | 46 => ⟨S512x256, .f32⟩
  | 47 => ⟨S_, .f32⟩
  | 48 => ⟨S512, .f32⟩
  | 49 => ⟨S512x1, .f32⟩
  | 50 => ⟨S512x1, .f32⟩
  | 51 => ⟨S_, .f32⟩
  | 52 => ⟨S512x1, .f32⟩
  | 53 => ⟨S512x1, .f32⟩
  | 54 => ⟨S512x256, .f32⟩
  | 55 => ⟨S512x256, .f32⟩
  | 56 => ⟨S512x256, .f32⟩
  | 57 => ⟨S_, .f32⟩
  | 58 => ⟨S512, .f32⟩
  | 59 => ⟨S512x1, .f32⟩
  | 60 => ⟨S_, .i32⟩
  | 61 => ⟨S512, .i32⟩
  | 62 => ⟨S512, .i1⟩
  | 63 => ⟨S_, .i32⟩
  | 64 => ⟨S512, .i32⟩
  | 65 => ⟨S512, .i32⟩
  | 66 => ⟨S512, .i32⟩
  | 67 => ⟨S512x1, .i32⟩
  | 68 => ⟨S512x256, .f32⟩
  | 69 => ⟨S512x256, .f32⟩
  | 70 => ⟨S_, .f32⟩
  | 71 => ⟨S512, .f32⟩
  | 72 => ⟨S512x1, .f32⟩
  | 73 => ⟨S512x1, .f32⟩
  | 74 => ⟨S_, .f32⟩
  | 75 => ⟨S512x1, .f32⟩
  | 76 => ⟨S512x1, .f32⟩
  | 77 => ⟨S512x256, .f32⟩
  | 78 => ⟨S512x256, .f32⟩
  | 79 => ⟨S512x256, .f32⟩
  | 80 => ⟨S_, .f32⟩
  | 81 => ⟨S512, .f32⟩
  | 82 => ⟨S512x1, .f32⟩
  | 83 => ⟨S_, .i32⟩
  | 84 => ⟨S512, .i32⟩
  | 85 => ⟨S512, .i1⟩
  | 86 => ⟨S_, .i32⟩
  | 87 => ⟨S512, .i32⟩
  | 88 => ⟨S512, .i32⟩
  | 89 => ⟨S512, .i32⟩
  | 90 => ⟨S512x1, .i32⟩
  | 91 => ⟨S512x256, .f32⟩
  | 92 => ⟨S512x256, .f32⟩
  | 93 => ⟨S_, .f32⟩
  | 94 => ⟨S512, .f32⟩
  | 95 => ⟨S512x1, .f32⟩
  | 96 => ⟨S512x1, .f32⟩
  | 97 => ⟨S_, .f32⟩
  | 98 => ⟨S512x1, .f32⟩
  | 99 => ⟨S512x1, .f32⟩
  | 100 => ⟨S512x256, .f32⟩
  | 101 => ⟨S512x256, .f32⟩
  | 102 => ⟨S512x256, .f32⟩
  | 103 => ⟨S_, .f32⟩
  | 104 => ⟨S512, .f32⟩
  | 105 => ⟨S512x1, .f32⟩
  | 106 => ⟨S_, .i32⟩
  | 107 => ⟨S512, .i32⟩
  | 108 => ⟨S512, .i1⟩
  | 109 => ⟨S_, .i32⟩
  | 110 => ⟨S512, .i32⟩
  | 111 => ⟨S512, .i32⟩
  | 112 => ⟨S512, .i32⟩
  | 113 => ⟨S512x1, .i32⟩
  | 114 => ⟨S512x256, .f32⟩
  | 115 => ⟨S512x256, .f32⟩
  | 116 => ⟨S_, .f32⟩
  | 117 => ⟨S512, .f32⟩
  | 118 => ⟨S512x1, .f32⟩
  | 119 => ⟨S512x1, .f32⟩
  | 120 => ⟨S_, .f32⟩
  | 121 => ⟨S512x1, .f32⟩
  | 122 => ⟨S512x1, .f32⟩
  | 123 => ⟨S512x256, .f32⟩
  | 124 => ⟨S512x256, .f32⟩
  | 125 => ⟨S512x256, .f32⟩
  | 126 => ⟨S_, .f32⟩
  | 127 => ⟨S512, .f32⟩
  | _ => ⟨S512x256x1, .f32⟩

abbrev hbmTy0_1 (i : Nat) : BufTy := match i % 128 with
  | 0 => ⟨S512x1, .f32⟩
  | 1 => ⟨S_, .f32⟩
  | 2 => ⟨S512x1, .f32⟩
  | 3 => ⟨S512x1, .f32⟩
  | 4 => ⟨S_, .f32⟩
  | 5 => ⟨S512x1, .f32⟩
  | 6 => ⟨S512x1, .f32⟩
  | 7 => ⟨S_, .f32⟩
  | 8 => ⟨S512x1, .f32⟩
  | 9 => ⟨S512x1, .f32⟩
  | 10 => ⟨S_, .f32⟩
  | 11 => ⟨S512x1, .f32⟩
  | 12 => ⟨S512x1, .f32⟩
  | 13 => ⟨S_, .f32⟩
  | 14 => ⟨S512x1, .f32⟩
  | 15 => ⟨S512x1, .f32⟩
  | 16 => ⟨S_, .f32⟩
  | 17 => ⟨S512x1, .f32⟩
  | 18 => ⟨S512x1, .f32⟩
  | 19 => ⟨S_, .f32⟩
  | 20 => ⟨S512x1, .f32⟩
  | 21 => ⟨S512x1, .f32⟩
  | 22 => ⟨S_, .f32⟩
  | 23 => ⟨S512x1, .f32⟩
  | 24 => ⟨S512x1, .f32⟩
  | 25 => ⟨S_, .f32⟩
  | 26 => ⟨S512x1, .f32⟩
  | 27 => ⟨S512x1, .f32⟩
  | 28 => ⟨S512x1, .i32⟩
  | 29 => ⟨S512x1, .i32⟩
  | 30 => ⟨S512x1, .i32⟩
  | 31 => ⟨S512x1, .i32⟩
  | 32 => ⟨S512x1, .i1⟩
  | 33 => ⟨S512x1, .i1⟩
  | 34 => ⟨S512x1, .i1⟩
  | 35 => ⟨S512x1, .i1⟩
  | 36 => ⟨S512x1, .i1⟩
  | 37 => ⟨S512x1, .i1⟩
  | 38 => ⟨S512x1, .i1⟩
  | 39 => ⟨S512x1, .i1⟩
  | 40 => ⟨S512x1, .i1⟩
  | 41 => ⟨S_, .i1⟩
  | 42 => ⟨S512x1, .i1⟩
  | 43 => ⟨S512x1, .f32⟩
  | 44 => ⟨S512x1, .f32⟩
  | 45 => ⟨S512x1, .f32⟩
  | 46 => ⟨S512x1, .f32⟩
  | 47 => ⟨S512x1, .f32⟩
  | 48 => ⟨S512x1, .f32⟩
  | 49 => ⟨S512x1, .f32⟩
  | 50 => ⟨S512x1, .f32⟩
  | 51 => ⟨S512x1, .f32⟩
  | 52 => ⟨S512x1, .f32⟩
  | 53 => ⟨S512x1, .f32⟩
  | 54 => ⟨S512x1, .f32⟩
  | 55 => ⟨S512x1, .f32⟩
  | 56 => ⟨S512x1, .f32⟩
  | 57 => ⟨S512x1, .f32⟩
  | 58 => ⟨S512x1, .f32⟩
  | 59 => ⟨S512x1, .f32⟩
  | 60 => ⟨S512x1, .f32⟩
  | 61 => ⟨S512x1, .f32⟩
  | 62 => ⟨S512x1, .f32⟩
  | 63 => ⟨S512x1, .f32⟩
  | 64 => ⟨S512x1, .f32⟩
  | 65 => ⟨S512x1, .f32⟩
  | 66 => ⟨S512x1, .f32⟩
  | 67 => ⟨S512x1, .f32⟩
  | 68 => ⟨S512x1, .f32⟩
  | 69 => ⟨S512x1, .f32⟩
  | 70 => ⟨S512x1, .f32⟩
  | 71 => ⟨S512x1, .f32⟩
  | 72 => ⟨S512x1, .f32⟩
  | 73 => ⟨S512x1, .f32⟩
  | 74 => ⟨S512x1, .f32⟩
  | 75 => ⟨S512x1, .f32⟩
  | 76 => ⟨S512x1, .i1⟩
  | 77 => ⟨S512x1, .f32⟩
  | 78 => ⟨S512x1, .i1⟩
  | 79 => ⟨S512x1, .f32⟩
  | 80 => ⟨S512x1, .i1⟩
  | 81 => ⟨S512x1, .f32⟩
  | 82 => ⟨S512x1, .i1⟩
  | 83 => ⟨S512x1, .f32⟩
  | 84 => ⟨S512x1, .i1⟩
  | 85 => ⟨S512x1, .f32⟩
  | 86 => ⟨S512x1, .i1⟩
  | 87 => ⟨S512x1, .f32⟩
  | 88 => ⟨S512x1, .f32⟩
  | 89 => ⟨S512x1, .f32⟩
  | 90 => ⟨S512x1, .f32⟩
  | 91 => ⟨S512x1, .f32⟩
  | 92 => ⟨S512x1, .f32⟩
  | 93 => ⟨S512x1, .f32⟩
  | 94 => ⟨S512x1, .f32⟩
  | 95 => ⟨S512x1, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S512x256x1, .f32⟩

abbrev hbmTy0_2 (i : Nat) : BufTy := match i % 128 with
  | 0 => ⟨S_, .f32⟩
  | 1 => ⟨S_, .f32⟩
  | 2 => ⟨S_, .f32⟩
  | _ => ⟨S512x256x1, .f32⟩

abbrev hbmTy (i : Nat) : BufTy := match i / 128 with
  | 0 => hbmTy0_0 i
  | 1 => hbmTy0_1 i
  | 2 => hbmTy0_2 i
  | _ => ⟨S512x256x1, .f32⟩

abbrev bufTy : (tb : Table) → Fin (tcTables nBuf tb) → BufTy
  | .hbm, ⟨i, _⟩ => hbmTy i
  | .local _ .vmem, ⟨0, _⟩ => ⟨S512x256, .bf16⟩
  | .local _ .vmem, ⟨1, _⟩ => ⟨S2000x256, .f32⟩
  | .local _ .vmem, ⟨2, _⟩ => ⟨S2000x256, .f32⟩
  | .local _ .vmem, ⟨3, _⟩ => ⟨S1x512x1, .f32⟩
  | .local _ .vmem, ⟨4, _⟩ => ⟨S1x512x1, .f32⟩
  | .local _ .vmem, ⟨5, _⟩ => ⟨S1x512x1, .f32⟩
  | .local _ .vmem, ⟨6, _⟩ => ⟨S1x512x1, .f32⟩
  | .local _ .vmem, ⟨7, _⟩ => ⟨S512x1, .f32⟩
  | .local _ .vmem, ⟨8, _⟩ => ⟨S512x1, .f32⟩
  | _, _ => ⟨S512x256x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c : Ref sig .tc := ⟨.hbm, 37, rfl⟩
abbrev main_v27 : Ref sig .tc := ⟨.hbm, 38, rfl⟩
abbrev main_v28 : Ref sig .tc := ⟨.hbm, 39, rfl⟩
abbrev main_c_1 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_4 : Ref sig .tc := ⟨.hbm, 57, rfl⟩
abbrev main_v43 : Ref sig .tc := ⟨.hbm, 58, rfl⟩
abbrev main_v44 : Ref sig .tc := ⟨.hbm, 59, rfl⟩
abbrev main_c_5 : Ref sig .tc := ⟨.hbm, 60, rfl⟩
abbrev main_v45 : Ref sig .tc := ⟨.hbm, 61, rfl⟩
abbrev main_v46 : Ref sig .tc := ⟨.hbm, 62, rfl⟩
abbrev main_c_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_9 : Ref sig .tc := ⟨.hbm, 80, rfl⟩
abbrev main_v61 : Ref sig .tc := ⟨.hbm, 81, rfl⟩
abbrev main_v62 : Ref sig .tc := ⟨.hbm, 82, rfl⟩
abbrev main_c_10 : Ref sig .tc := ⟨.hbm, 83, rfl⟩
abbrev main_v63 : Ref sig .tc := ⟨.hbm, 84, rfl⟩
abbrev main_v64 : Ref sig .tc := ⟨.hbm, 85, rfl⟩
abbrev main_c_11 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_12 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_13 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_14 : Ref sig .tc := ⟨.hbm, 103, rfl⟩
abbrev main_v79 : Ref sig .tc := ⟨.hbm, 104, rfl⟩
abbrev main_v80 : Ref sig .tc := ⟨.hbm, 105, rfl⟩
abbrev main_c_15 : Ref sig .tc := ⟨.hbm, 106, rfl⟩
abbrev main_v81 : Ref sig .tc := ⟨.hbm, 107, rfl⟩
abbrev main_v82 : Ref sig .tc := ⟨.hbm, 108, rfl⟩
abbrev main_c_16 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_17 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_18 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_19 : Ref sig .tc := ⟨.hbm, 126, rfl⟩
abbrev main_v97 : Ref sig .tc := ⟨.hbm, 127, rfl⟩
abbrev main_v98 : Ref sig .tc := ⟨.hbm, 128, rfl⟩
abbrev main_cst_20 : Ref sig .tc := ⟨.hbm, 129, rfl⟩
abbrev main_v99 : Ref sig .tc := ⟨.hbm, 130, rfl⟩
abbrev main_v100 : Ref sig .tc := ⟨.hbm, 131, rfl⟩
abbrev main_cst_21 : Ref sig .tc := ⟨.hbm, 132, rfl⟩
abbrev main_v101 : Ref sig .tc := ⟨.hbm, 133, rfl⟩
abbrev main_v102 : Ref sig .tc := ⟨.hbm, 134, rfl⟩
abbrev main_cst_22 : Ref sig .tc := ⟨.hbm, 135, rfl⟩
abbrev main_v103 : Ref sig .tc := ⟨.hbm, 136, rfl⟩
abbrev main_v104 : Ref sig .tc := ⟨.hbm, 137, rfl⟩
abbrev main_cst_23 : Ref sig .tc := ⟨.hbm, 138, rfl⟩
abbrev main_v105 : Ref sig .tc := ⟨.hbm, 139, rfl⟩
abbrev main_v106 : Ref sig .tc := ⟨.hbm, 140, rfl⟩
abbrev main_cst_24 : Ref sig .tc := ⟨.hbm, 141, rfl⟩
abbrev main_v107 : Ref sig .tc := ⟨.hbm, 142, rfl⟩
abbrev main_v108 : Ref sig .tc := ⟨.hbm, 143, rfl⟩
abbrev main_cst_25 : Ref sig .tc := ⟨.hbm, 144, rfl⟩
abbrev main_v109 : Ref sig .tc := ⟨.hbm, 145, rfl⟩
abbrev main_v110 : Ref sig .tc := ⟨.hbm, 146, rfl⟩
abbrev main_cst_26 : Ref sig .tc := ⟨.hbm, 147, rfl⟩
abbrev main_v111 : Ref sig .tc := ⟨.hbm, 148, rfl⟩
abbrev main_v112 : Ref sig .tc := ⟨.hbm, 149, rfl⟩
abbrev main_cst_27 : Ref sig .tc := ⟨.hbm, 150, rfl⟩
abbrev main_v113 : Ref sig .tc := ⟨.hbm, 151, rfl⟩
abbrev main_v114 : Ref sig .tc := ⟨.hbm, 152, rfl⟩
abbrev main_cst_28 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_c_29 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_cst_30 : Ref sig .tc := ⟨.hbm, 224, rfl⟩
abbrev main_v184 : Ref sig .tc := ⟨.hbm, 225, rfl⟩
abbrev main_cst_31 : Ref sig .tc := ⟨.hbm, 226, rfl⟩
abbrev main_v185 : Ref sig .tc := ⟨.hbm, 227, rfl⟩
abbrev main_v186 : Ref sig .tc := ⟨.hbm, 228, rfl⟩
abbrev main_cst_32 : Ref sig .tc := ⟨.hbm, 229, rfl⟩
abbrev main_v187 : Ref sig .tc := ⟨.hbm, 230, rfl⟩
abbrev main_cst_33 : Ref sig .tc := ⟨.hbm, 231, rfl⟩
abbrev main_v188 : Ref sig .tc := ⟨.hbm, 232, rfl⟩
abbrev main_v189 : Ref sig .tc := ⟨.hbm, 233, rfl⟩
abbrev main_cst_34 : Ref sig .tc := ⟨.hbm, 234, rfl⟩
abbrev main_v190 : Ref sig .tc := ⟨.hbm, 235, rfl⟩
abbrev main_cst_35 : Ref sig .tc := ⟨.hbm, 236, rfl⟩
abbrev main_v191 : Ref sig .tc := ⟨.hbm, 237, rfl⟩
abbrev main_v192 : Ref sig .tc := ⟨.hbm, 238, rfl⟩
abbrev main_cst_36 : Ref sig .tc := ⟨.hbm, 239, rfl⟩
abbrev main_v193 : Ref sig .tc := ⟨.hbm, 240, rfl⟩
abbrev main_cst_37 : Ref sig .tc := ⟨.hbm, 241, rfl⟩
abbrev main_v194 : Ref sig .tc := ⟨.hbm, 242, rfl⟩
abbrev main_v195 : Ref sig .tc := ⟨.hbm, 243, rfl⟩
abbrev main_cst_38 : Ref sig .tc := ⟨.hbm, 244, rfl⟩
abbrev main_v196 : Ref sig .tc := ⟨.hbm, 245, rfl⟩
abbrev main_cst_39 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_cst_40 : Ref sig .tc := ⟨.hbm, 250, rfl⟩
abbrev main_v200 : Ref sig .tc := ⟨.hbm, 251, rfl⟩
abbrev main_cst_41 : Ref sig .tc := ⟨.hbm, 252, rfl⟩
abbrev main_v201 : Ref sig .tc := ⟨.hbm, 253, rfl⟩
abbrev main_cst_42 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v39 : BitVec 1 := Scalar.cmpi .eq arg1 c24_i32
  let v40 : BitVec 32 := Scalar.extui v39
  let c0_i32_19 : BitVec 32 := 0#32
  let v41 : BitVec 1 := Scalar.cmpi .ne v40 c0_i32_19
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S512x256x1_S512x256 : S512x256x1.ShapeCasts S512x256
  reducesTo_S512x256_S512_d1 : S512x256.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x256_0_1 : S512x1.BroadcastsInDim S512x256 (![0, 1] : Fin 2 → Fin S512x256.rank)
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2000x256_S2000x256_0_0 : ∀ a, (![0, 0] : Fin 2 → Nat) a + S2000x256.size a ≤ S2000x256.size a
  h_S2000x256 : 0 < S2000x256.numel
  reduces_S2000x256_S2000 : S2000x256.Reduces [1] S2000
  shapeCasts_S2000_S2000x1 : S2000.ShapeCasts S2000x1
  broadcasts_S2000x1_S2000x256 : S2000x1.Broadcasts S2000x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x2000_S512 : S512x2000.Reduces [1] S512
  shapeCasts_S512_S512x1 : S512.ShapeCasts S512x1
  broadcasts_S512x1_S512x2000 : S512x1.Broadcasts S512x2000
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  slices_S2x512x1_S1x512x1_0_0_0 : S2x512x1.Slices ![0, 0, 0] S1x512x1
  slices_S2x512x1_S1x512x1_1_0_0 : S2x512x1.Slices ![1, 0, 0] S1x512x1
  bcast_S_S512 : S_.BroadcastsInDim S512 (![] : Fin 0 → Fin S512.rank)
  reducesTo_S512x1_S_d0_1 : S512x1.ReducesTo [0, 1] S_
  dot_S512x256_S2000x256_S512x2000_1_1_0_0_n_n_wf : DotDims.WF S512x256 S2000x256 S512x2000 [1] [1] [0] [0] [] []
  gather_S100000x256_S512x1_S512x256_1_0_n_n_0_1_1256_wf : GatherDims.WF S100000x256 S512x1 S512x256 [1] [0] [] [0] [] 1 ![1, 256]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S512x256.size a
  hwx0_0 : ∀ i : grid0.Coords, EltTy.bits .bf16 = 32 ∨ (Rect.block (s := S512x256) S512x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S100000x256.size a
  hwx0_1 : ∀ i : grid0.Coords, EltTy.bits .f32 = 32 ∨ (Rect.block (s := S100000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S2x512x1.size a
  hwx0_2 : ∀ i : grid0.Coords, EltTy.bits .f32 = 32 ∨ (Rect.block (s := S2x512x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1.size a ≤ S2x512x1.size a
  hwx0_3 : ∀ i : grid0.Coords, EltTy.bits .f32 = 32 ∨ (Rect.block (s := S2x512x1) S1x512x1.size (cc0_transform_3 i) (hinb0_3 i)).WholeWords (EltTy.packing .f32)

variable [Facts₀]

def dot_S512x256_S2000x256_S512x2000_1_1_0_0_n_n : DotDims S512x256 S2000x256 S512x2000 where
  lhsContracting := [1]
  rhsContracting := [1]
  lhsNonContracting := [0]
  rhsNonContracting := [0]
  lhsBatch := []
  rhsBatch := []
  wf := dot_S512x256_S2000x256_S512x2000_1_1_0_0_n_n_wf
def gather_S100000x256_S512x1_S512x256_1_0_n_n_0_1_1256 : GatherDims S100000x256 S512x1 S512x256 where
  offsetDims := [1]
  collapsedSliceDims := [0]
  operandBatchingDims := []
  startIndicesBatchingDims := []
  startIndexMap := [0]
  indexVectorDim := 1
  sliceSizes := ![1, 256]
  wf := gather_S100000x256_S512x1_S512x256_1_0_n_n_0_1_1256_wf

abbrev win0_0 : Pipeline.Window sig grid0 :=
  Pipeline.Window.ofSpec (Memref.whole main_v9) S512x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10_0) S1x512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10_1) S1x512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S512x256x1 : Shape := ⟨3, ![512, 256, 1]⟩
abbrev S100000x256 : Shape := ⟨2, ![100000, 256]⟩
abbrev S_ : Shape := ⟨0, ![]⟩
abbrev S512 : Shape := ⟨1, ![512]⟩
abbrev S512x256 : Shape := ⟨2, ![512, 256]⟩
abbrev S512x1 : Shape := ⟨2, ![512, 1]⟩
abbrev S100000 : Shape := ⟨1, ![100000]⟩
abbrev S100000x1 : Shape := ⟨2, ![100000, 1]⟩
abbrev S512x100000 : Shape := ⟨2, ![512, 100000]⟩
abbrev S512x2 : Shape := ⟨2, ![512, 2]⟩

abbrev nBuf : Space → Nat
  | .hbm => 314
  | .vmem => 0
  | .smem => 0
  | _ => 0

abbrev hbmTy0_0 (i : Nat) : BufTy := match i % 128 with
  | 0 => ⟨S512x256x1, .f32⟩
  | 1 => ⟨S100000x256, .f32⟩
  | 2 => ⟨S_, .f32⟩
  | 3 => ⟨S512, .i32⟩
  | 4 => ⟨S512, .i32⟩
  | 5 => ⟨S512, .i32⟩
  | 6 => ⟨S512, .i32⟩
  | 7 => ⟨S512x256, .f32⟩
  | 8 => ⟨S512x256, .f32⟩
  | 9 => ⟨S_, .f32⟩
  | 10 => ⟨S512, .f32⟩
  | 11 => ⟨S512x1, .f32⟩
  | 12 => ⟨S512x1, .f32⟩
  | 13 => ⟨S_, .f32⟩
  | 14 => ⟨S512x1, .f32⟩
  | 15 => ⟨S512x1, .f32⟩
  | 16 => ⟨S512x256, .f32⟩
  | 17 => ⟨S512x256, .f32⟩
  | 18 => ⟨S100000x256, .f32⟩
  | 19 => ⟨S_, .f32⟩
  | 20 => ⟨S100000, .f32⟩
  | 21 => ⟨S100000x1, .f32⟩
  | 22 => ⟨S100000x1, .f32⟩
  | 23 => ⟨S_, .f32⟩
  | 24 => ⟨S100000x1, .f32⟩
  | 25 => ⟨S100000x1, .f32⟩
  | 26 => ⟨S100000x256, .f32⟩
  | 27 => ⟨S100000x256, .f32⟩
  | 28 => ⟨S512x100000, .f32⟩
  | 29 => ⟨S512, .i32⟩
  | 30 => ⟨S_, .i32⟩
  | 31 => ⟨S512, .i32⟩
  | 32 => ⟨S512, .i1⟩
  | 33 => ⟨S_, .i32⟩
  | 34 => ⟨S512, .i32⟩
  | 35 => ⟨S512, .i32⟩
  | 36 => ⟨S512, .i32⟩
  | 37 => ⟨S_, .i32⟩
  | 38 => ⟨S512, .i32⟩
  | 39 => ⟨S512, .i1⟩
  | 40 => ⟨S_, .i32⟩
  | 41 => ⟨S512, .i32⟩
  | 42 => ⟨S512, .i32⟩
  | 43 => ⟨S512, .i32⟩
  | 44 => ⟨S512x1, .i32⟩
  | 45 => ⟨S512x1, .i32⟩
  | 46 => ⟨S512x2, .i32⟩
  | 47 => ⟨S512, .f32⟩
  | 48 => ⟨S_, .f32⟩
  | 49 => ⟨S512, .f32⟩
  | 50 => ⟨S512, .f32⟩
  | 51 => ⟨S_, .i32⟩
  | 52 => ⟨S512, .i32⟩
  | 53 => ⟨S512, .i1⟩
  | 54 => ⟨S_, .i32⟩
  | 55 => ⟨S512, .i32⟩
  | 56 => ⟨S512, .i32⟩
  | 57 => ⟨S512, .i32⟩
  | 58 => ⟨S_, .i32⟩
  | 59 => ⟨S512, .i32⟩
  | 60 => ⟨S512, .i1⟩
  | 61 => ⟨S_, .i32⟩
  | 62 => ⟨S512, .i32⟩
  | 63 => ⟨S512, .i32⟩
  | 64 => ⟨S512, .i32⟩
  | 65 => ⟨S512x1, .i32⟩
  | 66 => ⟨S512x1, .i32⟩
  | 67 => ⟨S512x2, .i32⟩
  | 68 => ⟨S512, .f32⟩
  | 69 => ⟨S_, .f32⟩
  | 70 => ⟨S512, .f32⟩
  | 71 => ⟨S512, .f32⟩
  | 72 => ⟨S_, .i32⟩
  | 73 => ⟨S512, .i32⟩
  | 74 => ⟨S512, .i1⟩
  | 75 => ⟨S_, .i32⟩
  | 76 => ⟨S512, .i32⟩
  | 77 => ⟨S512, .i32⟩
  | 78 => ⟨S512, .i32⟩
  | 79 => ⟨S_, .i32⟩
  | 80 => ⟨S512, .i32⟩
  | 81 => ⟨S512, .i1⟩
  | 82 => ⟨S_, .i32⟩
  | 83 => ⟨S512, .i32⟩
  | 84 => ⟨S512, .i32⟩
  | 85 => ⟨S512, .i32⟩
  | 86 => ⟨S512x1, .i32⟩
  | 87 => ⟨S512x1, .i32⟩
  | 88 => ⟨S512x2, .i32⟩
  | 89 => ⟨S512, .f32⟩
  | 90 => ⟨S_, .f32⟩
  | 91 => ⟨S512, .f32⟩
  | 92 => ⟨S512, .f32⟩
  | 93 => ⟨S_, .i32⟩
  | 94 => ⟨S512, .i32⟩
  | 95 => ⟨S512, .i1⟩
  | 96 => ⟨S_, .i32⟩
  | 97 => ⟨S512, .i32⟩
  | 98 => ⟨S512, .i32⟩
  | 99 => ⟨S512, .i32⟩
  | 100 => ⟨S_, .i32⟩
  | 101 => ⟨S512, .i32⟩
  | 102 => ⟨S512, .i1⟩
  | 103 => ⟨S_, .i32⟩
  | 104 => ⟨S512, .i32⟩
  | 105 => ⟨S512, .i32⟩
  | 106 => ⟨S512, .i32⟩
  | 107 => ⟨S512x1, .i32⟩
  | 108 => ⟨S512x1, .i32⟩
  | 109 => ⟨S512x2, .i32⟩
  | 110 => ⟨S512, .f32⟩
  | 111 => ⟨S_, .f32⟩
  | 112 => ⟨S512, .f32⟩
  | 113 => ⟨S512, .f32⟩
  | 114 => ⟨S_, .i32⟩
  | 115 => ⟨S512, .i32⟩
  | 116 => ⟨S512, .i1⟩
  | 117 => ⟨S_, .i32⟩
  | 118 => ⟨S512, .i32⟩
  | 119 => ⟨S512, .i32⟩
  | 120 => ⟨S512, .i32⟩
  | 121 => ⟨S_, .i32⟩
  | 122 => ⟨S512, .i32⟩
  | 123 => ⟨S512, .i1⟩
  | 124 => ⟨S_, .i32⟩
  | 125 => ⟨S512, .i32⟩
  | 126 => ⟨S512, .i32⟩
  | 127 => ⟨S512, .i32⟩
  | _ => ⟨S512x256x1, .f32⟩

abbrev hbmTy0_1 (i : Nat) : BufTy := match i % 128 with
  | 0 => ⟨S512x1, .i32⟩
  | 1 => ⟨S512x1, .i32⟩
  | 2 => ⟨S512x2, .i32⟩
  | 3 => ⟨S512x100000, .f32⟩
  | 4 => ⟨S_, .f32⟩
  | 5 => ⟨S512x100000, .f32⟩
  | 6 => ⟨S512x100000, .f32⟩
  | 7 => ⟨S_, .i32⟩
  | 8 => ⟨S512, .i32⟩
  | 9 => ⟨S512, .i1⟩
  | 10 => ⟨S_, .i32⟩
  | 11 => ⟨S512, .i32⟩
  | 12 => ⟨S512, .i32⟩
  | 13 => ⟨S512, .i32⟩
  | 14 => ⟨S_, .i32⟩
  | 15 => ⟨S512, .i32⟩
  | 16 => ⟨S512, .i1⟩
  | 17 => ⟨S_, .i32⟩
  | 18 => ⟨S512, .i32⟩
  | 19 => ⟨S512, .i32⟩
  | 20 => ⟨S512, .i32⟩
  | 21 => ⟨S512x1, .i32⟩
  | 22 => ⟨S512x1, .i32⟩
  | 23 => ⟨S512x2, .i32⟩
  | 24 => ⟨S512x100000, .f32⟩
  | 25 => ⟨S_, .i32⟩
  | 26 => ⟨S512, .i32⟩
  | 27 => ⟨S512, .i1⟩
  | 28 => ⟨S_, .i32⟩
  | 29 => ⟨S512, .i32⟩
  | 30 => ⟨S512, .i32⟩
  | 31 => ⟨S512, .i32⟩
  | 32 => ⟨S_, .i32⟩
  | 33 => ⟨S512, .i32⟩
  | 34 => ⟨S512, .i1⟩
  | 35 => ⟨S_, .i32⟩
  | 36 => ⟨S512, .i32⟩
  | 37 => ⟨S512, .i32⟩
  | 38 => ⟨S512, .i32⟩
  | 39 => ⟨S512x1, .i32⟩
  | 40 => ⟨S512x1, .i32⟩
  | 41 => ⟨S512x2, .i32⟩
  | 42 => ⟨S512x100000, .f32⟩
  | 43 => ⟨S_, .i32⟩
  | 44 => ⟨S512, .i32⟩
  | 45 => ⟨S512, .i1⟩
  | 46 => ⟨S_, .i32⟩
  | 47 => ⟨S512, .i32⟩
  | 48 => ⟨S512, .i32⟩
  | 49 => ⟨S512, .i32⟩
  | 50 => ⟨S_, .i32⟩
  | 51 => ⟨S512, .i32⟩
  | 52 => ⟨S512, .i1⟩
  | 53 => ⟨S_, .i32⟩
  | 54 => ⟨S512, .i32⟩
  | 55 => ⟨S512, .i32⟩
  | 56 => ⟨S512, .i32⟩
  | 57 => ⟨S512x1, .i32⟩
  | 58 => ⟨S512x1, .i32⟩
  | 59 => ⟨S512x2, .i32⟩
  | 60 => ⟨S512x100000, .f32⟩
  | 61 => ⟨S_, .f32⟩
  | 62 => ⟨S512x100000, .f32⟩
  | 63 => ⟨S512x100000, .f32⟩
  | 64 => ⟨S_, .f32⟩
  | 65 => ⟨S512, .f32⟩
  | 66 => ⟨S_, .f32⟩
  | 67 => ⟨S512, .f32⟩
  | 68 => ⟨S512, .f32⟩
  | 69 => ⟨S512x1, .f32⟩
  | 70 => ⟨S512x100000, .f32⟩
  | 71 => ⟨S512x100000, .f32⟩
  | 72 => ⟨S512x100000, .f32⟩
  | 73 => ⟨S_, .f32⟩
  | 74 => ⟨S512, .f32⟩
  | 75 => ⟨S512x1, .f32⟩
  | 76 => ⟨S512x1, .f32⟩
  | 77 => ⟨S512x100000, .f32⟩
  | 78 => ⟨S512x100000, .f32⟩
  | 79 => ⟨S_, .i32⟩
  | 80 => ⟨S512, .i32⟩
  | 81 => ⟨S512, .i1⟩
  | 82 => ⟨S_, .i32⟩
  | 83 => ⟨S512, .i32⟩
  | 84 => ⟨S512, .i32⟩
  | 85 => ⟨S512, .i32⟩
  | 86 => ⟨S_, .i32⟩
  | 87 => ⟨S512, .i32⟩
  | 88 => ⟨S512, .i1⟩
  | 89 => ⟨S_, .i32⟩
  | 90 => ⟨S512, .i32⟩
  | 91 => ⟨S512, .i32⟩
  | 92 => ⟨S512, .i32⟩
  | 93 => ⟨S512x1, .i32⟩
  | 94 => ⟨S512x1, .i32⟩
  | 95 => ⟨S512x2, .i32⟩
  | 96 => ⟨S512, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .i32⟩
  | 105 => ⟨S512, .i32⟩
  | 106 => ⟨S512, .i1⟩
  | 107 => ⟨S_, .i32⟩
  | 108 => ⟨S512, .i32⟩
  | 109 => ⟨S512, .i32⟩
  | 110 => ⟨S512, .i32⟩
  | 111 => ⟨S_, .i32⟩
  | 112 => ⟨S512, .i32⟩
  | 113 => ⟨S512, .i1⟩
  | 114 => ⟨S_, .i32⟩
  | 115 => ⟨S512, .i32⟩
  | 116 => ⟨S512, .i32⟩
  | 117 => ⟨S512, .i32⟩
  | 118 => ⟨S512x1, .i32⟩
  | 119 => ⟨S512x1, .i32⟩
  | 120 => ⟨S512x2, .i32⟩
  | 121 => ⟨S512, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S512x256x1, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .i32⟩
  | 6 => ⟨S512, .i32⟩
  | 7 => ⟨S512, .i1⟩
  | 8 => ⟨S_, .i32⟩
  | 9 => ⟨S512, .i32⟩
  | 10 => ⟨S512, .i32⟩
  | 11 => ⟨S512, .i32⟩
  | 12 => ⟨S_, .i32⟩
  | 13 => ⟨S512, .i32⟩
  | 14 => ⟨S512, .i1⟩
  | 15 => ⟨S_, .i32⟩
  | 16 => ⟨S512, .i32⟩
  | 17 => ⟨S512, .i32⟩
  | 18 => ⟨S512, .i32⟩
  | 19 => ⟨S512x1, .i32⟩
  | 20 => ⟨S512x1, .i32⟩
  | 21 => ⟨S512x2, .i32⟩
  | 22 => ⟨S512, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .i32⟩
  | 31 => ⟨S512, .i32⟩
  | 32 => ⟨S512, .i1⟩
  | 33 => ⟨S_, .i32⟩
  | 34 => ⟨S512, .i32⟩
  | 35 => ⟨S512, .i32⟩
  | 36 => ⟨S512, .i32⟩
  | 37 => ⟨S_, .i32⟩
  | 38 => ⟨S512, .i32⟩
  | 39 => ⟨S512, .i1⟩
  | 40 => ⟨S_, .i32⟩
  | 41 => ⟨S512, .i32⟩
  | 42 => ⟨S512, .i32⟩
  | 43 => ⟨S512, .i32⟩
  | 44 => ⟨S512x1, .i32⟩
  | 45 => ⟨S512x1, .i32⟩
  | 46 => ⟨S512x2, .i32⟩
  | 47 => ⟨S512, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | _ => ⟨S512x256x1, .f32⟩

abbrev hbmTy (i : Nat) : BufTy := match i / 128 with
  | 0 => hbmTy0_0 i
  | 1 => hbmTy0_1 i
  | 2 => hbmTy0_2 i
  | _ => ⟨S512x256x1, .f32⟩

abbrev bufTy : (tb : Table) → Fin (tcTables nBuf tb) → BufTy
  | .hbm, ⟨i, _⟩ => hbmTy i
  | _, _ => ⟨S512x256x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_9 : Ref sig .tc := ⟨.hbm, 58, rfl⟩
abbrev main_v40 : Ref sig .tc := ⟨.hbm, 59, rfl⟩
abbrev main_v41 : Ref sig .tc := ⟨.hbm, 60, rfl⟩
abbrev main_c_10 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_c_12 : Ref sig .tc := ⟨.hbm, 72, rfl⟩
abbrev main_v51 : Ref sig .tc := ⟨.hbm, 73, rfl⟩
abbrev main_v52 : Ref sig .tc := ⟨.hbm, 74, rfl⟩
abbrev main_c_13 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_14 : Ref sig .tc := ⟨.hbm, 79, rfl⟩
abbrev main_v56 : Ref sig .tc := ⟨.hbm, 80, rfl⟩
abbrev main_v57 : Ref sig .tc := ⟨.hbm, 81, rfl⟩
abbrev main_c_15 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_16 : Ref sig .tc := ⟨.hbm, 90, rfl⟩
abbrev main_v65 : Ref sig .tc := ⟨.hbm, 91, rfl⟩
abbrev main_v66 : Ref sig .tc := ⟨.hbm, 92, rfl⟩
abbrev main_c_17 : Ref sig .tc := ⟨.hbm, 93, rfl⟩
abbrev main_v67 : Ref sig .tc := ⟨.hbm, 94, rfl⟩
abbrev main_v68 : Ref sig .tc := ⟨.hbm, 95, rfl⟩
abbrev main_c_18 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_c_19 : Ref sig .tc := ⟨.hbm, 100, rfl⟩
abbrev main_v72 : Ref sig .tc := ⟨.hbm, 101, rfl⟩
abbrev main_v73 : Ref sig .tc := ⟨.hbm, 102, rfl⟩
abbrev main_c_20 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_21 : Ref sig .tc := ⟨.hbm, 111, rfl⟩
abbrev main_v81 : Ref sig .tc := ⟨.hbm, 112, rfl⟩
abbrev main_v82 : Ref sig .tc := ⟨.hbm, 113, rfl⟩
abbrev main_c_22 : Ref sig .tc := ⟨.hbm, 114, rfl⟩
abbrev main_v83 : Ref sig .tc := ⟨.hbm, 115, rfl⟩
abbrev main_v84 : Ref sig .tc := ⟨.hbm, 116, rfl⟩
abbrev main_c_23 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_c_24 : Ref sig .tc := ⟨.hbm, 121, rfl⟩
abbrev main_v88 : Ref sig .tc := ⟨.hbm, 122, rfl⟩
abbrev main_v89 : Ref sig .tc := ⟨.hbm, 123, rfl⟩
abbrev main_c_25 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_26 : Ref sig .tc := ⟨.hbm, 132, rfl⟩
abbrev main_v97 : Ref sig .tc := ⟨.hbm, 133, rfl⟩
abbrev main_v98 : Ref sig .tc := ⟨.hbm, 134, rfl⟩
abbrev main_c_27 : Ref sig .tc := ⟨.hbm, 135, rfl⟩
abbrev main_v99 : Ref sig .tc := ⟨.hbm, 136, rfl⟩
abbrev main_v100 : Ref sig .tc := ⟨.hbm, 137, rfl⟩
abbrev main_c_28 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_c_29 : Ref sig .tc := ⟨.hbm, 142, rfl⟩
abbrev main_v104 : Ref sig .tc := ⟨.hbm, 143, rfl⟩
abbrev main_v105 : Ref sig .tc := ⟨.hbm, 144, rfl⟩
abbrev main_c_30 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_c_31 : Ref sig .tc := ⟨.hbm, 153, rfl⟩
abbrev main_v113 : Ref sig .tc := ⟨.hbm, 154, rfl⟩
abbrev main_v114 : Ref sig .tc := ⟨.hbm, 155, rfl⟩
abbrev main_c_32 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_c_33 : Ref sig .tc := ⟨.hbm, 160, rfl⟩
abbrev main_v118 : Ref sig .tc := ⟨.hbm, 161, rfl⟩
abbrev main_v119 : Ref sig .tc := ⟨.hbm, 162, rfl⟩
abbrev main_c_34 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_c_35 : Ref sig .tc := ⟨.hbm, 171, rfl⟩
abbrev main_v127 : Ref sig .tc := ⟨.hbm, 172, rfl⟩
abbrev main_v128 : Ref sig .tc := ⟨.hbm, 173, rfl⟩
abbrev main_c_36 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_c_37 : Ref sig .tc := ⟨.hbm, 178, rfl⟩
abbrev main_v132 : Ref sig .tc := ⟨.hbm, 179, rfl⟩
abbrev main_v133 : Ref sig .tc := ⟨.hbm, 180, rfl⟩
abbrev main_c_38 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_cst_39 : Ref sig .tc := ⟨.hbm, 189, rfl⟩
abbrev main_v141 : Ref sig .tc := ⟨.hbm, 190, rfl⟩
abbrev main_v142 : Ref sig .tc := ⟨.hbm, 191, rfl⟩
abbrev main_call0_cst : Ref sig .tc := ⟨.hbm, 192, rfl⟩
abbrev main_call0_v0 : Ref sig .tc := ⟨.hbm, 193, rfl⟩
abbrev main_call0_cst_0 : Ref sig .tc := ⟨.hbm, 194, rfl⟩
abbrev main_call0_v1 : Ref sig .tc := ⟨.hbm, 195, rfl⟩
abbrev main_call0_v2 : Ref sig .tc := ⟨.hbm, 196, rfl⟩
abbrev main_call0_v3 : Ref sig .tc := ⟨.hbm, 197, rfl⟩
abbrev main_call0_v4 : Ref sig .tc := ⟨.hbm, 198, rfl⟩
abbrev main_call0_v5 : Ref sig .tc := ⟨.hbm, 199, rfl⟩
abbrev main_call0_v6 : Ref sig .tc := ⟨.hbm, 200, rfl⟩
abbrev main_call0_cst_1 : Ref sig .tc := ⟨.hbm, 201, rfl⟩
abbrev main_call0_v7 : Ref sig .tc := ⟨.hbm, 202, rfl⟩
abbrev main_call0_v8 : Ref sig .tc := ⟨.hbm, 203, rfl⟩
abbrev main_call0_v9 : Ref sig .tc := ⟨.hbm, 204, rfl⟩
abbrev main_call0_v10 : Ref sig .tc := ⟨.hbm, 205, rfl⟩
abbrev main_v143 : Ref sig .tc := ⟨.hbm, 206, rfl⟩
abbrev main_c_40 : Ref sig .tc := ⟨.hbm, 207, rfl⟩
abbrev main_v144 : Ref sig .tc := ⟨.hbm, 208, rfl⟩
abbrev main_v145 : Ref sig .tc := ⟨.hbm, 209, rfl⟩
abbrev main_c_41 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_c_42 : Ref sig .tc := ⟨.hbm, 214, rfl⟩
abbrev main_v149 : Ref sig .tc := ⟨.hbm, 215, rfl⟩
abbrev main_v150 : Ref sig .tc := ⟨.hbm, 216, rfl⟩
abbrev main_c_43 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_cst_44 : Ref sig .tc := ⟨.hbm, 225, rfl⟩
abbrev main_v158 : Ref sig .tc := ⟨.hbm, 226, rfl⟩
abbrev main_cst_45 : Ref sig .tc := ⟨.hbm, 227, rfl⟩
abbrev main_v159 : Ref sig .tc := ⟨.hbm, 228, rfl⟩
abbrev main_v160 : Ref sig .tc := ⟨.hbm, 229, rfl⟩
abbrev main_cst_46 : Ref sig .tc := ⟨.hbm, 230, rfl⟩
abbrev main_v161 : Ref sig .tc := ⟨.hbm, 231, rfl⟩
abbrev main_c_47 : Ref sig .tc := ⟨.hbm, 232, rfl⟩
abbrev main_v162 : Ref sig .tc := ⟨.hbm, 233, rfl⟩
abbrev main_v163 : Ref sig .tc := ⟨.hbm, 234, rfl⟩
abbrev main_c_48 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_c_49 : Ref sig .tc := ⟨.hbm, 239, rfl⟩
abbrev main_v167 : Ref sig .tc := ⟨.hbm, 240, rfl⟩
abbrev main_v168 : Ref sig .tc := ⟨.hbm, 241, rfl⟩
abbrev main_c_50 : Ref sig .tc := ⟨.hbm, 242, rfl⟩
abbrev main_v169 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_v175 : Ref sig .tc := ⟨.hbm, 249, rfl⟩
abbrev main_cst_51 : Ref sig .tc := ⟨.hbm, 250, rfl⟩
abbrev main_v176 : Ref sig .tc := ⟨.hbm, 251, rfl⟩
abbrev main_cst_52 : Ref sig .tc := ⟨.hbm, 252, rfl⟩
abbrev main_v177 : Ref sig .tc := ⟨.hbm, 253, rfl⟩
abbrev main_v178 : Ref sig .tc := ⟨.hbm, 254, rfl⟩
abbrev main_cst_53 : Ref sig .tc := ⟨.hbm, 255, rfl⟩
abbrev main_v179 : Ref sig .tc := ⟨.hbm, 256, rfl⟩
abbrev main_v180 : Ref sig .tc := ⟨.hbm, 257, rfl⟩
abbrev main_v181 : Ref sig .tc := ⟨.hbm, 258, rfl⟩
abbrev main_cst_54 : Ref sig .tc := ⟨.hbm, 259, rfl⟩
abbrev main_v182 : Ref sig .tc := ⟨.hbm, 260, rfl⟩
abbrev main_c_55 : Ref sig .tc := ⟨.hbm, 261, rfl⟩
abbrev main_v183 : Ref sig .tc := ⟨.hbm, 262, rfl⟩
abbrev main_v184 : Ref sig .tc := ⟨.hbm, 263, rfl⟩
abbrev main_c_56 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_c_57 : Ref sig .tc := ⟨.hbm, 268, rfl⟩
abbrev main_v188 : Ref sig .tc := ⟨.hbm, 269, rfl⟩
abbrev main_v189 : Ref sig .tc := ⟨.hbm, 270, rfl⟩
abbrev main_c_58 : Ref sig .tc := ⟨.hbm, 271, rfl⟩
abbrev main_v190 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_v195 : Ref sig .tc := ⟨.hbm, 277, rfl⟩
abbrev main_v196 : Ref sig .tc := ⟨.hbm, 278, rfl⟩
abbrev main_cst_59 : Ref sig .tc := ⟨.hbm, 279, rfl⟩
abbrev main_v197 : Ref sig .tc := ⟨.hbm, 280, rfl⟩
abbrev main_cst_60 : Ref sig .tc := ⟨.hbm, 281, rfl⟩
abbrev main_v198 : Ref sig .tc := ⟨.hbm, 282, rfl⟩
abbrev main_v199 : Ref sig .tc := ⟨.hbm, 283, rfl⟩
abbrev main_cst_61 : Ref sig .tc := ⟨.hbm, 284, rfl⟩
abbrev main_v200 : Ref sig .tc := ⟨.hbm, 285, rfl⟩
abbrev main_c_62 : Ref sig .tc := ⟨.hbm, 286, rfl⟩
abbrev main_v201 : Ref sig .tc := ⟨.hbm, 287, rfl⟩
abbrev main_v202 : Ref sig .tc := ⟨.hbm, 288, rfl⟩
abbrev main_c_63 : Ref sig .tc := ⟨.hbm, 289, rfl⟩
abbrev main_v203 : Ref sig .tc := ⟨.hbm, 290, rfl⟩
abbrev main_v204 : Ref sig .tc := ⟨.hbm, 291, rfl⟩
abbrev main_v205 : Ref sig .tc := ⟨.hbm, 292, rfl⟩
abbrev main_c_64 : Ref sig .tc := ⟨.hbm, 293, rfl⟩
abbrev main_v206 : Ref sig .tc := ⟨.hbm, 294, rfl⟩
abbrev main_v207 : Ref sig .tc := ⟨.hbm, 295, rfl⟩
abbrev main_c_65 : Ref sig .tc := ⟨.hbm, 296, rfl⟩
abbrev main_v208 : Ref sig .tc := ⟨.hbm, 297, rfl⟩
abbrev main_v209 : Ref sig .tc := ⟨.hbm, 298, rfl⟩
abbrev main_v210 : Ref sig .tc := ⟨.hbm, 299, rfl⟩
abbrev main_v211 : Ref sig .tc := ⟨.hbm, 300, rfl⟩
abbrev main_v212 : Ref sig .tc := ⟨.hbm, 301, rfl⟩
abbrev main_v213 : Ref sig .tc := ⟨.hbm, 302, rfl⟩
abbrev main_v214 : Ref sig .tc := ⟨.hbm, 303, rfl⟩
abbrev main_cst_66 : Ref sig .tc := ⟨.hbm, 304, rfl⟩
abbrev main_v215 : Ref sig .tc := ⟨.hbm, 305, rfl⟩
abbrev main_cst_67 : Ref sig .tc := ⟨.hbm, 306, rfl⟩
abbrev main_v216 : Ref sig .tc := ⟨.hbm, 307, rfl⟩
abbrev main_v217 : Ref sig .tc := ⟨.hbm, 308, rfl⟩
abbrev main_cst_68 : Ref sig .tc := ⟨.hbm, 309, rfl⟩
abbrev main_v218 : Ref sig .tc := ⟨.hbm, 310, rfl⟩
abbrev main_v219 : Ref sig .tc := ⟨.hbm, 311, rfl⟩
abbrev main_v220 : Ref sig .tc := ⟨.hbm, 312, rfl⟩
abbrev main_v221 : Ref sig .tc := ⟨.hbm, 313, rfl⟩

abbrev nD : Nat := 1
abbrev τ : Topo := Topo.v7x

variable {F : FTy → Type} [FloatOps F]

class Facts₀ : Prop where
  shapeCasts_S512x256x1_S512x256 : S512x256x1.ShapeCasts S512x256
  reducesTo_S512x256_S512_d1 : S512x256.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x256_0_1 : S512x1.BroadcastsInDim S512x256 (![0, 1] : Fin 2 → Fin S512x256.rank)
  reducesTo_S100000x256_S100000_d1 : S100000x256.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  bcast_S_S512 : S_.BroadcastsInDim S512 (![] : Fin 0 → Fin S512.rank)
  concatenates_S512x1_S512x1_S512x2_d1 : Shape.Concatenates [S512x1, S512x1] S512x2 1
  bcast_S_S512x100000 : S_.BroadcastsInDim S512x100000 (![] : Fin 0 → Fin S512x100000.rank)
  reducesTo_S512x100000_S512_d1 : S512x100000.ReducesTo [1] S512
  bcast_S512x1_S512x100000_0_1 : S512x1.BroadcastsInDim S512x100000 (![0, 1] : Fin 2 → Fin S512x100000.rank)
  reducesTo_S512_S_d0 : S512.ReducesTo [0] S_
  dot_S512x256_S100000x256_S512x100000_1_1_0_0_n_n_wf : DotDims.WF S512x256 S100000x256 S512x100000 [1] [1] [0] [0] [] []
  gather_S512x100000_S512x2_S512_n_01_n_n_01_1_11_wf : GatherDims.WF S512x100000 S512x2 S512 [] [0, 1] [] [0, 1] [] 1 ![1, 1]
  scatter_S512x100000_S512x2_S512_n_01_01_1_wf : ScatterDims.WF S512x100000 S512x2 S512 [] [0, 1] [0, 1] 1

variable [Facts₀]

def dot_S512x256_S100000x256_S512x100000_1_1_0_0_n_n : DotDims S512x256 S100000x256 S512x100000 where
  lhsContracting := [1]
  rhsContracting := [1]
  lhsNonContracting := [0]
  rhsNonContracting := [0]
  lhsBatch := []
  rhsBatch := []
  wf := dot_S512x256_S100000x256_S512x100000_1_1_0_0_n_n_wf
def gather_S512x100000_S512x2_S512_n_01_n_n_01_1_11 : GatherDims S512x100000 S512x2 S512 where
  offsetDims := []
  collapsedSliceDims := [0, 1]
  operandBatchingDims := []
  startIndicesBatchingDims := []
  startIndexMap := [0, 1]
  indexVectorDim := 1
  sliceSizes := ![1, 1]
  wf := gather_S512x100000_S512x2_S512_n_01_n_n_01_1_11_wf
def scatter_S512x100000_S512x2_S512_n_01_01_1 : ScatterDims S512x100000 S512x2 S512 where
  updateWindowDims := []
  insertedWindowDims := [0, 1]
  scatterDimsToOperandDims := [0, 1]
  indexVectorDim := 1
  wf := scatter_S512x100000_S512x2_S512_n_01_01_1_wf

class Facts : Prop extends Facts₀ where

variable [Facts]
-- ==== Proof.Word.Kit.lean ====
import proofs.«415580_j72155450573201_1_alg».proof.Proof.Gen.Kernel.Launch
import Idealize.ShloMosaic.Lib.Pipeline.FrameSuffix

set_option maxRecDepth 16384

noncomputable section

namespace Cert.Kernel.Kit

open Idealize.ShloMosaic Idealize.ShloMosaic.TcCoe
open Idealize.SL Idealize.SL.Sem
open Cert.Kernel Cert.Kernel.Gen

variable {F : FTy → Type} [FloatOps F]

noncomputable abbrev headOps : List (List (HloOp τ sig (Elt F))) := [hostOps0]

noncomputable abbrev tailOps : List (List (HloOp τ sig (Elt F))) :=
  [hostOps1, hostOps1_1, hostOps1_2, hostOps1_3, hostOps1_4, hostOps1_5, hostOps1_6,
   hostOps1_7, hostOps1_8, hostOps1_9, hostOps1_10, hostOps1_11, hostOps1_12]

variable (m : (ℓ : Loc nD τ sig) → Buf (Elt F) ℓ)

noncomputable abbrev V0 (c : Dev nD) : Valuation τ sig (Elt F) := StableHlo.after (List.flatten (headOps (F := F))) (fun b => m (c, b))
noncomputable abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem main_around (c : Dev nD) :
    main (F := F) c = Pipeline.chain ((headOps (F := F)).map StableHlo.seq
      ++ [Prog.lift (.customCall (Pipeline.entry (0 : Fin 1)) ())] ++ (tailOps (F := F)).map StableHlo.seq) := by
  rw [main_chain]; rfl

end Cert.Kernel.Kit

end
-- ==== Proof.Word.Cases.lean ====
import proofs.«415580_j72155450573201_1_alg».proof.Proof.Gen.Kernel.Skeleton
import proofs.«415580_j72155450573201_1_alg».proof.Proof.Gen.Kernel.Launch
import proofs.«415580_j72155450573201_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Cases

open Idealize.ShloMosaic Idealize.ShloMosaic.TcCoe
open Cert.Kernel Cert.Kernel.Gen

variable {F : FTy → Type} [FloatOps F]

abbrev condFirst (i : grid0.Coords) : Prop :=
  (Scalar.cmpi .ne (Scalar.extui (Scalar.cmpi .eq (BitVec.ofNat 32 (i 1).val) 0#32)) 0#32) = 1#1
abbrev condLast (i : grid0.Coords) : Prop := k0_cond2 i = 1#1

theorem condFirst_iff : ∀ t : Fin cfg0.N, condFirst (grid0.coords t) ↔ t.val % 25 = 0 :=
  (by decide +kernel : ∀ t : Fin grid0.N, condFirst (grid0.coords t) ↔ t.val % 25 = 0)
theorem condLast_iff : ∀ t : Fin cfg0.N, condLast (grid0.coords t) ↔ t.val % 25 = 24 :=
  (by decide +kernel : ∀ t : Fin grid0.N, condLast (grid0.coords t) ↔ t.val % 25 = 24)

theorem live : ∀ (t : Fin cfg0.N) (w : Fin cfg0.W), w.val < 2 ∨ t.val % 25 = 24 → cfg0.idle w (grid0.coords t) = false := by
  decide +kernel
theorem idle : ∀ (t : Fin cfg0.N) (w : Fin cfg0.W), 2 ≤ w.val → ¬t.val % 25 = 24 →
    cfg0.idle w (grid0.coords t) = true ∧ (cfg0.win w).flush t = false := by
  decide +kernel

abbrev scMax : Memref sig .tc .vmem S512x1 .f32 := Memref.whole cc0_scratch0
abbrev scSum : Memref sig .tc .vmem S512x1 .f32 := Memref.whole cc0_scratch1

end Cert.Kernel.Cases

end
-- ==== Proof.Word.RunFirst.lean ====
import proofs.«415580_j72155450573201_1_alg».proof.Proof.Word.Cases

set_option maxRecDepth 16384

noncomputable section

namespace Cert.Kernel.Cases

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

set_option maxHeartbeats 4000000 in
noncomputable def runFirst (c : Dev nD) (i : grid0.Coords)
    (arg2 : Memref sig .tc .vmem S512x256 .bf16) (harg2 : arg2.IsWhole) (arg3 : Memref sig .tc .vmem S2000x256 .f32) (harg3 : arg3.IsWhole)
    (arg4 : Memref sig .tc .vmem S1x512x1 .f32) (harg4 : arg4.IsWhole) (arg5 : Memref sig .tc .vmem S1x512x1 .f32) (harg5 : arg5.IsWhole)
    (arg6 : Memref sig .tc .vmem S512x1 .f32) (harg6 : arg6.IsWhole) (arg7 : Memref sig .tc .vmem S512x1 .f32) (harg7 : arg7.IsWhole)
    (hc1 : condFirst i) (hc2 : ¬condLast i)
    (x : Vec F S512x256 .bf16) (w : Vec F S2000x256 .f32) :
    Σ' (LM : List (View.Piece (Elt F) S512x1 .f32)), { LS : List (View.Piece (Elt F) S512x1 .f32) //
      ∀ (o4 o5 : Vec F S1x512x1 .f32) (E : Set ℕ) (K : PUnit → sProp 𝕄),
        iprop(owns (c : Thread nD τ) arg2 fullShare x ∗ owns (c : Thread nD τ) arg3 fullShare w
            ∗ owns (c : Thread nD τ) arg4 fullShare o4 ∗ owns (c : Thread nD τ) arg5 fullShare o5
            ∗ (∃ d, owns (c : Thread nD τ) arg6 fullShare d) ∗ (∃ d, owns (c : Thread nD τ) arg7 fullShare d)
            ∗ (iprop(owns (c : Thread nD τ) arg2 fullShare x ∗ owns (c : Thread nD τ) arg3 fullShare w
                ∗ owns (c : Thread nD τ) arg4 fullShare o4 ∗ owns (c : Thread nD τ) arg5 fullShare o5
                ∗ (∃ f, arg6.view.loc (c : Thread nD τ) ↦[arg6.view.set]{fullShare} arg6.view.writes (Elt F) f LM)
                ∗ (∃ f, arg7.view.loc (c : Thread nD τ) ↦[arg7.view.set]{fullShare} arg7.view.writes (Elt F) f LS)) -∗ K ⟨⟩))
          ⊢ wp frame (wpE (defs₀ (F := F)) Variants.none c none) E
              (cc0__bulk_kernel i arg2 harg2 arg3 harg3 arg4 harg4 arg5 harg5 arg6 harg6 arg7 harg7) K } := by
  refine ⟨?_, ?_, fun o4 o5 E K => ?run⟩
  case run =>
    simp only [cc0__bulk_kernel_eq_skeleton]; unfold cc0__bulk_kernel_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf2; obtain rfl := harg3.eq_unread hf3
    obtain rfl := harg4.eq_unread hf4; obtain rfl := harg5.eq_unread hf5
    sl_exec (disch := first | exact hc1 | exact hc2)
    sl_step
    iapply Hk
    have h2 := harg2.read_unread x; have h3 := harg3.read_unread w
    have h4 := harg4.read_unread o4; have h5 := harg5.read_unread o5
    sl_close

end Cert.Kernel.Cases

end
-- ==== Proof.Word.RunMiddle.lean ====
import proofs.«415580_j72155450573201_1_alg».proof.Proof.Word.Cases

set_option maxRecDepth 16384

noncomputable section

namespace Cert.Kernel.Cases

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

set_option maxHeartbeats 4000000 in
noncomputable def runMiddle (c : Dev nD) (i : grid0.Coords)
    (arg2 : Memref sig .tc .vmem S512x256 .bf16) (harg2 : arg2.IsWhole) (arg3 : Memref sig .tc .vmem S2000x256 .f32) (harg3 : arg3.IsWhole)
    (arg4 : Memref sig .tc .vmem S1x512x1 .f32) (harg4 : arg4.IsWhole) (arg5 : Memref sig .tc .vmem S1x512x1 .f32) (harg5 : arg5.IsWhole)
    (arg6 : Memref sig .tc .vmem S512x1 .f32) (harg6 : arg6.IsWhole) (arg7 : Memref sig .tc .vmem S512x1 .f32) (harg7 : arg7.IsWhole)
    (hc1 : ¬condFirst i) (hc2 : ¬condLast i)
    (x : Vec F S512x256 .bf16) (w : Vec F S2000x256 .f32) (mx : Vec F S512x1 .f32) (sm : Vec F S512x1 .f32) :
    Σ' (LM : List (View.Piece (Elt F) S512x1 .f32)), { LS : List (View.Piece (Elt F) S512x1 .f32) //
      ∀ (o4 o5 : Vec F S1x512x1 .f32) (E : Set ℕ) (K : PUnit → sProp 𝕄),
        iprop(owns (c : Thread nD τ) arg2 fullShare x ∗ owns (c : Thread nD τ) arg3 fullShare w
            ∗ owns (c : Thread nD τ) arg4 fullShare o4 ∗ owns (c : Thread nD τ) arg5 fullShare o5
            ∗ owns (c : Thread nD τ) arg6 fullShare mx ∗ owns (c : Thread nD τ) arg7 fullShare sm
            ∗ (iprop(owns (c : Thread nD τ) arg2 fullShare x ∗ owns (c : Thread nD τ) arg3 fullShare w
                ∗ owns (c : Thread nD τ) arg4 fullShare o4 ∗ owns (c : Thread nD τ) arg5 fullShare o5
                ∗ (∃ f, arg6.view.loc (c : Thread nD τ) ↦[arg6.view.set]{fullShare} arg6.view.writes (Elt F) f LM)
                ∗ (∃ f, arg7.view.loc (c : Thread nD τ) ↦[arg7.view.set]{fullShare} arg7.view.writes (Elt F) f LS)) -∗ K ⟨⟩))
          ⊢ wp frame (wpE (defs₀ (F := F)) Variants.none c none) E
              (cc0__bulk_kernel i arg2 harg2 arg3 harg3 arg4 harg4 arg5 harg5 arg6 harg6 arg7 harg7) K } := by
  refine ⟨?_, ?_, fun o4 o5 E K => ?run⟩
  case run =>
    simp only [cc0__bulk_kernel_eq_skeleton]; unfold cc0__bulk_kernel_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf2; obtain rfl := harg3.eq_unread hf3
    obtain rfl := harg4.eq_unread hf4; obtain rfl := harg5.eq_unread hf5
    obtain rfl := harg6.eq_unread hf6; obtain rfl := harg7.eq_unread hf7
    sl_exec (disch := first | exact hc1 | exact hc2)
    sl_step
    iapply Hk
    have h2 := harg2.read_unread x; have h3 := harg3.read_unread w
    have h4 := harg4.read_unread o4; have h5 := harg5.read_unread o5
    sl_close

end Cert.Kernel.Cases

end
-- ==== Proof.Word.RunLast.lean ====
import proofs.«415580_j72155450573201_1_alg».proof.Proof.Word.Cases

set_option maxRecDepth 16384

noncomputable section

namespace Cert.Kernel.Cases

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

set_option maxHeartbeats 4000000 in
noncomputable def runLast (c : Dev nD) (i : grid0.Coords)
    (arg2 : Memref sig .tc .vmem S512x256 .bf16) (harg2 : arg2.IsWhole) (arg3 : Memref sig .tc .vmem S2000x256 .f32) (harg3 : arg3.IsWhole)
    (arg4 : Memref sig .tc .vmem S1x512x1 .f32) (harg4 : arg4.IsWhole) (arg5 : Memref sig .tc .vmem S1x512x1 .f32) (harg5 : arg5.IsWhole)
    (arg6 : Memref sig .tc .vmem S512x1 .f32) (harg6 : arg6.IsWhole) (arg7 : Memref sig .tc .vmem S512x1 .f32) (harg7 : arg7.IsWhole)
    (hc1 : ¬condFirst i) (hc2 : condLast i)
    (x : Vec F S512x256 .bf16) (w : Vec F S2000x256 .f32) (mx : Vec F S512x1 .f32) (sm : Vec F S512x1 .f32) :
    Σ' (L4 : List (View.Piece (Elt F) S1x512x1 .f32)) (L5 : List (View.Piece (Elt F) S1x512x1 .f32))
       (LM : List (View.Piece (Elt F) S512x1 .f32)), { LS : List (View.Piece (Elt F) S512x1 .f32) //
      ∀ (E : Set ℕ) (K : PUnit → sProp 𝕄),
        iprop(owns (c : Thread nD τ) arg2 fullShare x ∗ owns (c : Thread nD τ) arg3 fullShare w
            ∗ (∃ d, owns (c : Thread nD τ) arg4 fullShare d) ∗ (∃ d, owns (c : Thread nD τ) arg5 fullShare d)
            ∗ owns (c : Thread nD τ) arg6 fullShare mx ∗ owns (c : Thread nD τ) arg7 fullShare sm
            ∗ (iprop(owns (c : Thread nD τ) arg2 fullShare x ∗ owns (c : Thread nD τ) arg3 fullShare w
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LM)
                ∗ (∃ f, arg7.view.loc (c : Thread nD τ) ↦[arg7.view.set]{fullShare} arg7.view.writes (Elt F) f LS)) -∗ K ⟨⟩))
          ⊢ wp frame (wpE (defs₀ (F := F)) Variants.none c none) E
              (cc0__bulk_kernel i arg2 harg2 arg3 harg3 arg4 harg4 arg5 harg5 arg6 harg6 arg7 harg7) K } := by
  refine ⟨?_, ?_, ?_, ?_, fun E K => ?run⟩
  case run =>
    simp only [cc0__bulk_kernel_eq_skeleton]; unfold cc0__bulk_kernel_skel
    simp only [k0_part1_eq_skeleton]; unfold k0_part1_skel
    unfold owns
    iintro ⟨⟨%f2, %hf2, H2⟩, ⟨%f3, %hf3, H3⟩, ⟨%d4, %f4, -, H4⟩, ⟨%d5, %f5, -, H5⟩, ⟨%f6, %hf6, H6⟩, ⟨%f7, %hf7, H7⟩, Hk⟩
    obtain rfl := harg2.eq_unread hf2; obtain rfl := harg3.eq_unread hf3
    obtain rfl := harg6.eq_unread hf6; obtain rfl := harg7.eq_unread hf7
    sl_exec (disch := first | exact hc1 | exact hc2)
    sl_step
    iapply Hk
    have h2 := harg2.read_unread x; have h3 := harg3.read_unread w
    sl_close

end Cert.Kernel.Cases

end
-- ==== Proof.Word.Dats.lean ====
import proofs.«415580_j72155450573201_1_alg».proof.Proof.Word.Kit
import proofs.«415580_j72155450573201_1_alg».proof.Proof.Word.RunFirst
import proofs.«415580_j72155450573201_1_alg».proof.Proof.Word.RunMiddle
import proofs.«415580_j72155450573201_1_alg».proof.Proof.Word.RunLast

set_option maxRecDepth 16384

noncomputable section

namespace Cert.Kernel.Data

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

def iblk (c : Dev nD) (w : Fin cfg0.W) (t : Fin cfg0.N) : ((cfg0.win w).xblock (cfg0.grid.coords t)).Idx → Elt F (cfg0.win w).elt :=
  ((cfg0.win w).blk t).view.read (Elt F) (Kit.V m c (Pipeline.arrRef spec0 w))

abbrev memX (t : Fin cfg0.N) : Memref sig .tc .vmem S512x256 .bf16 := win0_0.stage (cfg0.slots t 0)
abbrev wholeX (t : Fin cfg0.N) : (memX t).IsWhole := hstage0_0 ((cfg0.slots t 0).cast nbuf0_0)
abbrev memW (t : Fin cfg0.N) : Memref sig .tc .vmem S2000x256 .f32 := win0_1.stage (cfg0.slots t 1)
abbrev wholeW (t : Fin cfg0.N) : (memW t).IsWhole := hstage0_1 ((cfg0.slots t 1).cast nbuf0_1)
abbrev memMaxOut (t : Fin cfg0.N) : Memref sig .tc .vmem S1x512x1 .f32 := win0_2.stage (cfg0.slots t 2)
abbrev wholeMaxOut (t : Fin cfg0.N) : (memMaxOut t).IsWhole := hstage0_2 ((cfg0.slots t 2).cast nbuf0_2)
abbrev memSumOut (t : Fin cfg0.N) : Memref sig .tc .vmem S1x512x1 .f32 := win0_3.stage (cfg0.slots t 3)
abbrev wholeSumOut (t : Fin cfg0.N) : (memSumOut t).IsWhole := hstage0_3 ((cfg0.slots t 3).cast nbuf0_3)

abbrev VMaxOut : View sig .tc .vmem S1x512x1 .f32 := (Memref.whole cc0_stg2_0 : Memref sig .tc .vmem S1x512x1 .f32).view
abbrev VSumOut : View sig .tc .vmem S1x512x1 .f32 := (Memref.whole cc0_stg3_0 : Memref sig .tc .vmem S1x512x1 .f32).view
abbrev VMax : View sig .tc .vmem S512x1 .f32 := Cases.scMax.view
abbrev VSum : View sig .tc .vmem S512x1 .f32 := Cases.scSum.view

def firstRun (c : Dev nD) (t : Fin cfg0.N) (h0 : t.val % 25 = 0) :=
  Cases.runFirst (F := F) c (grid0.coords t) (memX t) (wholeX t) (memW t) (wholeW t) (memMaxOut t) (wholeMaxOut t) (memSumOut t) (wholeSumOut t)
    Cases.scMax (Memref.isWhole_whole _) Cases.scSum (Memref.isWhole_whole _)
    ((Cases.condFirst_iff t).mpr h0) (fun h => by have := (Cases.condLast_iff t).mp h; omega)
    (iblk m c 0 t) (iblk m c 1 t)

def middleRun (c : Dev nD) (t : Fin cfg0.N) (h0 : ¬t.val % 25 = 0) (h1 : ¬t.val % 25 = 24) (mx sm : Vec F S512x1 .f32) :=
  Cases.runMiddle (F := F) c (grid0.coords t) (memX t) (wholeX t) (memW t) (wholeW t) (memMaxOut t) (wholeMaxOut t) (memSumOut t) (wholeSumOut t)
    Cases.scMax (Memref.isWhole_whole _) Cases.scSum (Memref.isWhole_whole _)
    (fun h => h0 ((Cases.condFirst_iff t).mp h)) (fun h => h1 ((Cases.condLast_iff t).mp h))
    (iblk m c 0 t) (iblk m c 1 t) mx sm

def lastRun (c : Dev nD) (t : Fin cfg0.N) (h1 : t.val % 25 = 24) (mx sm : Vec F S512x1 .f32) :=
  Cases.runLast (F := F) c (grid0.coords t) (memX t) (wholeX t) (memW t) (wholeW t) (memMaxOut t) (wholeMaxOut t) (memSumOut t) (wholeSumOut t)
    Cases.scMax (Memref.isWhole_whole _) Cases.scSum (Memref.isWhole_whole _)
    (fun h => by have := (Cases.condFirst_iff t).mp h; omega) ((Cases.condLast_iff t).mpr h1)
    (iblk m c 0 t) (iblk m c 1 t) mx sm

def afterFirst (c : Dev nD) (t : Fin cfg0.N) (h0 : t.val % 25 = 0) : (Vec F S1x512x1 .f32 × Vec F S1x512x1 .f32) × (Vec F S512x1 .f32 × Vec F S512x1 .f32) :=
  ((VMaxOut.read (Elt F) VMaxOut.junk, VSumOut.read (Elt F) VSumOut.junk),
   (VMax.read (Elt F) (VMax.writes (Elt F) VMax.junk (firstRun m c t h0).1),
    VSum.read (Elt F) (VSum.writes (Elt F) VSum.junk (firstRun m c t h0).2.val)))

def afterMiddle (c : Dev nD) (t : Fin cfg0.N) (h0 : ¬t.val % 25 = 0) (h1 : ¬t.val % 25 = 24)
    (prev : Vec F S512x1 .f32 × Vec F S512x1 .f32) : (Vec F S1x512x1 .f32 × Vec F S1x512x1 .f32) × (Vec F S512x1 .f32 × Vec F S512x1 .f32) :=
  ((VMaxOut.read (Elt F) VMaxOut.junk, VSumOut.read (Elt F) VSumOut.junk),
   (VMax.read (Elt F) (VMax.writes (Elt F) VMax.junk (middleRun m c t h0 h1 prev.1 prev.2).1),
    VSum.read (Elt F) (VSum.writes (Elt F) VSum.junk (middleRun m c t h0 h1 prev.1 prev.2).2.val)))

def afterLast (c : Dev nD) (t : Fin cfg0.N) (h1 : t.val % 25 = 24)
    (prev : Vec F S512x1 .f32 × Vec F S512x1 .f32) : (Vec F S1x512x1 .f32 × Vec F S1x512x1 .f32) × (Vec F S512x1 .f32 × Vec F S512x1 .f32) :=
  ((VMaxOut.read (Elt F) (VMaxOut.writes (Elt F) VMaxOut.junk (lastRun m c t h1 prev.1 prev.2).1),
    VSumOut.read (Elt F) (VSumOut.writes (Elt F) VSumOut.junk (lastRun m c t h1 prev.1 prev.2).2.1)),
   (VMax.read (Elt F) (VMax.writes (Elt F) VMax.junk (lastRun m c t h1 prev.1 prev.2).2.2.1),
    VSum.read (Elt F) (VSum.writes (Elt F) VSum.junk (lastRun m c t h1 prev.1 prev.2).2.2.2.val)))

def outsAt (c : Dev nD) : (n : ℕ) → n < cfg0.N → (Vec F S1x512x1 .f32 × Vec F S1x512x1 .f32) × (Vec F S512x1 .f32 × Vec F S512x1 .f32)
  | 0, hn => afterFirst m c ⟨0, hn⟩ (Nat.zero_mod _)
  | n + 1, hn =>
    if h0 : (n + 1) % 25 = 0 then afterFirst m c ⟨n + 1, hn⟩ h0
    else if h1 : (n + 1) % 25 = 24 then afterLast m c ⟨n + 1, hn⟩ h1 (outsAt c n (Nat.lt_of_succ_lt hn)).2
    else afterMiddle m c ⟨n + 1, hn⟩ h0 h1 (outsAt c n (Nat.lt_of_succ_lt hn)).2

theorem outsAt_first (c : Dev nD) (t : Fin cfg0.N) (h0 : t.val % 25 = 0) :
    outsAt m c t.val t.isLt = afterFirst m c t h0 := by
  obtain ⟨n, hn⟩ := t
  cases n with
  | zero => exact rfl
  | succ n => exact (dif_pos h0).trans rfl

theorem outsAt_middle (c : Dev nD) (t : Fin cfg0.N) (h0 : ¬t.val % 25 = 0) (h1 : ¬t.val % 25 = 24) :
    outsAt m c t.val t.isLt
      = afterMiddle m c t h0 h1 (outsAt m c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt_last (c : Dev nD) (t : Fin cfg0.N) (h1 : t.val % 25 = 24) :
    outsAt m c t.val t.isLt
      = afterLast m c t h1 (outsAt m c (t.val - 1) (Nat.lt_of_le_of_lt (Nat.sub_le _ _) t.isLt)).2 := by
  obtain ⟨n, hn⟩ := t
  cases n with
  | zero => exact absurd h1 (fun h => by (try dsimp only at h); omega)
  | succ n =>
    have h0 : ¬(n + 1) % 25 = 0 := fun h => by (try dsimp only at h1); omega
    exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) Cases.scMax fullShare ((outsAt m c n hn).2.1)
      ∗ owns (c : Thread nD τ) Cases.scSum fullShare ((outsAt m c n hn).2.2)) ∗ (∃ r, prngReg c r))

theorem PhiS_pos (c : Dev nD) (n : ℕ) (h : n ≤ cfg0.N) (hz : n ≠ 0) :
    PhiS m c n h = iprop(iprop(owns (c : Thread nD τ) Cases.scMax fullShare ((outsAt m c (n - 1) (by omega)).2.1)
      ∗ owns (c : Thread nD τ) Cases.scSum fullShare ((outsAt m c (n - 1) (by omega)).2.2)) ∗ (∃ r, prngReg c r)) := by
  cases n with
  | zero => exact absurd rfl hz
  | succ n => rfl

theorem PhiA_eq (c : Dev nD) :
    (Pipeline.ΦA spec0 c : sProp 𝕄)
      = iprop(iprop((∃ d, owns (c : Thread nD τ) Cases.scMax fullShare d) ∗ (∃ d, owns (c : Thread nD τ) Cases.scSum fullShare d))
          ∗ (∃ r, prngReg c r)) := by
  unfold Pipeline.ΦA; rw [scopedRest0_eq]; simp only [Cases.scMax, Cases.scSum, owns_whole]; try rfl

def dats (_ : Fin 1) (c : Dev nD) : Dat τ (Elt F) Unit ℕ (UR sig nD τ) ℕ cfg0 c where
  A w := Kit.V m c (Pipeline.arrRef spec0 w)
  after w t := match w with
    | ⟨0, _⟩ => iblk m c 0 t
    | ⟨1, _⟩ => iblk m c 1 t
    | ⟨2, _⟩ => (outsAt m c t.val t.isLt).1.1
    | ⟨3, _⟩ => (outsAt m c t.val t.isLt).1.2
  Φ t := PhiS m c t.val (Nat.le_of_lt_succ t.isLt)
  q _ := fullShare
  owed _ := 0

theorem A_eq (c : Dev nD) (w : Fin cfg0.W) : (dats m 0 c).A w = Kit.V m c (Pipeline.arrRef spec0 w) := by
  dsimp only [dats]

theorem after_maxOut (c : Dev nD) (t : Fin cfg0.N) : (dats m 0 c).after 2 t = (outsAt m c t.val t.isLt).1.1 := by dsimp only [dats]
theorem after_sumOut (c : Dev nD) (t : Fin cfg0.N) : (dats m 0 c).after 3 t = (outsAt m c t.val t.isLt).1.2 := by dsimp only [dats]

theorem before_in (c : Dev nD) (t : Fin cfg0.N) :
    (∀ d, (dats m 0 c).before 0 t d = iblk m c 0 t) ∧ ∀ d, (dats m 0 c).before 1 t d = iblk m c 1 t := by
  constructor <;> intro d <;>
    exact ((dats m 0 c).before_in_eq_fetched _ rfl (fun _ => rfl) (fun _ _ _ => rfl) (fun _ => rfl) t d).trans rfl

end Cert.Kernel.Data

end
-- ==== Proof.Word.Obligation.lean ====
import proofs.«415580_j72155450573201_1_alg».proof.Proof.Word.Dats

set_option maxRecDepth 16384

noncomputable section

namespace Cert.Kernel.FrameRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel Cert.Kernel.Gen Cert.Kernel.Data

variable {F : FTy → Type} [FloatOps F]

local notation "𝕄" => MT nD τ sig Unit (Elt F) ℕ (UR sig nD τ) ℕ

variable (m : (ℓ : Loc nD τ sig) → Buf (Elt F) ℓ)

theorem PhiS_any (c : Dev nD) (n : ℕ) (h : n ≤ cfg0.N) :
    PhiS m c n h ⊢ iprop(iprop((∃ d, owns (c : Thread nD τ) Cases.scMax fullShare d) ∗ (∃ d, owns (c : Thread nD τ) Cases.scSum fullShare d)) ∗ (∃ r, prngReg c r)) := by
  cases n with
  | zero => exact Entails.of_eq (PhiA_eq c)
  | succ n =>
    show iprop(iprop(_ ∗ _) ∗ _) ⊢ _
    iintro ⟨⟨HM, HS⟩, Hg⟩
    iframe Hg; isplitl [HM] <;> iexists _ <;> iassumption

-- Pieces that cover a buffer leave it at the pieces read back, whatever it held.
theorem owns_of_cover {s : Shape} {e : EltTy} (c : Dev nD) (M : Memref sig .tc .vmem s e) (v' : View sig .tc .vmem s e)
    {L : List (View.Piece (Elt F) s e)} (h : ∀ y, ∃ pc ∈ L, y ∈ pc.1.set) :
    (iprop(∃ f, M.view.loc (c : Thread nD τ) ↦[M.view.set]{fullShare} M.view.writes (Elt F) f L) : sProp 𝕄)
      ⊢ owns (c : Thread nD τ) M fullShare (v'.read (Elt F) (v'.writes (Elt F) v'.junk L)) := by
  iintro ⟨%f, H⟩; unfold owns; iexists M.view.writes (Elt F) f L; isplitr
  · ipureintro; exact View.read_writes_of_cover _ _ _ _ _ h
  · iexact H

def bodyPre (c : Dev nD) (t : Fin cfg0.N) : sProp 𝕄 :=
  iprop(PhiS m c t.val (Nat.le_of_lt t.isLt) ∗ (dats m 0 c).owesAt () t.castSucc
    ∗ (∃ d, owns (c : Thread nD τ) (memX t) fullShare ((dats m 0 c).before 0 t d))
    ∗ (∃ d, owns (c : Thread nD τ) (memW t) fullShare ((dats m 0 c).before 1 t d))
    ∗ (∃ d, owns (c : Thread nD τ) (memMaxOut t) fullShare ((dats m 0 c).before 2 t d))
    ∗ (∃ d, owns (c : Thread nD τ) (memSumOut t) fullShare ((dats m 0 c).before 3 t d)))

def bodyPost (c : Dev nD) (t : Fin cfg0.N) : sProp 𝕄 :=
  iprop(iprop(iprop(owns (c : Thread nD τ) Cases.scMax fullShare (outsAt m c t.val t.isLt).2.1
      ∗ owns (c : Thread nD τ) Cases.scSum fullShare (outsAt m c t.val t.isLt).2.2) ∗ (∃ r, prngReg c r))
    ∗ (dats m 0 c).owesAt () t.castSucc
    ∗ (dats m 0 c).leavesExact 0 t ∗ (dats m 0 c).leavesExact 1 t
    ∗ (dats m 0 c).leavesExact 2 t ∗ (dats m 0 c).leavesExact 3 t)

theorem leaves_live (c : Dev nD) (t : Fin cfg0.N) (w : Fin cfg0.W) (h : w.val < 2 ∨ t.val % 25 = 24) :
    (dats m 0 c).leavesExact w t = owns (c : Thread nD τ) ((cfg0.win w).stage (cfg0.slots t w)) fullShare ((dats m 0 c).after w t) := by
  unfold Dat.leavesExact; rw [Cases.live t w h]

theorem leaves_idle (c : Dev nD) (t : Fin cfg0.N) (w : Fin cfg0.W) (hw : 2 ≤ w.val) (h : ¬t.val % 25 = 24) :
    (dats m 0 c).leavesExact w t = iprop(∃ d, owns (c : Thread nD τ) ((cfg0.win w).stage (cfg0.slots t w)) fullShare ((dats m 0 c).before w t d)) :=
  Dat.leavesExact_idle _ w t (Cases.idle t w hw h).1 (Cases.idle t w hw h).2

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [(before_in m c t).1, (before_in m c t).2]
  rw [show (dats m 0 c).leavesExact 0 t = owns (c : Thread nD τ) (memX t) fullShare (iblk m c 0 t) from leaves_live m c t 0 (.inl (by decide)),
    show (dats m 0 c).leavesExact 1 t = owns (c : Thread nD τ) (memW t) fullShare (iblk m c 1 t) from leaves_live m c t 1 (.inl (by decide))]
  by_cases h1 : t.val % 25 = 24
  · rw [PhiS_pos m c _ _ (fun h => by omega),
      show (dats m 0 c).leavesExact 2 t = owns (c : Thread nD τ) (memMaxOut t) fullShare (outsAt m c t.val t.isLt).1.1 from leaves_live m c t 2 (.inr h1),
      show (dats m 0 c).leavesExact 3 t = owns (c : Thread nD τ) (memSumOut t) fullShare (outsAt m c t.val t.isLt).1.2 from leaves_live m c t 3 (.inr h1),
      outsAt_last m c t h1]
    unfold afterLast; dsimp only
    have c2 := fun mx sm => View.cover_of_tiledL (lastRun m c t h1 mx sm).1 S1x512x1.size (by sl_kernel_rfl)
    have c3 := fun mx sm => View.cover_of_tiledL (lastRun m c t h1 mx sm).2.1 S1x512x1.size (by sl_kernel_rfl)
    have cM := fun mx sm => View.cover_of_tiledL (lastRun m c t h1 mx sm).2.2.1 S512x1.size (by sl_kernel_rfl)
    have cS := fun mx sm => View.cover_of_tiledL (lastRun m c t h1 mx sm).2.2.2.val S512x1.size (by sl_kernel_rfl)
    iintro ⟨⟨⟨HM, HS⟩, Hg⟩, Ho, ⟨%d0, H0⟩, ⟨%d1, H1⟩, ⟨%d2, H2⟩, ⟨%d3, H3⟩⟩
    iapply ((lastRun m c t h1 _ _).2.2.2.property Set.univ _)
    iframe H0 H1 HM HS
    isplitl [H2]; iexists _; iexact H2; isplitl [H3]; iexists _; iexact H3
    iintro ⟨H0, H1, H2, H3, HM, HS⟩
    ihave H2 := (owns_of_cover c _ VMaxOut (c2 _ _)) $$ H2
    ihave H3 := (owns_of_cover c _ VSumOut (c3 _ _)) $$ H3
    ihave HM := (owns_of_cover c _ VMax (cM _ _)) $$ HM
    ihave HS := (owns_of_cover c _ VSum (cS _ _)) $$ HS
    iframe
  · rw [leaves_idle m c t 2 (by decide) h1, leaves_idle m c t 3 (by decide) h1]
    by_cases h0 : t.val % 25 = 0
    · rw [outsAt_first m c t h0]
      unfold afterFirst; dsimp only
      iintro ⟨HΦ, Ho, ⟨%d0, H0⟩, ⟨%d1, H1⟩, ⟨%d2, H2⟩, ⟨%d3, H3⟩⟩
      icases (PhiS_any m c _ _) $$ HΦ with ⟨⟨HM, HS⟩, Hg⟩
      iapply ((firstRun m c t h0).2.property _ _ Set.univ _)
      iframe H0 H1 H2 H3 HM HS
      iintro ⟨H0, H1, H2, H3, HM, HS⟩
      ihave HM := (owns_of_cover c _ VMax (View.cover_of_tiledL (firstRun m c t h0).1 S512x1.size (by sl_kernel_rfl))) $$ HM
      ihave HS := (owns_of_cover c _ VSum (View.cover_of_tiledL (firstRun m c t h0).2.val S512x1.size (by sl_kernel_rfl))) $$ HS
      iframe HM HS Hg Ho H0 H1; isplitl [H2] <;> iexists _ <;> iassumption
    · rw [PhiS_pos m c _ _ (fun h => h0 (by rw [h])), outsAt_middle m c t h0 h1]
      unfold afterMiddle; dsimp only
      have cM := fun mx sm => View.cover_of_tiledL (middleRun m c t h0 h1 mx sm).1 S512x1.size (by sl_kernel_rfl)
      have cS := fun mx sm => View.cover_of_tiledL (middleRun m c t h0 h1 mx sm).2.val S512x1.size (by sl_kernel_rfl)
      iintro ⟨⟨⟨HM, HS⟩, Hg⟩, Ho, ⟨%d0, H0⟩, ⟨%d1, H1⟩, ⟨%d2, H2⟩, ⟨%d3, H3⟩⟩
      iapply ((middleRun m c t h0 h1 _ _).2.property _ _ Set.univ _)
      iframe H0 H1 H2 H3 HM HS
      iintro ⟨H0, H1, H2, H3, HM, HS⟩
      ihave HM := (owns_of_cover c _ VMax (cM _ _)) $$ HM
      ihave HS := (owns_of_cover c _ VSum (cS _ _)) $$ HS
      iframe HM HS Hg Ho H0 H1; isplitl [H2] <;> iexists _ <;> iassumption

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact (PhiS_any m c _ _).trans (Entails.of_eq (PhiA_eq c).symm)

end Cert.Kernel.FrameRun

end
-- ==== Proof.Word.Keeps.lean ====
import proofs.«415580_j72155450573201_1_alg».proof.Proof.Word.Kit
import Idealize.ShloMosaic.Lib.StableHlo.Run

set_option maxRecDepth 16384
set_option maxHeartbeats 4000000

noncomputable section

namespace Cert.Kernel.Keeps

open Idealize.ShloMosaic Idealize.ShloMosaic.TcCoe
open Cert.Kernel Cert.Kernel.Gen Cert.Kernel.Kit

variable {F : FTy → Type} [FloatOps F]

noncomputable abbrev afterOps : List (HloOp τ sig (Elt F)) := (tailOps (F := F)).flatten

-- A host operation writes only the value it defines, and that is none of these.
theorem kept :
    (∀ b ∈ [main_arg0, main_arg1, main_arg2, main_arg3, main_arg4, main_arg5, main_arg6],
      ∀ op ∈ (hostOps0 : List (HloOp τ sig (Elt F))), Proc.devRef (τ := τ) .tc b ∉ op.writes)
    ∧ ∀ b ∈ [main_arg0, main_arg1, main_arg2, main_arg3, main_arg4, main_arg5, main_arg6, main_v9, main_v10_0, main_v10_1],
      ∀ op ∈ afterOps (F := F), Proc.devRef (τ := τ) .tc b ∉ op.writes := by
  constructor <;> intro b hb <;> rw [← List.forall_iff_forall_mem] <;> fin_cases hb <;> (
    simp only [tailOps, List.flatten_cons, List.flatten_nil, List.append_nil, List.cons_append, List.nil_append, List.Forall,
      StableHlo.TRef.ternary, StableHlo.nullary_writes, StableHlo.unary_writes, StableHlo.binary_writes,
      StableHlo.ternary_writes, StableHlo.reshape_writes, Finset.mem_singleton]
    repeat' constructor
    all_goals exact StableHlo.devRef_ne_of_ne (by decide))

end Cert.Kernel.Keeps

end
-- ==== Proof.Word.Around.lean ====
import proofs.«415580_j72155450573201_1_alg».proof.Proof.Word.Keeps
import Idealize.ShloMosaic.Lib.Pipeline.FrameSuffix

set_option maxRecDepth 16384
set_option maxHeartbeats 4000000

noncomputable section

namespace Cert.Kernel.Around

open Idealize.ShloMosaic Idealize.ShloMosaic.TcCoe
open Idealize.SL Idealize.SL.Sem
open Cert.Kernel Cert.Kernel.Gen Cert.Kernel.Kit Cert.Kernel.Keeps

variable {F : FTy → Type} [FloatOps F]
variable (m : (ℓ : Loc nD τ sig) → Buf (Elt F) ℓ)

theorem mem_afterOps {ops : List (HloOp τ sig (Elt F))} (hops : ops ∈ tailOps (F := F)) {op : HloOp τ sig (Elt F)} (hop : op ∈ ops) :
    op ∈ afterOps (F := F) := List.mem_flatten.mpr ⟨ops, hops, hop⟩

theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main (headOps (F := F)) (tailOps (F := F)) hostOps0_sub hostOps0_fresh main_around

theorem sfx_sub : ∀ ops ∈ tailOps (F := F), ∀ op ∈ ops, op.bufs ⊆ Pipeline.tailRefs sig Pipeline.Prefetch.none spec0 := by
  rw [Pipeline.tailRefs_none spec0 launch0.win.arr_unscoped]
  intro ops hops op hop
  have h : ops.Forall fun op => op.bufs ⊆ StableHlo.tcRefs τ sig := by
    simp only [tailOps, List.mem_cons, List.mem_nil_iff, or_false] at hops
    rcases hops with rfl | rfl | rfl | rfl | rfl | rfl | rfl | rfl | rfl | rfl | rfl | rfl | rfl
    exacts [hostOps1_sub, hostOps1_1_sub, hostOps1_2_sub, hostOps1_3_sub, hostOps1_4_sub, hostOps1_5_sub, hostOps1_6_sub,
      hostOps1_7_sub, hostOps1_8_sub, hostOps1_9_sub, hostOps1_10_sub, hostOps1_11_sub, hostOps1_12_sub]
  exact Pipeline.sub_ucRefs op (List.forall_iff_forall_mem.mp h op hop)

theorem sfx_fresh : ∀ ops ∈ tailOps (F := F), ∀ op ∈ ops, op.fresh = ∅ := by
  intro ops hops op hop
  have h : ∀ op ∈ afterOps (F := F), op.fresh = ∅ := by
    rw [← List.forall_iff_forall_mem]
    simp only [tailOps, List.flatten_cons, List.flatten_nil, List.append_nil, List.cons_append, List.nil_append, List.Forall]
    repeat' constructor
  exact h op (mem_afterOps hops hop)

theorem sfx_keeps : ∀ ops ∈ tailOps (F := F), ∀ op ∈ ops, ∀ w, Proc.devRef .tc (Pipeline.arrRef spec0 w) ∉ op.writes := by
  intro ops hops op hop w
  have h := mem_afterOps hops hop
  fin_cases w
  exacts [kept.2 main_v9 (by decide) op h, kept.2 main_arg1 (by decide) op h, kept.2 main_v10_0 (by decide) op h, kept.2 main_v10_1 (by decide) op h]

end Cert.Kernel.Around

end
-- ==== Proof.Word.FrameRun.lean ====
import proofs.«415580_j72155450573201_1_alg».proof.Proof.Word.Obligation
import proofs.«415580_j72155450573201_1_alg».proof.Proof.Word.Around

set_option maxRecDepth 16384

noncomputable section

namespace Cert.Kernel.FrameRun

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ) (ρ : Dev nD → PrngReg)

set_option backward.isDefEq.respectTransparency.types false in
theorem run_main : θ_run defs (onTc (τ := τ) (main (F := F))) (s₀ m ρ) (Pipeline.FramePost cfgs (Data.dats m) 0 (Pipeline.afterTail₀ cfgs (Data.dats m) 0 (Kit.V0 m) (Kit.tailOps (F := F)))) :=
  Pipeline.θ_run_frame_around_track cfgs (Data.dats m) (0 : Fin 1) launch0 defs₀ Variants.none m ρ main
    (hbody := fun c => (body_obligation m c).loose) (hshare := fun c => (Data.dats m 0 c).share_full fun _ => rfl) (howed := fun _ _ => rfl)
    (V₀ := Kit.V0 m) (opss := Kit.tailOps) (hsub := Around.sfx_sub) (hfresh := Around.sfx_fresh) (hkeep := Around.sfx_keeps)
    (hmain := Around.hmain m Variants.none) (hA := Data.A_eq m) (hin := hin m) (hout := hout m)

theorem bypass_keeps (c : Dev nD) (b : Ref sig .tc) (hne : ∀ w, Pipeline.arrRef spec0 w ≠ b)
    (hafter : ∀ op ∈ Keeps.afterOps (F := F), Proc.devRef (τ := τ) .tc b ∉ op.writes)
    (hbefore : ∀ op ∈ (hostOps0 : List (HloOp τ sig (Elt F))), Proc.devRef (τ := τ) .tc b ∉ op.writes) :
    Pipeline.afterTail₀ cfgs (Data.dats m) 0 (Kit.V0 m) (Kit.tailOps (F := F)) c b = m ((c.tc : Thread nD τ).loc b) := by
  unfold Pipeline.afterTail₀
  rw [StableHlo.after_of_forall_not_mem _ _ hafter, Pipeline.withArrays_of_ne spec0 c _ _ b hne]
  show StableHlo.after hostOps0 _ _ = _
  rw [StableHlo.after_of_forall_not_mem hostOps0 _ hbefore]

theorem V_weights (c : Dev nD) : Kit.V m c main_arg1 = m ((c.tc : Thread nD τ).loc main_arg1) := by
  show StableHlo.after hostOps0 _ _ = _
  rw [StableHlo.after_of_forall_not_mem hostOps0 _ (Keeps.kept.1 _ (by decide))]

-- Nothing writes an argument: the region only reads the weight matrix and touches no other argument; a host operation writes only the value it defines.
theorem frame : θ_run defs (onTc (τ := τ) (main (F := F))) ⟨m, fun _ => 0, ρ⟩ (fun r => ∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => by
    refine ⟨?_, ((h c).1 1).trans (((Data.dats m 0 c).arrAt_in 1 rfl _).trans ((Data.A_eq m c 1).trans (V_weights m c))), ?_, ?_, ?_, ?_, ?_⟩ <;>
      exact ((h c).2 _ (Pipeline.mem_restRefs_of (win := spec0) _ (by decide) (by decide))).trans
        (bypass_keeps m c _ (by decide) (Keeps.kept.2 _ (by decide)) (Keeps.kept.1 _ (by decide)))) (run_main m ρ)

end Cert.Kernel.FrameRun

end
-- ==== Proof.Kit.lean ====
import proofs.«415580_j72155450573201_1_alg».proof.Proof.Gen.KernelIdeal.Launch
import Idealize.ShloMosaic.Lib.Pipeline.FrameSuffix

set_option maxRecDepth 16384

noncomputable section

namespace Cert.KernelIdeal.Kit

open Idealize.ShloMosaic Idealize.ShloMosaic.TcCoe
open Idealize.SL Idealize.SL.Sem
open Cert.KernelIdeal Cert.KernelIdeal.Gen

variable {F : FTy → Type} [FloatOps F]

noncomputable abbrev headOps : List (List (HloOp τ sig (Elt F))) := [hostOps0]

noncomputable abbrev tailOps : List (List (HloOp τ sig (Elt F))) :=
  [hostOps1, hostOps1_1, hostOps1_2, hostOps1_3, hostOps1_4, hostOps1_5, hostOps1_6,
   hostOps1_7, hostOps1_8, hostOps1_9, hostOps1_10, hostOps1_11, hostOps1_12]

variable (m : (ℓ : Loc nD τ sig) → Buf (Elt F) ℓ)

noncomputable abbrev V0 (c : Dev nD) : Valuation τ sig (Elt F) := StableHlo.after (List.flatten (headOps (F := F))) (fun b => m (c, b))
noncomputable abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem main_around (c : Dev nD) :
    main (F := F) c = Pipeline.chain ((headOps (F := F)).map StableHlo.seq
      ++ [Prog.lift (.customCall (Pipeline.entry (0 : Fin 1)) ())] ++ (tailOps (F := F)).map StableHlo.seq) := by
  rw [main_chain]; rfl

end Cert.KernelIdeal.Kit

end
-- ==== Proof.Cases.lean ====
import proofs.«415580_j72155450573201_1_alg».proof.Proof.Gen.KernelIdeal.Skeleton
import proofs.«415580_j72155450573201_1_alg».proof.Proof.Gen.KernelIdeal.Launch
import proofs.«415580_j72155450573201_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Cases

open Idealize.ShloMosaic Idealize.ShloMosaic.TcCoe
open Cert.KernelIdeal Cert.KernelIdeal.Gen

variable {F : FTy → Type} [FloatOps F]

abbrev condFirst (i : grid0.Coords) : Prop :=
  (Scalar.cmpi .ne (Scalar.extui (Scalar.cmpi .eq (BitVec.ofNat 32 (i 1).val) 0#32)) 0#32) = 1#1
abbrev condLast (i : grid0.Coords) : Prop := k0_cond2 i = 1#1

theorem condFirst_iff : ∀ t : Fin cfg0.N, condFirst (grid0.coords t) ↔ t.val % 25 = 0 :=
  (by decide +kernel : ∀ t : Fin grid0.N, condFirst (grid0.coords t) ↔ t.val % 25 = 0)
theorem condLast_iff : ∀ t : Fin cfg0.N, condLast (grid0.coords t) ↔ t.val % 25 = 24 :=
  (by decide +kernel : ∀ t : Fin grid0.N, condLast (grid0.coords t) ↔ t.val % 25 = 24)

theorem live : ∀ (t : Fin cfg0.N) (w : Fin cfg0.W), w.val < 2 ∨ t.val % 25 = 24 → cfg0.idle w (grid0.coords t) = false := by
  decide +kernel
theorem idle : ∀ (t : Fin cfg0.N) (w : Fin cfg0.W), 2 ≤ w.val → ¬t.val % 25 = 24 →
    cfg0.idle w (grid0.coords t) = true ∧ (cfg0.win w).flush t = false := by
  decide +kernel

abbrev scMax : Memref sig .tc .vmem S512x1 .f32 := Memref.whole cc0_scratch0
abbrev scSum : Memref sig .tc .vmem S512x1 .f32 := Memref.whole cc0_scratch1

end Cert.KernelIdeal.Cases

end
-- ==== Proof.RunFirst.lean ====
import proofs.«415580_j72155450573201_1_alg».proof.Proof.Cases

set_option maxRecDepth 16384

noncomputable section

namespace Cert.KernelIdeal.Cases

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 4000000 in
noncomputable def runFirst (c : Dev nD) (i : grid0.Coords)
    (arg2 : Memref sig .tc .vmem S512x256 .bf16) (harg2 : arg2.IsWhole) (arg3 : Memref sig .tc .vmem S2000x256 .f32) (harg3 : arg3.IsWhole)
    (arg4 : Memref sig .tc .vmem S1x512x1 .f32) (harg4 : arg4.IsWhole) (arg5 : Memref sig .tc .vmem S1x512x1 .f32) (harg5 : arg5.IsWhole)
    (arg6 : Memref sig .tc .vmem S512x1 .f32) (harg6 : arg6.IsWhole) (arg7 : Memref sig .tc .vmem S512x1 .f32) (harg7 : arg7.IsWhole)
    (hc1 : condFirst i) (hc2 : ¬condLast i)
    (x : Vec F S512x256 .bf16) (w : Vec F S2000x256 .f32) :
    Σ' (LM : List (View.Piece (Elt F) S512x1 .f32)), { LS : List (View.Piece (Elt F) S512x1 .f32) //
      ∀ (o4 o5 : Vec F S1x512x1 .f32) (E : Set ℕ) (K : PUnit → sProp 𝕄),
        iprop(owns (c : Thread nD τ) arg2 fullShare x ∗ owns (c : Thread nD τ) arg3 fullShare w
            ∗ owns (c : Thread nD τ) arg4 fullShare o4 ∗ owns (c : Thread nD τ) arg5 fullShare o5
            ∗ (∃ d, owns (c : Thread nD τ) arg6 fullShare d) ∗ (∃ d, owns (c : Thread nD τ) arg7 fullShare d)
            ∗ (iprop(owns (c : Thread nD τ) arg2 fullShare x ∗ owns (c : Thread nD τ) arg3 fullShare w
                ∗ owns (c : Thread nD τ) arg4 fullShare o4 ∗ owns (c : Thread nD τ) arg5 fullShare o5
                ∗ (∃ f, arg6.view.loc (c : Thread nD τ) ↦[arg6.view.set]{fullShare} arg6.view.writes (Elt F) f LM)
                ∗ (∃ f, arg7.view.loc (c : Thread nD τ) ↦[arg7.view.set]{fullShare} arg7.view.writes (Elt F) f LS)) -∗ K ⟨⟩))
          ⊢ wp frame (wpE (defs₀ (F := F)) Variants.none c none) E
              (cc0__bulk_kernel i arg2 harg2 arg3 harg3 arg4 harg4 arg5 harg5 arg6 harg6 arg7 harg7) K } := by
  refine ⟨?_, ?_, fun o4 o5 E K => ?run⟩
  case run =>
    simp only [cc0__bulk_kernel_eq_skeleton]; unfold cc0__bulk_kernel_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf2; obtain rfl := harg3.eq_unread hf3
    obtain rfl := harg4.eq_unread hf4; obtain rfl := harg5.eq_unread hf5
    sl_exec (disch := first | exact hc1 | exact hc2)
    sl_step
    iapply Hk
    have h2 := harg2.read_unread x; have h3 := harg3.read_unread w
    have h4 := harg4.read_unread o4; have h5 := harg5.read_unread o5
    sl_close

end Cert.KernelIdeal.Cases

end
-- ==== Proof.RunMiddle.lean ====
import proofs.«415580_j72155450573201_1_alg».proof.Proof.Cases

set_option maxRecDepth 16384

noncomputable section

namespace Cert.KernelIdeal.Cases

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 4000000 in
noncomputable def runMiddle (c : Dev nD) (i : grid0.Coords)
    (arg2 : Memref sig .tc .vmem S512x256 .bf16) (harg2 : arg2.IsWhole) (arg3 : Memref sig .tc .vmem S2000x256 .f32) (harg3 : arg3.IsWhole)
    (arg4 : Memref sig .tc .vmem S1x512x1 .f32) (harg4 : arg4.IsWhole) (arg5 : Memref sig .tc .vmem S1x512x1 .f32) (harg5 : arg5.IsWhole)
    (arg6 : Memref sig .tc .vmem S512x1 .f32) (harg6 : arg6.IsWhole) (arg7 : Memref sig .tc .vmem S512x1 .f32) (harg7 : arg7.IsWhole)
    (hc1 : ¬condFirst i) (hc2 : ¬condLast i)
    (x : Vec F S512x256 .bf16) (w : Vec F S2000x256 .f32) (mx : Vec F S512x1 .f32) (sm : Vec F S512x1 .f32) :
    Σ' (LM : List (View.Piece (Elt F) S512x1 .f32)), { LS : List (View.Piece (Elt F) S512x1 .f32) //
      ∀ (o4 o5 : Vec F S1x512x1 .f32) (E : Set ℕ) (K : PUnit → sProp 𝕄),
        iprop(owns (c : Thread nD τ) arg2 fullShare x ∗ owns (c : Thread nD τ) arg3 fullShare w
            ∗ owns (c : Thread nD τ) arg4 fullShare o4 ∗ owns (c : Thread nD τ) arg5 fullShare o5
            ∗ owns (c : Thread nD τ) arg6 fullShare mx ∗ owns (c : Thread nD τ) arg7 fullShare sm
            ∗ (iprop(owns (c : Thread nD τ) arg2 fullShare x ∗ owns (c : Thread nD τ) arg3 fullShare w
                ∗ owns (c : Thread nD τ) arg4 fullShare o4 ∗ owns (c : Thread nD τ) arg5 fullShare o5
                ∗ (∃ f, arg6.view.loc (c : Thread nD τ) ↦[arg6.view.set]{fullShare} arg6.view.writes (Elt F) f LM)
                ∗ (∃ f, arg7.view.loc (c : Thread nD τ) ↦[arg7.view.set]{fullShare} arg7.view.writes (Elt F) f LS)) -∗ K ⟨⟩))
          ⊢ wp frame (wpE (defs₀ (F := F)) Variants.none c none) E
              (cc0__bulk_kernel i arg2 harg2 arg3 harg3 arg4 harg4 arg5 harg5 arg6 harg6 arg7 harg7) K } := by
  refine ⟨?_, ?_, fun o4 o5 E K => ?run⟩
  case run =>
    simp only [cc0__bulk_kernel_eq_skeleton]; unfold cc0__bulk_kernel_skel
    simp only [k0_part1_eq_skeleton]; unfold k0_part1_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg2.eq_unread hf2; obtain rfl := harg3.eq_unread hf3
    obtain rfl := harg4.eq_unread hf4; obtain rfl := harg5.eq_unread hf5
    obtain rfl := harg6.eq_unread hf6; obtain rfl := harg7.eq_unread hf7
    sl_exec (disch := first | exact hc1 | exact hc2)
    sl_step
    iapply Hk
    have h2 := harg2.read_unread x; have h3 := harg3.read_unread w
    have h4 := harg4.read_unread o4; have h5 := harg5.read_unread o5
    sl_close

end Cert.KernelIdeal.Cases

end
-- ==== Proof.RunLast.lean ====
import proofs.«415580_j72155450573201_1_alg».proof.Proof.Cases

set_option maxRecDepth 16384

noncomputable section

namespace Cert.KernelIdeal.Cases

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 4000000 in
noncomputable def runLast (c : Dev nD) (i : grid0.Coords)
    (arg2 : Memref sig .tc .vmem S512x256 .bf16) (harg2 : arg2.IsWhole) (arg3 : Memref sig .tc .vmem S2000x256 .f32) (harg3 : arg3.IsWhole)
    (arg4 : Memref sig .tc .vmem S1x512x1 .f32) (harg4 : arg4.IsWhole) (arg5 : Memref sig .tc .vmem S1x512x1 .f32) (harg5 : arg5.IsWhole)
    (arg6 : Memref sig .tc .vmem S512x1 .f32) (harg6 : arg6.IsWhole) (arg7 : Memref sig .tc .vmem S512x1 .f32) (harg7 : arg7.IsWhole)
    (hc1 : ¬condFirst i) (hc2 : condLast i)
    (x : Vec F S512x256 .bf16) (w : Vec F S2000x256 .f32) (mx : Vec F S512x1 .f32) (sm : Vec F S512x1 .f32) :
    Σ' (L4 : List (View.Piece (Elt F) S1x512x1 .f32)) (L5 : List (View.Piece (Elt F) S1x512x1 .f32))
       (LM : List (View.Piece (Elt F) S512x1 .f32)), { LS : List (View.Piece (Elt F) S512x1 .f32) //
      ∀ (E : Set ℕ) (K : PUnit → sProp 𝕄),
        iprop(owns (c : Thread nD τ) arg2 fullShare x ∗ owns (c : Thread nD τ) arg3 fullShare w
            ∗ (∃ d, owns (c : Thread nD τ) arg4 fullShare d) ∗ (∃ d, owns (c : Thread nD τ) arg5 fullShare d)
            ∗ owns (c : Thread nD τ) arg6 fullShare mx ∗ owns (c : Thread nD τ) arg7 fullShare sm
            ∗ (iprop(owns (c : Thread nD τ) arg2 fullShare x ∗ owns (c : Thread nD τ) arg3 fullShare w
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LM)
                ∗ (∃ f, arg7.view.loc (c : Thread nD τ) ↦[arg7.view.set]{fullShare} arg7.view.writes (Elt F) f LS)) -∗ K ⟨⟩))
          ⊢ wp frame (wpE (defs₀ (F := F)) Variants.none c none) E
              (cc0__bulk_kernel i arg2 harg2 arg3 harg3 arg4 harg4 arg5 harg5 arg6 harg6 arg7 harg7) K } := by
  refine ⟨?_, ?_, ?_, ?_, fun E K => ?run⟩
  case run =>
    simp only [cc0__bulk_kernel_eq_skeleton]; unfold cc0__bulk_kernel_skel
    simp only [k0_part1_eq_skeleton]; unfold k0_part1_skel
    unfold owns
    iintro ⟨⟨%f2, %hf2, H2⟩, ⟨%f3, %hf3, H3⟩, ⟨%d4, %f4, -, H4⟩, ⟨%d5, %f5, -, H5⟩, ⟨%f6, %hf6, H6⟩, ⟨%f7, %hf7, H7⟩, Hk⟩
    obtain rfl := harg2.eq_unread hf2; obtain rfl := harg3.eq_unread hf3
    obtain rfl := harg6.eq_unread hf6; obtain rfl := harg7.eq_unread hf7
    sl_exec (disch := first | exact hc1 | exact hc2)
    sl_step
    iapply Hk
    have h2 := harg2.read_unread x; have h3 := harg3.read_unread w
    sl_close

end Cert.KernelIdeal.Cases

end
-- ==== Proof.Dats.lean ====
import proofs.«415580_j72155450573201_1_alg».proof.Proof.Kit
import proofs.«415580_j72155450573201_1_alg».proof.Proof.RunFirst
import proofs.«415580_j72155450573201_1_alg».proof.Proof.RunMiddle
import proofs.«415580_j72155450573201_1_alg».proof.Proof.RunLast

set_option maxRecDepth 16384

noncomputable section

namespace Cert.KernelIdeal.Data

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

def iblk (c : Dev nD) (w : Fin cfg0.W) (t : Fin cfg0.N) : ((cfg0.win w).xblock (cfg0.grid.coords t)).Idx → Elt F (cfg0.win w).elt :=
  ((cfg0.win w).blk t).view.read (Elt F) (Kit.V m c (Pipeline.arrRef spec0 w))

abbrev memX (t : Fin cfg0.N) : Memref sig .tc .vmem S512x256 .bf16 := win0_0.stage (cfg0.slots t 0)
abbrev wholeX (t : Fin cfg0.N) : (memX t).IsWhole := hstage0_0 ((cfg0.slots t 0).cast nbuf0_0)
abbrev memW (t : Fin cfg0.N) : Memref sig .tc .vmem S2000x256 .f32 := win0_1.stage (cfg0.slots t 1)
abbrev wholeW (t : Fin cfg0.N) : (memW t).IsWhole := hstage0_1 ((cfg0.slots t 1).cast nbuf0_1)
abbrev memMaxOut (t : Fin cfg0.N) : Memref sig .tc .vmem S1x512x1 .f32 := win0_2.stage (cfg0.slots t 2)
abbrev wholeMaxOut (t : Fin cfg0.N) : (memMaxOut t).IsWhole := hstage0_2 ((cfg0.slots t 2).cast nbuf0_2)
abbrev memSumOut (t : Fin cfg0.N) : Memref sig .tc .vmem S1x512x1 .f32 := win0_3.stage (cfg0.slots t 3)
abbrev wholeSumOut (t : Fin cfg0.N) : (memSumOut t).IsWhole := hstage0_3 ((cfg0.slots t 3).cast nbuf0_3)

abbrev VMaxOut : View sig .tc .vmem S1x512x1 .f32 := (Memref.whole cc0_stg2_0 : Memref sig .tc .vmem S1x512x1 .f32).view
abbrev VSumOut : View sig .tc .vmem S1x512x1 .f32 := (Memref.whole cc0_stg3_0 : Memref sig .tc .vmem S1x512x1 .f32).view
abbrev VMax : View sig .tc .vmem S512x1 .f32 := Cases.scMax.view
abbrev VSum : View sig .tc .vmem S512x1 .f32 := Cases.scSum.view

def firstRun (c : Dev nD) (t : Fin cfg0.N) (h0 : t.val % 25 = 0) :=
  Cases.runFirst (F := F) c (grid0.coords t) (memX t) (wholeX t) (memW t) (wholeW t) (memMaxOut t) (wholeMaxOut t) (memSumOut t) (wholeSumOut t)
    Cases.scMax (Memref.isWhole_whole _) Cases.scSum (Memref.isWhole_whole _)
    ((Cases.condFirst_iff t).mpr h0) (fun h => by have := (Cases.condLast_iff t).mp h; omega)
    (iblk m c 0 t) (iblk m c 1 t)

def middleRun (c : Dev nD) (t : Fin cfg0.N) (h0 : ¬t.val % 25 = 0) (h1 : ¬t.val % 25 = 24) (mx sm : Vec F S512x1 .f32) :=
  Cases.runMiddle (F := F) c (grid0.coords t) (memX t) (wholeX t) (memW t) (wholeW t) (memMaxOut t) (wholeMaxOut t) (memSumOut t) (wholeSumOut t)
    Cases.scMax (Memref.isWhole_whole _) Cases.scSum (Memref.isWhole_whole _)
    (fun h => h0 ((Cases.condFirst_iff t).mp h)) (fun h => h1 ((Cases.condLast_iff t).mp h))
    (iblk m c 0 t) (iblk m c 1 t) mx sm

def lastRun (c : Dev nD) (t : Fin cfg0.N) (h1 : t.val % 25 = 24) (mx sm : Vec F S512x1 .f32) :=
  Cases.runLast (F := F) c (grid0.coords t) (memX t) (wholeX t) (memW t) (wholeW t) (memMaxOut t) (wholeMaxOut t) (memSumOut t) (wholeSumOut t)
    Cases.scMax (Memref.isWhole_whole _) Cases.scSum (Memref.isWhole_whole _)
    (fun h => by have := (Cases.condFirst_iff t).mp h; omega) ((Cases.condLast_iff t).mpr h1)
    (iblk m c 0 t) (iblk m c 1 t) mx sm

def afterFirst (c : Dev nD) (t : Fin cfg0.N) (h0 : t.val % 25 = 0) : (Vec F S1x512x1 .f32 × Vec F S1x512x1 .f32) × (Vec F S512x1 .f32 × Vec F S512x1 .f32) :=
  ((VMaxOut.read (Elt F) VMaxOut.junk, VSumOut.read (Elt F) VSumOut.junk),
   (VMax.read (Elt F) (VMax.writes (Elt F) VMax.junk (firstRun m c t h0).1),
    VSum.read (Elt F) (VSum.writes (Elt F) VSum.junk (firstRun m c t h0).2.val)))

def afterMiddle (c : Dev nD) (t : Fin cfg0.N) (h0 : ¬t.val % 25 = 0) (h1 : ¬t.val % 25 = 24)
    (prev : Vec F S512x1 .f32 × Vec F S512x1 .f32) : (Vec F S1x512x1 .f32 × Vec F S1x512x1 .f32) × (Vec F S512x1 .f32 × Vec F S512x1 .f32) :=
  ((VMaxOut.read (Elt F) VMaxOut.junk, VSumOut.read (Elt F) VSumOut.junk),
   (VMax.read (Elt F) (VMax.writes (Elt F) VMax.junk (middleRun m c t h0 h1 prev.1 prev.2).1),
    VSum.read (Elt F) (VSum.writes (Elt F) VSum.junk (middleRun m c t h0 h1 prev.1 prev.2).2.val)))

def afterLast (c : Dev nD) (t : Fin cfg0.N) (h1 : t.val % 25 = 24)
    (prev : Vec F S512x1 .f32 × Vec F S512x1 .f32) : (Vec F S1x512x1 .f32 × Vec F S1x512x1 .f32) × (Vec F S512x1 .f32 × Vec F S512x1 .f32) :=
  ((VMaxOut.read (Elt F) (VMaxOut.writes (Elt F) VMaxOut.junk (lastRun m c t h1 prev.1 prev.2).1),
    VSumOut.read (Elt F) (VSumOut.writes (Elt F) VSumOut.junk (lastRun m c t h1 prev.1 prev.2).2.1)),
   (VMax.read (Elt F) (VMax.writes (Elt F) VMax.junk (lastRun m c t h1 prev.1 prev.2).2.2.1),
    VSum.read (Elt F) (VSum.writes (Elt F) VSum.junk (lastRun m c t h1 prev.1 prev.2).2.2.2.val)))

def outsAt (c : Dev nD) : (n : ℕ) → n < cfg0.N → (Vec F S1x512x1 .f32 × Vec F S1x512x1 .f32) × (Vec F S512x1 .f32 × Vec F S512x1 .f32)
  | 0, hn => afterFirst m c ⟨0, hn⟩ (Nat.zero_mod _)
  | n + 1, hn =>
    if h0 : (n + 1) % 25 = 0 then afterFirst m c ⟨n + 1, hn⟩ h0
    else if h1 : (n + 1) % 25 = 24 then afterLast m c ⟨n + 1, hn⟩ h1 (outsAt c n (Nat.lt_of_succ_lt hn)).2
    else afterMiddle m c ⟨n + 1, hn⟩ h0 h1 (outsAt c n (Nat.lt_of_succ_lt hn)).2

theorem outsAt_first (c : Dev nD) (t : Fin cfg0.N) (h0 : t.val % 25 = 0) :
    outsAt m c t.val t.isLt = afterFirst m c t h0 := by
  obtain ⟨n, hn⟩ := t
  cases n with
  | zero => exact rfl
  | succ n => exact (dif_pos h0).trans rfl

theorem outsAt_middle (c : Dev nD) (t : Fin cfg0.N) (h0 : ¬t.val % 25 = 0) (h1 : ¬t.val % 25 = 24) :
    outsAt m c t.val t.isLt
      = afterMiddle m c t h0 h1 (outsAt m c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h1).trans rfl)

theorem outsAt_last (c : Dev nD) (t : Fin cfg0.N) (h1 : t.val % 25 = 24) :
    outsAt m c t.val t.isLt
      = afterLast m c t h1 (outsAt m c (t.val - 1) (Nat.lt_of_le_of_lt (Nat.sub_le _ _) t.isLt)).2 := by
  obtain ⟨n, hn⟩ := t
  cases n with
  | zero => exact absurd h1 (fun h => by (try dsimp only at h); omega)
  | succ n =>
    have h0 : ¬(n + 1) % 25 = 0 := fun h => by (try dsimp only at h1); omega
    exact (dif_neg h0).trans ((dif_pos h1).trans rfl)

def PhiS (c : Dev nD) : (n : ℕ) → n ≤ cfg0.N → sProp 𝕄
  | 0, _ => Pipeline.ΦA spec0 c
  | n + 1, hn => iprop(iprop(owns (c : Thread nD τ) Cases.scMax fullShare ((outsAt m c n hn).2.1)
      ∗ owns (c : Thread nD τ) Cases.scSum fullShare ((outsAt m c n hn).2.2)) ∗ (∃ r, prngReg c r))

theorem PhiS_pos (c : Dev nD) (n : ℕ) (h : n ≤ cfg0.N) (hz : n ≠ 0) :
    PhiS m c n h = iprop(iprop(owns (c : Thread nD τ) Cases.scMax fullShare ((outsAt m c (n - 1) (by omega)).2.1)
      ∗ owns (c : Thread nD τ) Cases.scSum fullShare ((outsAt m c (n - 1) (by omega)).2.2)) ∗ (∃ r, prngReg c r)) := by
  cases n with
  | zero => exact absurd rfl hz
  | succ n => rfl

theorem PhiA_eq (c : Dev nD) :
    (Pipeline.ΦA spec0 c : sProp 𝕄)
      = iprop(iprop((∃ d, owns (c : Thread nD τ) Cases.scMax fullShare d) ∗ (∃ d, owns (c : Thread nD τ) Cases.scSum fullShare d))
          ∗ (∃ r, prngReg c r)) := by
  unfold Pipeline.ΦA; rw [scopedRest0_eq]; simp only [Cases.scMax, Cases.scSum, owns_whole]; try rfl

def dats (_ : Fin 1) (c : Dev nD) : Dat τ (Elt F) Unit ℕ (UR sig nD τ) ℕ cfg0 c where
  A w := Kit.V m c (Pipeline.arrRef spec0 w)
  after w t := match w with
    | ⟨0, _⟩ => iblk m c 0 t
    | ⟨1, _⟩ => iblk m c 1 t
    | ⟨2, _⟩ => (outsAt m c t.val t.isLt).1.1
    | ⟨3, _⟩ => (outsAt m c t.val t.isLt).1.2
  Φ t := PhiS m c t.val (Nat.le_of_lt_succ t.isLt)
  q _ := fullShare
  owed _ := 0

theorem A_eq (c : Dev nD) (w : Fin cfg0.W) : (dats m 0 c).A w = Kit.V m c (Pipeline.arrRef spec0 w) := by
  dsimp only [dats]

theorem after_maxOut (c : Dev nD) (t : Fin cfg0.N) : (dats m 0 c).after 2 t = (outsAt m c t.val t.isLt).1.1 := by dsimp only [dats]
theorem after_sumOut (c : Dev nD) (t : Fin cfg0.N) : (dats m 0 c).after 3 t = (outsAt m c t.val t.isLt).1.2 := by dsimp only [dats]

theorem before_in (c : Dev nD) (t : Fin cfg0.N) :
    (∀ d, (dats m 0 c).before 0 t d = iblk m c 0 t) ∧ ∀ d, (dats m 0 c).before 1 t d = iblk m c 1 t := by
  constructor <;> intro d <;>
    exact ((dats m 0 c).before_in_eq_fetched _ rfl (fun _ => rfl) (fun _ _ _ => rfl) (fun _ => rfl) t d).trans rfl

end Cert.KernelIdeal.Data

end
-- ==== Proof.Obligation.lean ====
import proofs.«415580_j72155450573201_1_alg».proof.Proof.Dats

set_option maxRecDepth 16384

noncomputable section

namespace Cert.KernelIdeal.FrameRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen Cert.KernelIdeal.Data

variable {F : FTy → Type} [FloatOps F]

local notation "𝕄" => MT nD τ sig Unit (Elt F) ℕ (UR sig nD τ) ℕ

variable (m : (ℓ : Loc nD τ sig) → Buf (Elt F) ℓ)

theorem PhiS_any (c : Dev nD) (n : ℕ) (h : n ≤ cfg0.N) :
    PhiS m c n h ⊢ iprop(iprop((∃ d, owns (c : Thread nD τ) Cases.scMax fullShare d) ∗ (∃ d, owns (c : Thread nD τ) Cases.scSum fullShare d)) ∗ (∃ r, prngReg c r)) := by
  cases n with
  | zero => exact Entails.of_eq (PhiA_eq c)
  | succ n =>
    show iprop(iprop(_ ∗ _) ∗ _) ⊢ _
    iintro ⟨⟨HM, HS⟩, Hg⟩
    iframe Hg; isplitl [HM] <;> iexists _ <;> iassumption

-- Pieces that cover a buffer leave it at the pieces read back, whatever it held.
theorem owns_of_cover {s : Shape} {e : EltTy} (c : Dev nD) (M : Memref sig .tc .vmem s e) (v' : View sig .tc .vmem s e)
    {L : List (View.Piece (Elt F) s e)} (h : ∀ y, ∃ pc ∈ L, y ∈ pc.1.set) :
    (iprop(∃ f, M.view.loc (c : Thread nD τ) ↦[M.view.set]{fullShare} M.view.writes (Elt F) f L) : sProp 𝕄)
      ⊢ owns (c : Thread nD τ) M fullShare (v'.read (Elt F) (v'.writes (Elt F) v'.junk L)) := by
  iintro ⟨%f, H⟩; unfold owns; iexists M.view.writes (Elt F) f L; isplitr
  · ipureintro; exact View.read_writes_of_cover _ _ _ _ _ h
  · iexact H

def bodyPre (c : Dev nD) (t : Fin cfg0.N) : sProp 𝕄 :=
  iprop(PhiS m c t.val (Nat.le_of_lt t.isLt) ∗ (dats m 0 c).owesAt () t.castSucc
    ∗ (∃ d, owns (c : Thread nD τ) (memX t) fullShare ((dats m 0 c).before 0 t d))
    ∗ (∃ d, owns (c : Thread nD τ) (memW t) fullShare ((dats m 0 c).before 1 t d))
    ∗ (∃ d, owns (c : Thread nD τ) (memMaxOut t) fullShare ((dats m 0 c).before 2 t d))
    ∗ (∃ d, owns (c : Thread nD τ) (memSumOut t) fullShare ((dats m 0 c).before 3 t d)))

def bodyPost (c : Dev nD) (t : Fin cfg0.N) : sProp 𝕄 :=
  iprop(iprop(iprop(owns (c : Thread nD τ) Cases.scMax fullShare (outsAt m c t.val t.isLt).2.1
      ∗ owns (c : Thread nD τ) Cases.scSum fullShare (outsAt m c t.val t.isLt).2.2) ∗ (∃ r, prngReg c r))
    ∗ (dats m 0 c).owesAt () t.castSucc
    ∗ (dats m 0 c).leavesExact 0 t ∗ (dats m 0 c).leavesExact 1 t
    ∗ (dats m 0 c).leavesExact 2 t ∗ (dats m 0 c).leavesExact 3 t)

theorem leaves_live (c : Dev nD) (t : Fin cfg0.N) (w : Fin cfg0.W) (h : w.val < 2 ∨ t.val % 25 = 24) :
    (dats m 0 c).leavesExact w t = owns (c : Thread nD τ) ((cfg0.win w).stage (cfg0.slots t w)) fullShare ((dats m 0 c).after w t) := by
  unfold Dat.leavesExact; rw [Cases.live t w h]

theorem leaves_idle (c : Dev nD) (t : Fin cfg0.N) (w : Fin cfg0.W) (hw : 2 ≤ w.val) (h : ¬t.val % 25 = 24) :
    (dats m 0 c).leavesExact w t = iprop(∃ d, owns (c : Thread nD τ) ((cfg0.win w).stage (cfg0.slots t w)) fullShare ((dats m 0 c).before w t d)) :=
  Dat.leavesExact_idle _ w t (Cases.idle t w hw h).1 (Cases.idle t w hw h).2

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [(before_in m c t).1, (before_in m c t).2]
  rw [show (dats m 0 c).leavesExact 0 t = owns (c : Thread nD τ) (memX t) fullShare (iblk m c 0 t) from leaves_live m c t 0 (.inl (by decide)),
    show (dats m 0 c).leavesExact 1 t = owns (c : Thread nD τ) (memW t) fullShare (iblk m c 1 t) from leaves_live m c t 1 (.inl (by decide))]
  by_cases h1 : t.val % 25 = 24
  · rw [PhiS_pos m c _ _ (fun h => by omega),
      show (dats m 0 c).leavesExact 2 t = owns (c : Thread nD τ) (memMaxOut t) fullShare (outsAt m c t.val t.isLt).1.1 from leaves_live m c t 2 (.inr h1),
      show (dats m 0 c).leavesExact 3 t = owns (c : Thread nD τ) (memSumOut t) fullShare (outsAt m c t.val t.isLt).1.2 from leaves_live m c t 3 (.inr h1),
      outsAt_last m c t h1]
    unfold afterLast; dsimp only
    have c2 := fun mx sm => View.cover_of_tiledL (lastRun m c t h1 mx sm).1 S1x512x1.size (by sl_kernel_rfl)
    have c3 := fun mx sm => View.cover_of_tiledL (lastRun m c t h1 mx sm).2.1 S1x512x1.size (by sl_kernel_rfl)
    have cM := fun mx sm => View.cover_of_tiledL (lastRun m c t h1 mx sm).2.2.1 S512x1.size (by sl_kernel_rfl)
    have cS := fun mx sm => View.cover_of_tiledL (lastRun m c t h1 mx sm).2.2.2.val S512x1.size (by sl_kernel_rfl)
    iintro ⟨⟨⟨HM, HS⟩, Hg⟩, Ho, ⟨%d0, H0⟩, ⟨%d1, H1⟩, ⟨%d2, H2⟩, ⟨%d3, H3⟩⟩
    iapply ((lastRun m c t h1 _ _).2.2.2.property Set.univ _)
    iframe H0 H1 HM HS
    isplitl [H2]; iexists _; iexact H2; isplitl [H3]; iexists _; iexact H3
    iintro ⟨H0, H1, H2, H3, HM, HS⟩
    ihave H2 := (owns_of_cover c _ VMaxOut (c2 _ _)) $$ H2
    ihave H3 := (owns_of_cover c _ VSumOut (c3 _ _)) $$ H3
    ihave HM := (owns_of_cover c _ VMax (cM _ _)) $$ HM
    ihave HS := (owns_of_cover c _ VSum (cS _ _)) $$ HS
    iframe
  · rw [leaves_idle m c t 2 (by decide) h1, leaves_idle m c t 3 (by decide) h1]
    by_cases h0 : t.val % 25 = 0
    · rw [outsAt_first m c t h0]
      unfold afterFirst; dsimp only
      iintro ⟨HΦ, Ho, ⟨%d0, H0⟩, ⟨%d1, H1⟩, ⟨%d2, H2⟩, ⟨%d3, H3⟩⟩
      icases (PhiS_any m c _ _) $$ HΦ with ⟨⟨HM, HS⟩, Hg⟩
      iapply ((firstRun m c t h0).2.property _ _ Set.univ _)
      iframe H0 H1 H2 H3 HM HS
      iintro ⟨H0, H1, H2, H3, HM, HS⟩
      ihave HM := (owns_of_cover c _ VMax (View.cover_of_tiledL (firstRun m c t h0).1 S512x1.size (by sl_kernel_rfl))) $$ HM
      ihave HS := (owns_of_cover c _ VSum (View.cover_of_tiledL (firstRun m c t h0).2.val S512x1.size (by sl_kernel_rfl))) $$ HS
      iframe HM HS Hg Ho H0 H1; isplitl [H2] <;> iexists _ <;> iassumption
    · rw [PhiS_pos m c _ _ (fun h => h0 (by rw [h])), outsAt_middle m c t h0 h1]
      unfold afterMiddle; dsimp only
      have cM := fun mx sm => View.cover_of_tiledL (middleRun m c t h0 h1 mx sm).1 S512x1.size (by sl_kernel_rfl)
      have cS := fun mx sm => View.cover_of_tiledL (middleRun m c t h0 h1 mx sm).2.val S512x1.size (by sl_kernel_rfl)
      iintro ⟨⟨⟨HM, HS⟩, Hg⟩, Ho, ⟨%d0, H0⟩, ⟨%d1, H1⟩, ⟨%d2, H2⟩, ⟨%d3, H3⟩⟩
      iapply ((middleRun m c t h0 h1 _ _).2.property _ _ Set.univ _)
      iframe H0 H1 H2 H3 HM HS
      iintro ⟨H0, H1, H2, H3, HM, HS⟩
      ihave HM := (owns_of_cover c _ VMax (cM _ _)) $$ HM
      ihave HS := (owns_of_cover c _ VSum (cS _ _)) $$ HS
      iframe HM HS Hg Ho H0 H1; isplitl [H2] <;> iexists _ <;> iassumption

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact (PhiS_any m c _ _).trans (Entails.of_eq (PhiA_eq c).symm)

end Cert.KernelIdeal.FrameRun

end
-- ==== Proof.Keeps.lean ====
import proofs.«415580_j72155450573201_1_alg».proof.Proof.Kit
import Idealize.ShloMosaic.Lib.StableHlo.Run

set_option maxRecDepth 16384
set_option maxHeartbeats 4000000

noncomputable section

namespace Cert.KernelIdeal.Keeps

open Idealize.ShloMosaic Idealize.ShloMosaic.TcCoe
open Cert.KernelIdeal Cert.KernelIdeal.Gen Cert.KernelIdeal.Kit

variable {F : FTy → Type} [FloatOps F]

noncomputable abbrev afterOps : List (HloOp τ sig (Elt F)) := (tailOps (F := F)).flatten

-- A host operation writes only the value it defines, and that is none of these.
theorem kept :
    (∀ b ∈ [main_arg0, main_arg1, main_arg2, main_arg3, main_arg4, main_arg5, main_arg6],
      ∀ op ∈ (hostOps0 : List (HloOp τ sig (Elt F))), Proc.devRef (τ := τ) .tc b ∉ op.writes)
    ∧ ∀ b ∈ [main_arg0, main_arg1, main_arg2, main_arg3, main_arg4, main_arg5, main_arg6, main_v9, main_v10_0, main_v10_1],
      ∀ op ∈ afterOps (F := F), Proc.devRef (τ := τ) .tc b ∉ op.writes := by
  constructor <;> intro b hb <;> rw [← List.forall_iff_forall_mem] <;> fin_cases hb <;> (
    simp only [tailOps, List.flatten_cons, List.flatten_nil, List.append_nil, List.cons_append, List.nil_append, List.Forall,
      StableHlo.TRef.ternary, StableHlo.nullary_writes, StableHlo.unary_writes, StableHlo.binary_writes,
      StableHlo.ternary_writes, StableHlo.reshape_writes, Finset.mem_singleton]
    repeat' constructor
    all_goals exact StableHlo.devRef_ne_of_ne (by decide))

end Cert.KernelIdeal.Keeps

end
-- ==== Proof.Around.lean ====
import proofs.«415580_j72155450573201_1_alg».proof.Proof.Keeps
import Idealize.ShloMosaic.Lib.Pipeline.FrameSuffix

set_option maxRecDepth 16384
set_option maxHeartbeats 4000000

noncomputable section

namespace Cert.KernelIdeal.Around

open Idealize.ShloMosaic Idealize.ShloMosaic.TcCoe
open Idealize.SL Idealize.SL.Sem
open Cert.KernelIdeal Cert.KernelIdeal.Gen Cert.KernelIdeal.Kit Cert.KernelIdeal.Keeps

variable {F : FTy → Type} [FloatOps F]
variable (m : (ℓ : Loc nD τ sig) → Buf (Elt F) ℓ)

theorem mem_afterOps {ops : List (HloOp τ sig (Elt F))} (hops : ops ∈ tailOps (F := F)) {op : HloOp τ sig (Elt F)} (hop : op ∈ ops) :
    op ∈ afterOps (F := F) := List.mem_flatten.mpr ⟨ops, hops, hop⟩

theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main (headOps (F := F)) (tailOps (F := F)) hostOps0_sub hostOps0_fresh main_around

theorem sfx_sub : ∀ ops ∈ tailOps (F := F), ∀ op ∈ ops, op.bufs ⊆ Pipeline.tailRefs sig Pipeline.Prefetch.none spec0 := by
  rw [Pipeline.tailRefs_none spec0 launch0.win.arr_unscoped]
  intro ops hops op hop
  have h : ops.Forall fun op => op.bufs ⊆ StableHlo.tcRefs τ sig := by
    simp only [tailOps, List.mem_cons, List.mem_nil_iff, or_false] at hops
    rcases hops with rfl | rfl | rfl | rfl | rfl | rfl | rfl | rfl | rfl | rfl | rfl | rfl | rfl
    exacts [hostOps1_sub, hostOps1_1_sub, hostOps1_2_sub, hostOps1_3_sub, hostOps1_4_sub, hostOps1_5_sub, hostOps1_6_sub,
      hostOps1_7_sub, hostOps1_8_sub, hostOps1_9_sub, hostOps1_10_sub, hostOps1_11_sub, hostOps1_12_sub]
  exact Pipeline.sub_ucRefs op (List.forall_iff_forall_mem.mp h op hop)

theorem sfx_fresh : ∀ ops ∈ tailOps (F := F), ∀ op ∈ ops, op.fresh = ∅ := by
  intro ops hops op hop
  have h : ∀ op ∈ afterOps (F := F), op.fresh = ∅ := by
    rw [← List.forall_iff_forall_mem]
    simp only [tailOps, List.flatten_cons, List.flatten_nil, List.append_nil, List.cons_append, List.nil_append, List.Forall]
    repeat' constructor
  exact h op (mem_afterOps hops hop)

theorem sfx_keeps : ∀ ops ∈ tailOps (F := F), ∀ op ∈ ops, ∀ w, Proc.devRef .tc (Pipeline.arrRef spec0 w) ∉ op.writes := by
  intro ops hops op hop w
  have h := mem_afterOps hops hop
  fin_cases w
  exacts [kept.2 main_v9 (by decide) op h, kept.2 main_arg1 (by decide) op h, kept.2 main_v10_0 (by decide) op h, kept.2 main_v10_1 (by decide) op h]

end Cert.KernelIdeal.Around

end
-- ==== Proof.FrameRun.lean ====
import proofs.«415580_j72155450573201_1_alg».proof.Proof.Obligation
import proofs.«415580_j72155450573201_1_alg».proof.Proof.Around

set_option maxRecDepth 16384

noncomputable section

namespace Cert.KernelIdeal.FrameRun

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ) (ρ : Dev nD → PrngReg)

set_option backward.isDefEq.respectTransparency.types false in
theorem run_main : θ_run defs (onTc (τ := τ) (main (F := F))) (s₀ m ρ) (Pipeline.FramePost cfgs (Data.dats m) 0 (Pipeline.afterTail₀ cfgs (Data.dats m) 0 (Kit.V0 m) (Kit.tailOps (F := F)))) :=
  Pipeline.θ_run_frame_around_track cfgs (Data.dats m) (0 : Fin 1) launch0 defs₀ Variants.none m ρ main
    (hbody := fun c => (body_obligation m c).loose) (hshare := fun c => (Data.dats m 0 c).share_full fun _ => rfl) (howed := fun _ _ => rfl)
    (V₀ := Kit.V0 m) (opss := Kit.tailOps) (hsub := Around.sfx_sub) (hfresh := Around.sfx_fresh) (hkeep := Around.sfx_keeps)
    (hmain := Around.hmain m Variants.none) (hA := Data.A_eq m) (hin := hin m) (hout := hout m)

theorem bypass_keeps (c : Dev nD) (b : Ref sig .tc) (hne : ∀ w, Pipeline.arrRef spec0 w ≠ b)
    (hafter : ∀ op ∈ Keeps.afterOps (F := F), Proc.devRef (τ := τ) .tc b ∉ op.writes)
    (hbefore : ∀ op ∈ (hostOps0 : List (HloOp τ sig (Elt F))), Proc.devRef (τ := τ) .tc b ∉ op.writes) :
    Pipeline.afterTail₀ cfgs (Data.dats m) 0 (Kit.V0 m) (Kit.tailOps (F := F)) c b = m ((c.tc : Thread nD τ).loc b) := by
  unfold Pipeline.afterTail₀
  rw [StableHlo.after_of_forall_not_mem _ _ hafter, Pipeline.withArrays_of_ne spec0 c _ _ b hne]
  show StableHlo.after hostOps0 _ _ = _
  rw [StableHlo.after_of_forall_not_mem hostOps0 _ hbefore]

theorem V_weights (c : Dev nD) : Kit.V m c main_arg1 = m ((c.tc : Thread nD τ).loc main_arg1) := by
  show StableHlo.after hostOps0 _ _ = _
  rw [StableHlo.after_of_forall_not_mem hostOps0 _ (Keeps.kept.1 _ (by decide))]

-- Nothing writes an argument: the region only reads the weight matrix and touches no other argument; a host operation writes only the value it defines.
theorem frame : θ_run defs (onTc (τ := τ) (main (F := F))) ⟨m, fun _ => 0, ρ⟩ (fun r => ∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => by
    refine ⟨?_, ((h c).1 1).trans (((Data.dats m 0 c).arrAt_in 1 rfl _).trans ((Data.A_eq m c 1).trans (V_weights m c))), ?_, ?_, ?_, ?_, ?_⟩ <;>
      exact ((h c).2 _ (Pipeline.mem_restRefs_of (win := spec0) _ (by decide) (by decide))).trans
        (bypass_keeps m c _ (by decide) (Keeps.kept.2 _ (by decide)) (Keeps.kept.1 _ (by decide)))) (run_main m ρ)

end Cert.KernelIdeal.FrameRun

end
-- ==== Proof.RefCut.lean ====
import proofs.«415580_j72155450573201_1_alg».proof.Proof.ReferenceRun
import Idealize.ShloMosaic.Lib.StableHlo.Run
import Idealize.ShloMosaic.Lib.Pipeline.Frame

set_option maxRecDepth 16384
set_option maxHeartbeats 4000000

noncomputable section

namespace Cert.ReferenceIdeal.RefCut

open Idealize.ShloMosaic Idealize.ShloMosaic.TcCoe Idealize.ShloMosaic.StableHlo
open Cert.ReferenceIdeal Cert.ReferenceIdeal.Gen Cert.ReferenceIdeal.ValueP

variable {F : FTy → Type} [FloatOps F]

noncomputable abbrev opsXhat : List (HloOp τ sig (Elt F)) := ((ops (F := F)).drop 0).take 11
noncomputable abbrev opsWhat : List (HloOp τ sig (Elt F)) := ((ops (F := F)).drop 11).take 10
noncomputable abbrev opsCos : List (HloOp τ sig (Elt F)) := ((ops (F := F)).drop 21).take 1
noncomputable abbrev opsPenA : List (HloOp τ sig (Elt F)) := ((ops (F := F)).drop 22).take 22
noncomputable abbrev opsPenB : List (HloOp τ sig (Elt F)) := ((ops (F := F)).drop 44).take 21
noncomputable abbrev opsPenG : List (HloOp τ sig (Elt F)) := ((ops (F := F)).drop 65).take 21
noncomputable abbrev opsPenD : List (HloOp τ sig (Elt F)) := ((ops (F := F)).drop 86).take 21
noncomputable abbrev opsSetA : List (HloOp τ sig (Elt F)) := ((ops (F := F)).drop 107).take 21
noncomputable abbrev opsSetB : List (HloOp τ sig (Elt F)) := ((ops (F := F)).drop 128).take 18
noncomputable abbrev opsSetG : List (HloOp τ sig (Elt F)) := ((ops (F := F)).drop 146).take 18
noncomputable abbrev opsSetD : List (HloOp τ sig (Elt F)) := ((ops (F := F)).drop 164).take 21
noncomputable abbrev opsLsm : List (HloOp τ sig (Elt F)) := ((ops (F := F)).drop 185).take 15
noncomputable abbrev opsCeA : List (HloOp τ sig (Elt F)) := ((ops (F := F)).drop 200).take 25
noncomputable abbrev opsCeB : List (HloOp τ sig (Elt F)) := ((ops (F := F)).drop 225).take 29
noncomputable abbrev opsCeG : List (HloOp τ sig (Elt F)) := ((ops (F := F)).drop 254).take 25
noncomputable abbrev opsCeD : List (HloOp τ sig (Elt F)) := (ops (F := F)).drop 279

/-- running all the operations is running the sixteen stretches in order -/
theorem after_ops (W : Valuation τ sig (Elt F)) :
    after (ops (F := F)) W = after opsCeD (after opsCeG (after opsCeB (after opsCeA (after opsLsm (after opsSetD (after opsSetG (after opsSetB (after opsSetA (after opsPenD (after opsPenG (after opsPenB (after opsPenA (after opsCos (after opsWhat (after opsXhat (W)))))))))))))))) := by
  simp only [← StableHlo.after_append]
  rfl

end Cert.ReferenceIdeal.RefCut

end
-- ==== Proof.RefStrip.lean ====
import proofs.«415580_j72155450573201_1_alg».proof.Proof.RefCut
import Idealize.ShloMosaic.Lib.StableHlo.Run

set_option maxRecDepth 16384
set_option maxHeartbeats 4000000

noncomputable section

namespace Cert.ReferenceIdeal.RefStrip

open Idealize.ShloMosaic Idealize.ShloMosaic.TcCoe Idealize.ShloMosaic.StableHlo
open Cert.ReferenceIdeal Cert.ReferenceIdeal.Gen Cert.ReferenceIdeal.ValueP

variable {F : FTy → Type} [FloatOps F]

/-- the value each operation defines, in program order: values are numbered as they are defined, after the seven arguments -/
noncomputable def written : List (Ref sig .tc) := ((List.finRange _).drop 7).map fun i => ⟨.hbm, i, rfl⟩

/-- each operation writes exactly the value it defines -/
theorem ops_write : (ops : List (HloOp τ sig (Elt F))).map HloOp.writes
    = written.map fun r => ({Proc.devRef (τ := τ) .tc r} : Finset (DevRef τ sig)) := rfl

/-- operations that each write one listed value write nothing outside the list -/
theorem not_written {L : List (HloOp τ sig (Elt F))} {Y : List (Ref sig .tc)}
    (h : L.map HloOp.writes = Y.map fun r => ({Proc.devRef (τ := τ) .tc r} : Finset (DevRef τ sig)))
    {r : Ref sig .tc} (hr : r ∉ Y) (op : HloOp τ sig (Elt F)) (hop : op ∈ L) : Proc.devRef (τ := τ) .tc r ∉ op.writes := by
  obtain ⟨y, hy, e⟩ := List.mem_map.mp (h ▸ List.mem_map_of_mem (f := HloOp.writes) hop : op.writes ∈ Y.map _)
  rw [← e, Finset.mem_singleton]
  exact devRef_ne_of_ne fun e => hr (e ▸ hy)

/-- a stretch of the operations leaves alone every value it does not define -/
theorem strip (i n : Nat) (V : Valuation τ sig (Elt F)) {r : Ref sig .tc} (hr : r ∉ (written.drop i).take n) :
    after (((ops (F := F)).drop i).take n) V (no_index (Proc.devRef .tc r)) = V (Proc.devRef .tc r) :=
  after_of_forall_not_mem _ V (not_written (by rw [List.map_take, List.map_drop, ops_write, ← List.map_drop, ← List.map_take]) hr)

end Cert.ReferenceIdeal.RefStrip

end
-- ==== Proof.RefFrame.lean ====
import proofs.«415580_j72155450573201_1_alg».proof.Proof.RefStrip

set_option maxRecDepth 16384
set_option maxHeartbeats 4000000

noncomputable section

namespace Cert.ReferenceIdeal.RefFrame

open Idealize.ShloMosaic Idealize.ShloMosaic.TcCoe Idealize.SL.Sem Idealize.ShloMosaic.StableHlo
open Cert.ReferenceIdeal Cert.ReferenceIdeal.Gen Cert.ReferenceIdeal.ValueP Cert.ReferenceIdeal.RefStrip

variable {F : FTy → Type} [FloatOps F]

/-- every buffer ends as the operations leave it, and no operation defines an argument -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    have k (a : Ref sig .tc) (ha : a ∉ written) : r.2.mem ((c.tc : Thread nD τ).loc a) = m ((c.tc : Thread nD τ).loc a) :=
      (h c a).trans (after_of_forall_not_mem (ops (F := F)) _ (not_written ops_write ha))
    ⟨k main_arg0 (by decide), k main_arg1 (by decide), k main_arg2 (by decide), k main_arg3 (by decide),
     k main_arg4 (by decide), k main_arg5 (by decide), k main_arg6 (by decide)⟩)
    (run_after m ρ)

end Cert.ReferenceIdeal.RefFrame

end
-- ==== Proof.PreDecode.lean ====
import proofs.«415580_j72155450573201_1_alg».proof.Defs
import proofs.«415580_j72155450573201_1_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal
import Idealize.ShloMosaic.PureOps.Ideal.Laws

namespace Cert.PreDecode

open Idealize.ShloMosaic Idealize.SL.Sem Cert.Pre_finite_inputs

-- a signed-nonnegative word reads the same signed and unsigned
theorem word_range (w : BitVec 32) (h : IntOp.andi (IntOp.cmpi .sge w 0#32) (IntOp.cmpi .slt w 100000#32) = 1#1) :
    w.toNat < 100000 := by
  obtain ⟨hge, hlt⟩ := IntOp.andi_eq_one.1 h
  rw [IntOp.cmpi_sge, show (0#32 : BitVec 32).toInt = 0 by decide, BitVec.toInt_eq_toNat_cond] at hge
  rw [IntOp.cmpi_slt, show (100000#32 : BitVec 32).toInt = 100000 by decide, BitVec.toInt_eq_toNat_cond] at hlt
  have := w.isLt
  split at hge <;> omega

-- |x| = max x (−x) < +∞ excludes both infinities
theorem real_of_abs_lt_top (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  change BitVec.ofBool (decide (max x (-x) < Ideal.ofBits .f32 0x7F800000#32)) = 1#1 at h
  rw [htop, StableHlo.Predicate.ofBool_eq_one_iff, decide_eq_true_eq, max_lt_iff] at h
  refine ⟨x.toReal, (EReal.coe_toReal (ne_of_lt h.1) ?_).symm⟩
  rintro rfl
  simp at h

theorem labels_range [Facts] (t : S512.Idx → BitVec 32) (init : S_.Idx → BitVec 1) (i0 : S_.Idx)
    (h : Host.reduce IntOp.andi
        (andi (cmpi .sge t (broadcastInDim S512 ![] Facts.bcast_S_S512 (constantI S_ 32 0#32)))
              (cmpi .slt t (broadcastInDim S512 ![] Facts.bcast_S_S512 (constantI S_ 32 100000#32))))
        init Facts.reducesTo_S512_S_d0 Facts.h_S_ i0 = 1#1) (n : Fin 512) :
    (t (ValueIdx.ix1 n)).toNat < 100000 :=
  word_range _ (Host.reduce_andi_all _ _ _ _ _ h (ValueIdx.ix1 n))

theorem reals_of_reduce {s : Shape} {axes : List (Fin s.rank)} (hb : S_.BroadcastsInDim s (![] : Fin 0 → Fin s.rank))
    (hr : s.ReducesTo axes S_) (hu : 0 < S_.numel) (x : s.Idx → EReal) (init : S_.Idx → BitVec 1) (i0 : S_.Idx)
    (h : Host.reduce IntOp.andi
        (cmpf (F := Ideal) (φ := .f32) .olt (Host.absf (F := Ideal) (φ := .f32) x)
          (broadcastInDim s ![] hb (constant (F := Ideal) S_ .f32 0x7F800000#32)))
        init hr hu i0 = 1#1) (i : s.Idx) : ∃ r : ℝ, x i = (r : EReal) :=
  real_of_abs_lt_top (x i) (Host.reduce_andi_all _ _ _ _ _ h i)

-- the predicate is a left-nested conjunction of seven and-reduces, each 1 only if every entry passes its test
theorem decode [Facts] (X : S512x256x1.Idx → EReal) (Wt : S100000x256.Idx → EReal) (lam : S_.Idx → EReal)
    (ta tb tg td : S512.Idx → BitVec 32) (h : fn (F := Ideal) X Wt lam ta tb tg td = fun _ => 1#1) :
    (∀ i, ∃ r : ℝ, X i = (r : EReal)) ∧ (∀ i, ∃ r : ℝ, Wt i = (r : EReal)) ∧ (∀ i, ∃ r : ℝ, lam i = (r : EReal))
      ∧ (∀ n : Fin 512, (ta (ValueIdx.ix1 n)).toNat < 100000) ∧ (∀ n : Fin 512, (tb (ValueIdx.ix1 n)).toNat < 100000)
      ∧ (∀ n : Fin 512, (tg (ValueIdx.ix1 n)).toNat < 100000) ∧ (∀ n : Fin 512, (td (ValueIdx.ix1 n)).toNat < 100000) := by
  obtain ⟨h, hd⟩ := IntOp.andi_eq_one.1 (congrFun h fun a => a.elim0)
  obtain ⟨h, hg⟩ := IntOp.andi_eq_one.1 h
  obtain ⟨h, hb⟩ := IntOp.andi_eq_one.1 h
  obtain ⟨h, ha⟩ := IntOp.andi_eq_one.1 h
  obtain ⟨h, hL⟩ := IntOp.andi_eq_one.1 h
  obtain ⟨hX, hW⟩ := IntOp.andi_eq_one.1 h
  exact ⟨reals_of_reduce _ _ _ X _ _ hX, reals_of_reduce _ _ _ Wt _ _ hW,
    fun i => real_of_abs_lt_top _ (Host.reduce_andi_all _ _ _ _ _ hL i),
    labels_range ta _ _ ha, labels_range tb _ _ hb, labels_range tg _ _ hg, labels_range td _ _ hd⟩

end Cert.PreDecode
-- ==== Proof.TailCut.lean ====
import proofs.«415580_j72155450573201_1_alg».proof.Proof.Keeps
import Idealize.ShloMosaic.Lib.StableHlo.Run
import Idealize.ShloMosaic.Lib.Pipeline.Frame

set_option maxRecDepth 16384

noncomputable section

namespace Cert.KernelIdeal.TailCut

open Idealize.ShloMosaic Idealize.ShloMosaic.TcCoe Idealize.ShloMosaic.StableHlo
open Cert.KernelIdeal Cert.KernelIdeal.Gen Cert.KernelIdeal.Kit Cert.KernelIdeal.Keeps

variable {F : FTy → Type} [FloatOps F]

noncomputable abbrev opsMerge : List (HloOp τ sig (Elt F)) := hostOps1.take 16
noncomputable abbrev opsCosA : List (HloOp τ sig (Elt F)) := (hostOps1.drop 16).take 23
noncomputable abbrev opsCosB : List (HloOp τ sig (Elt F)) := (hostOps1.drop 39).take 23
noncomputable abbrev opsCosG : List (HloOp τ sig (Elt F)) := (hostOps1.drop 62).take 23
noncomputable abbrev opsCosD : List (HloOp τ sig (Elt F)) := (hostOps1.drop 85).take 23
noncomputable abbrev opsValues : List (HloOp τ sig (Elt F)) := (hostOps1.drop 108).take 27
noncomputable abbrev opsFlags : List (HloOp τ sig (Elt F)) := (hostOps1.drop 135).take 15
noncomputable abbrev opsCorrect : List (HloOp τ sig (Elt F)) := (hostOps1.drop 150).take 32
noncomputable abbrev opsLog : List (HloOp τ sig (Elt F)) := hostOps1.drop 182

-- the nine pieces in order are the whole first stretch, and running a concatenation is running its parts in order
theorem after_hostOps1 (W : Valuation τ sig (Elt F)) :
    after (hostOps1 (F := F)) W
      = after opsLog (after opsCorrect (after opsFlags (after opsValues (after opsCosD (after opsCosG (after opsCosB (after opsCosA
          (after opsMerge W)))))))) := by
  simp only [← StableHlo.after_append]
  rfl

theorem after_afterOps (W : Valuation τ sig (Elt F)) :
    after (afterOps (F := F)) W
      = after hostOps1_12 (after hostOps1_11 (after hostOps1_10 (after hostOps1_9 (after hostOps1_8 (after hostOps1_7 (after hostOps1_6
          (after hostOps1_5 (after hostOps1_4 (after hostOps1_3 (after hostOps1_2 (after hostOps1_1 (after (hostOps1 (F := F)) W)))))))))))) := by
  simp only [afterOps, tailOps, List.flatten_cons, List.flatten_nil, List.append_nil, StableHlo.after_append]

end Cert.KernelIdeal.TailCut

end
-- ==== Proof.TailStrip.lean ====
import proofs.«415580_j72155450573201_1_alg».proof.Proof.TailCut

set_option maxRecDepth 16384

noncomputable section

namespace Cert.KernelIdeal.TailStrip

open Idealize.ShloMosaic Idealize.ShloMosaic.TcCoe Idealize.ShloMosaic.StableHlo
open Cert.KernelIdeal Cert.KernelIdeal.Gen Cert.KernelIdeal.Kit Cert.KernelIdeal.Keeps Cert.KernelIdeal.TailCut

variable {F : FTy → Type} [FloatOps F]

-- the operation at each position writes exactly the buffer of the reference at that position
abbrev Defines (ops : List (HloOp τ sig (Elt F))) (Wr : List (Ref sig .tc)) : Prop :=
  List.Forall₂ (fun op r => op.writes = {Proc.devRef .tc r}) ops Wr

-- a reference a stretch does not define is written by none of its operations, so the stretch leaves it as it was
theorem strip {ops : List (HloOp τ sig (Elt F))} {Wr : List (Ref sig .tc)} (h : Defines ops Wr)
    (V : Valuation τ sig (Elt F)) {r : Ref sig .tc} (hr : r ∉ Wr) :
    after ops V (no_index (Proc.devRef .tc r)) = V (Proc.devRef .tc r) := by
  induction h generalizing V with
  | nil => rfl
  | cons hw _ ih =>
    rw [after_cons, ih _ fun h => hr (List.mem_cons_of_mem _ h), HloOp.result_of_not_mem]
    rw [hw, Finset.mem_singleton]
    exact devRef_ne_of_ne fun e => hr (e ▸ List.mem_cons_self)

-- the values a stretch defines are numbered in program order: the 184 from the 22nd on
noncomputable abbrev written1 : List (Ref sig .tc) :=
  (((List.finRange _).drop 21).take 184).map fun i => ⟨.hbm, i, rfl⟩
theorem defines1 : Defines (hostOps1 (F := F)) written1 := by repeat' constructor

variable (V : Valuation τ sig (Elt F)) {r : Ref sig .tc}

abbrev written_opsMerge := written1.take 16
theorem strip_opsMerge (hr : r ∉ written_opsMerge) :
    after opsMerge V (no_index (Proc.devRef .tc r)) = V (Proc.devRef .tc r) :=
  strip (List.forall₂_take 16 defines1) V hr

abbrev written_opsCosA := (written1.drop 16).take 23
theorem strip_opsCosA (hr : r ∉ written_opsCosA) :
    after opsCosA V (no_index (Proc.devRef .tc r)) = V (Proc.devRef .tc r) :=
  strip (List.forall₂_take 23 (List.forall₂_drop 16 defines1)) V hr

abbrev written_opsCosB := (written1.drop 39).take 23
theorem strip_opsCosB (hr : r ∉ written_opsCosB) :
    after opsCosB V (no_index (Proc.devRef .tc r)) = V (Proc.devRef .tc r) :=
  strip (List.forall₂_take 23 (List.forall₂_drop 39 defines1)) V hr

abbrev written_opsCosG := (written1.drop 62).take 23
theorem strip_opsCosG (hr : r ∉ written_opsCosG) :
    after opsCosG V (no_index (Proc.devRef .tc r)) = V (Proc.devRef .tc r) :=
  strip (List.forall₂_take 23 (List.forall₂_drop 62 defines1)) V hr

abbrev written_opsCosD := (written1.drop 85).take 23
theorem strip_opsCosD (hr : r ∉ written_opsCosD) :
    after opsCosD V (no_index (Proc.devRef .tc r)) = V (Proc.devRef .tc r) :=
  strip (List.forall₂_take 23 (List.forall₂_drop 85 defines1)) V hr

abbrev written_opsValues := (written1.drop 108).take 27
theorem strip_opsValues (hr : r ∉ written_opsValues) :
    after opsValues V (no_index (Proc.devRef .tc r)) = V (Proc.devRef .tc r) :=
  strip (List.forall₂_take 27 (List.forall₂_drop 108 defines1)) V hr

abbrev written_opsFlags := (written1.drop 135).take 15
theorem strip_opsFlags (hr : r ∉ written_opsFlags) :
    after opsFlags V (no_index (Proc.devRef .tc r)) = V (Proc.devRef .tc r) :=
  strip (List.forall₂_take 15 (List.forall₂_drop 135 defines1)) V hr

abbrev written_opsCorrect := (written1.drop 150).take 32
theorem strip_opsCorrect (hr : r ∉ written_opsCorrect) :
    after opsCorrect V (no_index (Proc.devRef .tc r)) = V (Proc.devRef .tc r) :=
  strip (List.forall₂_take 32 (List.forall₂_drop 150 defines1)) V hr

abbrev written_opsLog := written1.drop 182
theorem strip_opsLog (hr : r ∉ written_opsLog) :
    after opsLog V (no_index (Proc.devRef .tc r)) = V (Proc.devRef .tc r) :=
  strip (List.forall₂_drop 182 defines1) V hr

abbrev written_hostOps1_1 := [main_v165]
theorem strip_hostOps1_1 (hr : r ∉ written_hostOps1_1) :
    after hostOps1_1 V (no_index (Proc.devRef .tc r)) = V (Proc.devRef .tc r) :=
  strip (.cons rfl .nil) V hr

abbrev written_hostOps1_2 := [main_v166]
theorem strip_hostOps1_2 (hr : r ∉ written_hostOps1_2) :
    after hostOps1_2 V (no_index (Proc.devRef .tc r)) = V (Proc.devRef .tc r) :=
  strip (.cons rfl .nil) V hr

abbrev written_hostOps1_3 := [main_v167]
theorem strip_hostOps1_3 (hr : r ∉ written_hostOps1_3) :
    after hostOps1_3 V (no_index (Proc.devRef .tc r)) = V (Proc.devRef .tc r) :=
  strip (.cons rfl .nil) V hr

abbrev written_hostOps1_4 := [main_v168]
theorem strip_hostOps1_4 (hr : r ∉ written_hostOps1_4) :
    after hostOps1_4 V (no_index (Proc.devRef .tc r)) = V (Proc.devRef .tc r) :=
  strip (.cons rfl .nil) V hr

abbrev written_hostOps1_5 := [main_v169]
theorem strip_hostOps1_5 (hr : r ∉ written_hostOps1_5) :
    after hostOps1_5 V (no_index (Proc.devRef .tc r)) = V (Proc.devRef .tc r) :=
  strip (.cons rfl .nil) V hr

abbrev written_hostOps1_6 := [main_v170]
theorem strip_hostOps1_6 (hr : r ∉ written_hostOps1_6) :
    after hostOps1_6 V (no_index (Proc.devRef .tc r)) = V (Proc.devRef .tc r) :=
  strip (.cons rfl .nil) V hr

abbrev written_hostOps1_7 := [main_v171]
theorem strip_hostOps1_7 (hr : r ∉ written_hostOps1_7) :
    after hostOps1_7 V (no_index (Proc.devRef .tc r)) = V (Proc.devRef .tc r) :=
  strip (.cons rfl .nil) V hr

abbrev written_hostOps1_8 := [main_v172]
theorem strip_hostOps1_8 (hr : r ∉ written_hostOps1_8) :
    after hostOps1_8 V (no_index (Proc.devRef .tc r)) = V (Proc.devRef .tc r) :=
  strip (.cons rfl .nil) V hr

abbrev written_hostOps1_9 := [main_v173]
theorem strip_hostOps1_9 (hr : r ∉ written_hostOps1_9) :
    after hostOps1_9 V (no_index (Proc.devRef .tc r)) = V (Proc.devRef .tc r) :=
  strip (.cons rfl .nil) V hr

abbrev written_hostOps1_10 := [main_v174]
theorem strip_hostOps1_10 (hr : r ∉ written_hostOps1_10) :
    after hostOps1_10 V (no_index (Proc.devRef .tc r)) = V (Proc.devRef .tc r) :=
  strip (.cons rfl .nil) V hr

abbrev written_hostOps1_11 := [main_v175]
theorem strip_hostOps1_11 (hr : r ∉ written_hostOps1_11) :
    after hostOps1_11 V (no_index (Proc.devRef .tc r)) = V (Proc.devRef .tc r) :=
  strip (.cons rfl .nil) V hr

noncomputable abbrev written_hostOps1_12 : List (Ref sig .tc) :=
  (((List.finRange _).drop 216).take 43).map fun i => ⟨.hbm, i, rfl⟩
theorem strip_hostOps1_12 (hr : r ∉ written_hostOps1_12) :
    after hostOps1_12 V (no_index (Proc.devRef .tc r)) = V (Proc.devRef .tc r) :=
  strip (by repeat' constructor) V hr

end Cert.KernelIdeal.TailStrip

end
-- ==== Proof.LossSpec.lean ====
import Idealize.ShloMosaic.PureOps.Ideal
import Idealize.ShloMosaic.Lib.ValueIdx
import Mathlib.Algebra.BigOperators.Group.Finset.Basic
import Mathlib.Data.Fintype.BigOperators

noncomputable section

namespace Cert.LossSpec

open Idealize.ShloMosaic Idealize.ShloMosaic.ValueIdx
open scoped BigOperators

abbrev Inp := (⟨3, ![512, 256, 1]⟩ : Shape).Idx → EReal
abbrev Wts := (⟨2, ![100000, 256]⟩ : Shape).Idx → EReal
abbrev Lam := (⟨0, ![]⟩ : Shape).Idx → EReal
abbrev Lab := (⟨1, ![512]⟩ : Shape).Idx → BitVec 32

def eps : EReal := Ideal.ofBits .f32 0x2B8CBCCC#32
def scale : EReal := Ideal.ofBits .f32 0x41F00000#32
def margin : EReal := Ideal.ofBits .f32 0x3E4CCCCD#32
def c2 : EReal := Ideal.ofBits .f32 0x3E4CCCCD#32
def c8 : EReal := Ideal.ofBits .f32 0x3F4CCCCD#32
def n512 : EReal := Ideal.ofBits .f32 0x44000000#32
def one : EReal := Ideal.ofBits .f32 0x3F800000#32

def xhat (X : Inp) (n : Fin 512) (k : Fin 256) : EReal :=
  Ideal.div (X (ix3 n k 0)) (max (Ideal.sqrt (∑ j : Fin 256, X (ix3 n j 0) * X (ix3 n j 0))) eps)

def what (Wt : Wts) (c : Fin 100000) (k : Fin 256) : EReal :=
  Ideal.div (Wt (ix2 c k)) (max (Ideal.sqrt (∑ j : Fin 256, Wt (ix2 c j) * Wt (ix2 c j))) eps)

def cosv (X : Inp) (Wt : Wts) (n : Fin 512) (c : Fin 100000) : EReal :=
  ∑ k : Fin 256, xhat X n k * what Wt c k

def col (t : Lab) (n : Fin 512) (h : (t (ix1 n)).toNat < 100000) : Fin 100000 := ⟨(t (ix1 n)).toNat, h⟩

def base (X : Inp) (Wt : Wts) (n : Fin 512) (c : Fin 100000) : EReal := scale * cosv X Wt n c

def valA (X : Inp) (Wt : Wts) (n : Fin 512) (ca : Fin 100000) : EReal := scale * (cosv X Wt n ca - margin)
def valO (X : Inp) (Wt : Wts) (n : Fin 512) (c : Fin 100000) : EReal := cosv X Wt n c - margin

def outRow (X : Inp) (Wt : Wts) (n : Fin 512) (ca cb cg cd : Fin 100000) : Fin 100000 → EReal :=
  Function.update (Function.update (Function.update (Function.update (base X Wt n) ca (valA X Wt n ca))
    cb (valO X Wt n cb)) cg (valO X Wt n cg)) cd (valO X Wt n cd)

def lsm (r : Fin 100000 → EReal) (c : Fin 100000) : EReal := r c - Ideal.log (∑ c', Ideal.exp (r c'))

def ce (l : Fin 512 → EReal) : EReal := -(Ideal.div (0 + ∑ n, l n) n512)

def lossOf (lam : EReal) (la lb lg ld : Fin 512 → EReal) : EReal :=
  lam * (c2 * ce la + c8 * ce lb) + (one - lam) * (c2 * ce lg + c8 * ce ld)

end Cert.LossSpec

end
-- ==== Proof.TailCos.lean ====
import proofs.«415580_j72155450573201_1_alg».proof.Proof.TailCut
import proofs.«415580_j72155450573201_1_alg».proof.Proof.LossSpec
import Idealize.ShloMosaic.Lib.StableHlo.Predicate
import Idealize.ShloMosaic.Lib.Pipeline.Value
import Idealize.ShloMosaic.Lib.ValueIdx
import Idealize.ShloMosaic.PureOps.Ideal.Laws

set_option maxRecDepth 16384

noncomputable section

namespace Cert.KernelIdeal.TailCos

open Idealize.ShloMosaic Idealize.ShloMosaic.TcCoe Idealize.ShloMosaic.StableHlo Idealize.ShloMosaic.ValueIdx
open Idealize.ShloMosaic.StableHlo.Predicate (slt_iff_toNat toInt_eq_toNat_of_lt)
open Cert.KernelIdeal Cert.KernelIdeal.Gen Cert.KernelIdeal.Kit Cert.KernelIdeal.TailCut
open scoped BigOperators

variable {F : FTy → Type} [FloatOps F]

-- a label vector with its negative entries moved up by 100000
noncomputable abbrev wrapLab (t : (⟨S512, .i32⟩ : BufTy).Contents (Elt F)) : (⟨S512, .i32⟩ : BufTy).Contents (Elt F) :=
  select (cmpi .slt t (broadcastInDim S512 ![] bcast_S_S512 (constantI S_ 32 0#32)))
    (addi t (broadcastInDim S512 ![] bcast_S_S512 (constantI S_ 32 100000#32))) t

-- the weight rows the wrapped labels name, one per example
noncomputable abbrev gatherRows (Wt : (⟨S100000x256, .f32⟩ : BufTy).Contents (Elt F)) (t : (⟨S512, .i32⟩ : BufTy).Contents (Elt F)) :
    (⟨S512x256, .f32⟩ : BufTy).Contents (Elt F) :=
  Host.gather gather_S100000x256_S512x1_S512x256_1_0_n_n_0_1_1256 Wt (broadcastInDim S512x1 ![0] bcast_S512_S512x1_0 (wrapLab t))

-- the length of each row, kept at least ε
noncomputable abbrev rowNorm (G : (⟨S512x256, .f32⟩ : BufTy).Contents (Elt F)) : (⟨S512x1, .f32⟩ : BufTy).Contents (Elt F) :=
  maximumf
    (Host.sqrt (broadcastInDim S512x1 ![0] bcast_S512_S512x1_0
      (Host.reduceAdd (mulf G G) (constant S_ .f32 0x00000000#32) reducesTo_S512x256_S512_d1 h_S_)))
    (broadcastInDim S512x1 ![] bcast_S_S512x1 (constant S_ .f32 0x2B8CBCCC#32))

-- row n of X8 dotted with the weight row label n names, that row divided by its length
noncomputable abbrev cosTerm (X8 : (⟨S512x256, .f32⟩ : BufTy).Contents (Elt F)) (Wt : (⟨S100000x256, .f32⟩ : BufTy).Contents (Elt F))
    (t : (⟨S512, .i32⟩ : BufTy).Contents (Elt F)) : (⟨S512x1, .f32⟩ : BufTy).Contents (Elt F) :=
  broadcastInDim S512x1 ![0] bcast_S512_S512x1_0
    (Host.reduceAdd (mulf X8 (Host.divf (gatherRows Wt t)
        (broadcastInDim S512x256 ![0, 1] bcast_S512x1_S512x256_0_1 (rowNorm (gatherRows Wt t)))))
      (constant S_ .f32 0x00000000#32) reducesTo_S512x256_S512_d1 h_S_)

-- result (n, k) reads row clamp(idx[n, 0]), column k: axis 0 is collapsed and named by the start index, axis 1 is the offset axis
theorem gather_row_apply {α : Type} {w : Nat} (x : S100000x256.Idx → α) (idx : IVec S512x1 w) (n : Fin 512) (k : Fin 256) :
    Host.gather gather_S100000x256_S512x1_S512x256_1_0_n_n_0_1_1256 x idx (ix2 n k)
      = x (ix2 ⟨min (idx (ix2 n 0)).toInt.toNat (100000 - 1), by omega⟩ k) := by
  unfold Host.gather
  refine congrArg x (funext fun a => Fin.ext ?_)
  match a with
  | ⟨0, _⟩ =>
    exact congrArg (fun i => min (idx i).toInt.toNat (100000 - 1))
      (funext fun b => Fin.ext (by match b with | ⟨0, _⟩ => rfl | ⟨1, _⟩ => rfl))
  | ⟨1, _⟩ => exact Nat.zero_add _

theorem bcastCol_apply {α : Type} (v : S512.Idx → α) (n : Fin 512) :
    broadcastInDim S512x1 ![0] bcast_S512_S512x1_0 v (ix2 n 0) = v (ix1 n) :=
  broadcastInDim_apply _ _ _ _ _ fun a => by obtain rfl : a = 0 := Subsingleton.elim _ _; rfl

theorem bcastRow_apply {α : Type} (v : S512x1.Idx → α) (n : Fin 512) (k : Fin 256) :
    broadcastInDim S512x256 ![0, 1] bcast_S512x1_S512x256_0_1 v (ix2 n k) = v (ix2 n 0) :=
  broadcastInDim_apply _ _ _ _ _ fun a => by match a with | ⟨0, _⟩ => rfl | ⟨1, _⟩ => rfl

-- a label below 100000 is not negative as a signed word, so it is its own wrap, and the clamp leaves it: it names its own row
theorem gatherRows_apply (Wt : S100000x256.Idx → EReal) (t : S512.Idx → BitVec 32) (n : Fin 512) (k : Fin 256)
    (h : (t (ix1 n)).toNat < 100000) :
    gatherRows (F := Ideal) Wt t (ix2 n k) = Wt (ix2 ⟨(t (ix1 n)).toNat, h⟩ k) := by
  rw [gatherRows, gather_row_apply]
  congr 1
  funext a
  refine Fin.ext ?_
  match a with
  | ⟨0, _⟩ =>
    show min (_ : BitVec 32).toInt.toNat (100000 - 1) = (t (ix1 n)).toNat
    rw [bcastCol_apply]
    show min (Scalar.select (IntOp.cmpi .slt (t (ix1 n)) 0#32) _ (t (ix1 n))).toInt.toNat _ = _
    rw [eq_zero_of_ne_one fun e => Nat.not_lt_zero _ ((slt_iff_toNat (by omega) (by decide)).mp e), select_zero,
      toInt_eq_toNat_of_lt (by omega)]
    omega
  | ⟨1, _⟩ => rfl

theorem rowSum_apply (x : S512x256.Idx → EReal) (n : Fin 512) :
    (Host.reduceAdd (F := Ideal) (φ := .f32) x (constant S_ .f32 0x00000000#32) reducesTo_S512x256_S512_d1 h_S_ : S512.Idx → EReal) (ix1 n)
      = 0 + ∑ k : Fin 256, x (ix2 n k) := by
  show Ideal.hostReduceAdd reducesTo_S512x256_S512_d1 x (Ideal.ofBits .f32 0x00000000#32) (ix1 n) = _
  rw [Ideal.hostReduceAdd_single reducesTo_S512x256_S512_d1 (by decide : S512x256.Reduces [1] S512), Ideal.ofBits_zero_f32]
  exact congrArg (0 + ·) (Finset.sum_congr rfl fun k _ => congrArg x
    (funext fun c => Fin.ext (by match c with | ⟨0, _⟩ => rfl | ⟨1, _⟩ => rfl)))

theorem rowNorm_apply (G : S512x256.Idx → EReal) (n : Fin 512) :
    rowNorm (F := Ideal) G (ix2 n 0)
      = max (Ideal.sqrt (0 + ∑ j : Fin 256, G (ix2 n j) * G (ix2 n j))) LossSpec.eps := by
  show max (Ideal.sqrt (broadcastInDim (s := S512) S512x1 ![0] bcast_S512_S512x1_0 _ (ix2 n 0))) _ = _
  rw [bcastCol_apply, rowSum_apply]
  rfl

theorem cosTerm_apply (X8 : S512x256.Idx → EReal) (Wt : S100000x256.Idx → EReal) (t : S512.Idx → BitVec 32) (n : Fin 512)
    (h : (t (ix1 n)).toNat < 100000) :
    cosTerm (F := Ideal) X8 Wt t (ix2 n 0)
      = 0 + ∑ k : Fin 256, X8 (ix2 n k) * LossSpec.what Wt ⟨(t (ix1 n)).toNat, h⟩ k := by
  rw [cosTerm, bcastCol_apply, rowSum_apply]
  congr 1
  refine Finset.sum_congr rfl fun k _ => ?_
  show X8 (ix2 n k) * Ideal.div (gatherRows (F := Ideal) Wt t (ix2 n k))
      (broadcastInDim (s := S512x1) S512x256 ![0, 1] bcast_S512x1_S512x256_0_1 (rowNorm (F := Ideal) (gatherRows (F := Ideal) Wt t)) (ix2 n k)) = _
  rw [bcastRow_apply, rowNorm_apply, gatherRows_apply Wt t n k h, zero_add]
  simp only [gatherRows_apply Wt t n _ h]
  rfl

theorem v44_term (W : Valuation τ sig (Elt Ideal)) :
    after (opsCosA (F := Ideal)) W (Proc.devRef .tc main_v44)
      = cosTerm (W (Proc.devRef .tc main_v8)) (W (Proc.devRef .tc main_arg1)) (W (Proc.devRef .tc main_arg3)) := by
  simp only [opsCosA, hostOps1, List.take_succ_cons, List.take_zero, List.drop_succ_cons, List.drop_zero]
  after_results_simp

theorem v62_term (W : Valuation τ sig (Elt Ideal)) :
    after (opsCosB (F := Ideal)) W (Proc.devRef .tc main_v62)
      = cosTerm (W (Proc.devRef .tc main_v8)) (W (Proc.devRef .tc main_arg1)) (W (Proc.devRef .tc main_arg4)) := by
  simp only [opsCosB, hostOps1, List.take_succ_cons, List.take_zero, List.drop_succ_cons, List.drop_zero]
  after_results_simp

theorem v80_term (W : Valuation τ sig (Elt Ideal)) :
    after (opsCosG (F := Ideal)) W (Proc.devRef .tc main_v80)
      = cosTerm (W (Proc.devRef .tc main_v8)) (W (Proc.devRef .tc main_arg1)) (W (Proc.devRef .tc main_arg5)) := by
  simp only [opsCosG, hostOps1, List.take_succ_cons, List.take_zero, List.drop_succ_cons, List.drop_zero]
  after_results_simp

theorem v98_term (W : Valuation τ sig (Elt Ideal)) :
    after (opsCosD (F := Ideal)) W (Proc.devRef .tc main_v98)
      = cosTerm (W (Proc.devRef .tc main_v8)) (W (Proc.devRef .tc main_arg1)) (W (Proc.devRef .tc main_arg6)) := by
  simp only [opsCosD, hostOps1, List.take_succ_cons, List.take_zero, List.drop_succ_cons, List.drop_zero]
  after_results_simp

end Cert.KernelIdeal.TailCos

end
-- ==== Proof.TailPointwise.lean ====
import proofs.«415580_j72155450573201_1_alg».proof.Proof.TailCut
import proofs.«415580_j72155450573201_1_alg».proof.Proof.LossSpec
import Idealize.ShloMosaic.Lib.StableHlo.Run
import Idealize.ShloMosaic.Lib.Pipeline.Frame
import Idealize.ShloMosaic.Lib.Pipeline.Value
import Idealize.ShloMosaic.Lib.ValueIdx
import Idealize.ShloMosaic.PureOps.Ideal
import Idealize.ShloMosaic.PureOps.Ideal.Laws

set_option maxRecDepth 16384
set_option maxHeartbeats 2000000

noncomputable section

namespace Cert.KernelIdeal.TailPointwise

open Idealize.ShloMosaic Idealize.ShloMosaic.TcCoe Idealize.ShloMosaic.StableHlo Idealize.ShloMosaic.ValueIdx
open Cert.KernelIdeal Cert.KernelIdeal.Gen Cert.KernelIdeal.Kit Cert.KernelIdeal.TailCut

/-- entry n of a 512 × 1 array, of extended reals and of words -/
abbrev row (v : S512x1.Idx → EReal) (n : Fin 512) : EReal := v (ix2 n 0)
abbrev word {w : Nat} (v : S512x1.Idx → BitVec w) (n : Fin 512) : BitVec w := v (ix2 n 0)
/-- a one-bit word read as an unsigned number -/
abbrev num (b : BitVec 1) : EReal := FloatOps.uitofp (F := Ideal) .f32 b

/-- half s of a 2 × 512 × 1 array as a 512 × 1 array: row n is entry (s, n, 0), at the same row-major position -/
theorem half_apply (A : S2x512x1.Idx → EReal) (s : Nat) (hs : s < 2) (h : S2x512x1.Slices ![s, 0, 0] S1x512x1) (n : Fin 512) :
    row (shapeCast S512x1 (extractStridedSlice S1x512x1 ![s, 0, 0] A h) shapeCasts_S1x512x1_S512x1) n = A (ix3 ⟨s, hs⟩ n 0) := by
  refine (shapeCast_apply _ _ (ix2 n 0) (ix3 0 n 0) ?_).trans
    (extractStridedSlice_apply _ _ _ _ (ix3 ⟨s, hs⟩ n 0) fun a => match a with
      | ⟨0, _⟩ => rfl
      | ⟨1, _⟩ => (Nat.zero_add _).symm
      | ⟨2, _⟩ => rfl)
  rw [Shape.rowMajor_val_three, Shape.rowMajor_val_two]
  show (0 * 512 + n.val) * 1 + 0 = n.val * 1 + 0
  omega

/-- the joint maximum m, and the halves' sums each multiplied by exp (own maximum − m) -/
theorem merge_rows (W : Valuation τ sig (Elt Ideal)) (n : Fin 512) :
    let A : S2x512x1.Idx → EReal := W (Proc.devRef .tc main_v10_0)
    let B : S2x512x1.Idx → EReal := W (Proc.devRef .tc main_v10_1)
    let M := max (A (ix3 0 n 0)) (A (ix3 1 n 0))
    row (after opsMerge W (Proc.devRef .tc main_v19)) n = M ∧
    row (after opsMerge W (Proc.devRef .tc main_v26)) n
      = B (ix3 0 n 0) * Ideal.exp (A (ix3 0 n 0) - M) + B (ix3 1 n 0) * Ideal.exp (A (ix3 1 n 0) - M) := by
  intro A B M
  have h0 := fun X => half_apply X 0 (by decide) slices_S2x512x1_S1x512x1_0_0_0 n
  have h1 := fun X => half_apply X 1 (by decide) slices_S2x512x1_S1x512x1_1_0_0 n
  have hM := congrArg₂ max (h0 A) (h1 A)
  simp only [opsMerge, hostOps1, List.take_succ_cons, List.take_zero]
  constructor <;> after_results_simp
  · exact hM
  · exact congrArg₂ (· + ·) (congrArg₂ (· * ·) (h0 B) (congrArg Ideal.exp (congrArg₂ (· - ·) (h0 A) hM)))
      (congrArg₂ (· * ·) (h1 B) (congrArg Ideal.exp (congrArg₂ (· - ·) (h1 A) hM)))

/-- per label the value S · (cos − M) or cos − M, and S · cos -/
theorem values_rows (W : Valuation τ sig (Elt Ideal)) (n : Fin 512) :
    let a := row (W (Proc.devRef .tc main_v44)) n
    let b := row (W (Proc.devRef .tc main_v62)) n
    let g := row (W (Proc.devRef .tc main_v80)) n
    let d := row (W (Proc.devRef .tc main_v98)) n
    row (after opsValues W (Proc.devRef .tc main_v102)) n = LossSpec.scale * (a - LossSpec.margin) ∧
    row (after opsValues W (Proc.devRef .tc main_v104)) n = LossSpec.scale * a ∧
    row (after opsValues W (Proc.devRef .tc main_v106)) n = b - LossSpec.margin ∧
    row (after opsValues W (Proc.devRef .tc main_v108)) n = LossSpec.scale * b ∧
    row (after opsValues W (Proc.devRef .tc main_v110)) n = g - LossSpec.margin ∧
    row (after opsValues W (Proc.devRef .tc main_v112)) n = LossSpec.scale * g ∧
    row (after opsValues W (Proc.devRef .tc main_v114)) n = d - LossSpec.margin ∧
    row (after opsValues W (Proc.devRef .tc main_v116)) n = LossSpec.scale * d := by
  simp only [opsValues, hostOps1, List.take_succ_cons, List.take_zero, List.drop_succ_cons, List.drop_zero]
  refine ⟨?_, ?_, ?_, ?_, ?_, ?_, ?_, ?_⟩ <;> (after_results_simp; all_goals rfl)

/-- the sum plus, per label, flag · (exp (value − m) − exp (S · cos − m)) -/
theorem correct_row (W : Valuation τ sig (Elt Ideal)) (n : Fin 512) :
    let t := fun (f : BitVec 1) (v u : EReal) => num f
      * (Ideal.exp (v - row (W (Proc.devRef .tc main_v19)) n) - Ideal.exp (u - row (W (Proc.devRef .tc main_v19)) n))
    row (after opsCorrect W (Proc.devRef .tc main_v162)) n
      = row (W (Proc.devRef .tc main_v26)) n
        + (t (word (W (Proc.devRef .tc main_v125)) n) (row (W (Proc.devRef .tc main_v102)) n) (row (W (Proc.devRef .tc main_v104)) n)
          + t (word (W (Proc.devRef .tc main_v128)) n) (row (W (Proc.devRef .tc main_v106)) n) (row (W (Proc.devRef .tc main_v108)) n)
          + t (word (W (Proc.devRef .tc main_v129)) n) (row (W (Proc.devRef .tc main_v110)) n) (row (W (Proc.devRef .tc main_v112)) n)
          + t (word (W (Proc.devRef .tc main_v130)) n) (row (W (Proc.devRef .tc main_v114)) n) (row (W (Proc.devRef .tc main_v116)) n)) := by
  simp only [opsCorrect, hostOps1, List.take_succ_cons, List.take_zero, List.drop_succ_cons, List.drop_zero]
  after_results_simp
  all_goals rfl

theorem log_row (W : Valuation τ sig (Elt Ideal)) (n : Fin 512) :
    row (after opsLog W (Proc.devRef .tc main_v163)) n = Ideal.log (row (W (Proc.devRef .tc main_v162)) n) := by
  simp only [opsLog, hostOps1, List.drop_succ_cons, List.drop_zero]
  after_results_simp
  all_goals rfl

end Cert.KernelIdeal.TailPointwise

end
-- ==== Proof.TailPointwise2.lean ====
import proofs.«415580_j72155450573201_1_alg».proof.Proof.TailPointwise
import Idealize.ShloMosaic.Lib.StableHlo.Predicate
import Idealize.ShloMosaic.Lib.WordArith

set_option maxRecDepth 16384
set_option maxHeartbeats 2000000

noncomputable section

namespace Cert.KernelIdeal.TailPointwise

open Idealize.ShloMosaic Idealize.ShloMosaic.TcCoe Idealize.ShloMosaic.StableHlo Idealize.ShloMosaic.ValueIdx
open Idealize.ShloMosaic.StableHlo.Predicate Idealize.ShloMosaic.WordArith
open Cert.KernelIdeal Cert.KernelIdeal.Gen Cert.KernelIdeal.Kit Cert.KernelIdeal.TailCut

/-- the bit of a truth value is the number 1 or 0 -/
theorem num_ofBool (p : Bool) : num (BitVec.ofBool p) = if p then 1 else 0 := by
  cases p
  · show (((0 : ℕ) : ℝ) : EReal) = 0
    rw [Nat.cast_zero, EReal.coe_zero]
  · show (((1 : ℕ) : ℝ) : EReal) = 1
    rw [Nat.cast_one, EReal.coe_one]

/-- a 512-vector as a 512 × 1 array: row n is entry n -/
abbrev lab (x : (⟨S512, .i32⟩ : BufTy).Contents (Elt Ideal)) : (⟨S512x1, .i32⟩ : BufTy).Contents (Elt Ideal) :=
  broadcastInDim S512x1 ![0] bcast_S512_S512x1_0 x

theorem lab_apply (x : (⟨S512, .i32⟩ : BufTy).Contents (Elt Ideal)) (n : Fin 512) : word (lab x) n = x (ix1 n) :=
  broadcastInDim_apply _ _ x (ix2 n 0) (ix1 n) fun a => match a with
    | ⟨0, _⟩ => by
      show n.val = if (512 : Nat) = 1 then 0 else n.val
      rw [if_neg (by decide)]

/-- the labels row by row, and per label the number 1 exactly where every later label differs from it -/
theorem flags_rows (W : Valuation τ sig (Elt Ideal)) (n : Fin 512) :
    let a := (W (Proc.devRef .tc main_arg3) : S512.Idx → BitVec 32) (ix1 n)
    let b := (W (Proc.devRef .tc main_arg4) : S512.Idx → BitVec 32) (ix1 n)
    let g := (W (Proc.devRef .tc main_arg5) : S512.Idx → BitVec 32) (ix1 n)
    let d := (W (Proc.devRef .tc main_arg6) : S512.Idx → BitVec 32) (ix1 n)
    word (after opsFlags W (Proc.devRef .tc main_v117)) n = a ∧
    word (after opsFlags W (Proc.devRef .tc main_v118)) n = b ∧
    word (after opsFlags W (Proc.devRef .tc main_v119)) n = g ∧
    word (after opsFlags W (Proc.devRef .tc main_v120)) n = d ∧
    num (word (after opsFlags W (Proc.devRef .tc main_v125)) n) = (if b ≠ a ∧ g ≠ a ∧ d ≠ a then 1 else 0) ∧
    num (word (after opsFlags W (Proc.devRef .tc main_v128)) n) = (if g ≠ b ∧ d ≠ b then 1 else 0) ∧
    num (word (after opsFlags W (Proc.devRef .tc main_v129)) n) = (if d ≠ g then 1 else 0) ∧
    num (word (after opsFlags W (Proc.devRef .tc main_v130)) n) = 1 := by
  intro a b g d
  simp only [opsFlags, hostOps1, List.take_succ_cons, List.take_zero, List.drop_succ_cons, List.drop_zero]
  refine ⟨?_, ?_, ?_, ?_, ?_, ?_, ?_, ?_⟩ <;> after_results_simp
  · exact lab_apply _ n
  · exact lab_apply _ n
  · exact lab_apply _ n
  · exact lab_apply _ n
  · show num (IntOp.andi (IntOp.andi (IntOp.cmpi .ne (word (lab _) n) (word (lab _) n))
        (IntOp.cmpi .ne (word (lab _) n) (word (lab _) n)))
        (IntOp.cmpi .ne (word (lab _) n) (word (lab _) n))) = _
    simp only [lab_apply, IntOp.cmpi, andi_ofBool, num_ofBool, Bool.and_eq_true, bne_iff_ne, and_assoc]
    rfl
  · show num (IntOp.andi (IntOp.cmpi .ne (word (lab _) n) (word (lab _) n))
        (IntOp.cmpi .ne (word (lab _) n) (word (lab _) n))) = _
    simp only [lab_apply, IntOp.cmpi, andi_ofBool, num_ofBool, Bool.and_eq_true, bne_iff_ne]
    rfl
  · show num (IntOp.cmpi .ne (word (lab _) n) (word (lab _) n)) = _
    simp only [lab_apply, IntOp.cmpi, num_ofBool, bne_iff_ne]
    rfl
  · exact num_ofBool true

/-- nested selects on equality bits pick the value of the last label equal to the first -/
theorem chainA_row (W : Valuation τ sig (Elt Ideal)) (n : Fin 512) :
    row (after hostOps1_5 (after hostOps1_4 (after hostOps1_3 (after hostOps1_2 (after hostOps1_1 (after opsLog W)))))
        (Proc.devRef .tc main_v169)) n
      = if word (W (Proc.devRef .tc main_v120)) n = word (W (Proc.devRef .tc main_v117)) n then row (W (Proc.devRef .tc main_v114)) n
        else if word (W (Proc.devRef .tc main_v119)) n = word (W (Proc.devRef .tc main_v117)) n then row (W (Proc.devRef .tc main_v110)) n
        else if word (W (Proc.devRef .tc main_v118)) n = word (W (Proc.devRef .tc main_v117)) n then row (W (Proc.devRef .tc main_v106)) n
        else row (W (Proc.devRef .tc main_v102)) n := by
  simp only [hostOps1_1, hostOps1_2, hostOps1_3, hostOps1_4, hostOps1_5, StableHlo.TRef.ternary, opsLog, hostOps1,
    List.drop_succ_cons, List.drop_zero]
  after_results_simp
  exact if_congr cmpi_eq_iff rfl (if_congr cmpi_eq_iff rfl (if_congr cmpi_eq_iff rfl rfl))

theorem chainB_row (W : Valuation τ sig (Elt Ideal)) (n : Fin 512) :
    row (after hostOps1_9 (after hostOps1_8 (after hostOps1_7 (after hostOps1_6 W))) (Proc.devRef .tc main_v173)) n
      = if word (W (Proc.devRef .tc main_v120)) n = word (W (Proc.devRef .tc main_v118)) n then row (W (Proc.devRef .tc main_v114)) n
        else if word (W (Proc.devRef .tc main_v119)) n = word (W (Proc.devRef .tc main_v118)) n then row (W (Proc.devRef .tc main_v110)) n
        else row (W (Proc.devRef .tc main_v106)) n := by
  simp only [hostOps1_6, hostOps1_7, hostOps1_8, hostOps1_9, StableHlo.TRef.ternary]
  after_results_simp
  exact if_congr cmpi_eq_iff rfl (if_congr cmpi_eq_iff rfl rfl)

theorem chainG_row (W : Valuation τ sig (Elt Ideal)) (n : Fin 512) :
    row (after hostOps1_11 (after hostOps1_10 W) (Proc.devRef .tc main_v175)) n
      = if word (W (Proc.devRef .tc main_v120)) n = word (W (Proc.devRef .tc main_v119)) n then row (W (Proc.devRef .tc main_v114)) n
        else row (W (Proc.devRef .tc main_v110)) n := by
  simp only [hostOps1_10, hostOps1_11, StableHlo.TRef.ternary]
  after_results_simp
  exact if_congr cmpi_eq_iff rfl rfl

end Cert.KernelIdeal.TailPointwise

end
-- ==== Proof.TailLoss.lean ====
import proofs.«415580_j72155450573201_1_alg».proof.Proof.TailPointwise

set_option maxRecDepth 16384
set_option maxHeartbeats 8000000

noncomputable section

namespace Cert.KernelIdeal.TailLoss

open Idealize.ShloMosaic Idealize.ShloMosaic.TcCoe Idealize.ShloMosaic.StableHlo Idealize.ShloMosaic.ValueIdx
open Cert.KernelIdeal Cert.KernelIdeal.Gen Cert.KernelIdeal.Kit Cert.KernelIdeal.TailPointwise
open scoped BigOperators

/-- minus the mean of the 512 entries -/
abbrev negMean (e : S512x1.Idx → EReal) : S_.Idx → EReal :=
  Host.negf (F := Ideal) (Host.divf (Host.reduceAdd e (constant S_ .f32 0x00000000#32) reducesTo_S512x1_S_d0_1 h_S_)
    (constant S_ .f32 0x44000000#32))

/-- the second axis has a single point, so the sum over both axes is the sum over the 512 rows -/
theorem negMean_ideal (e : S512x1.Idx → EReal) : (negMean e : S_.Idx → EReal) ix0 = LossSpec.ce (row e) := by
  show -(Ideal.div (Ideal.hostReduceAdd reducesTo_S512x1_S_d0_1 e (Ideal.ofBits .f32 0x00000000#32) ix0)
      (Ideal.ofBits .f32 0x44000000#32)) = _
  rw [Ideal.hostReduceAdd_total reducesTo_S512x1_S_d0_1 (fun b => b.elim0), Ideal.ofBits_zero_f32, sum_idx2]
  simp only [Fin.sum_univ_one]
  rfl

/-- the loss is the specification's mix of four cross-entropies, of the entries value − maximum − logarithm -/
theorem loss_row (W : Valuation τ sig (Elt Ideal)) :
    let e := fun (v : S512x1.Idx → EReal) (n : Fin 512) =>
      row v n - row (W (Proc.devRef .tc main_v19)) n - row (W (Proc.devRef .tc main_v163)) n
    (after hostOps1_12 W (Proc.devRef .tc main_v205) : S_.Idx → EReal) ix0
      = LossSpec.lossOf ((W (Proc.devRef .tc main_arg2) : S_.Idx → EReal) ix0) (e (W (Proc.devRef .tc main_v169)))
          (e (W (Proc.devRef .tc main_v173))) (e (W (Proc.devRef .tc main_v175))) (e (W (Proc.devRef .tc main_v114))) := by
  intro e
  simp only [hostOps1_12]
  after_results_simp
  show _ * (LossSpec.c2 * (negMean _ : S_.Idx → EReal) ix0 + LossSpec.c8 * (negMean _ : S_.Idx → EReal) ix0)
      + (LossSpec.one - _) * (LossSpec.c2 * (negMean _ : S_.Idx → EReal) ix0 + LossSpec.c8 * (negMean _ : S_.Idx → EReal) ix0) = _
  rw [negMean_ideal, negMean_ideal, negMean_ideal, negMean_ideal]
  rfl

end Cert.KernelIdeal.TailLoss

end
-- ==== Proof.KernelHead.lean ====
import proofs.«415580_j72155450573201_1_alg».proof.Proof.Kit
import proofs.«415580_j72155450573201_1_alg».proof.Proof.LossSpec
import Idealize.ShloMosaic.Lib.StableHlo.Run
import Idealize.ShloMosaic.Lib.Pipeline.Frame
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.KernelHead

open Idealize.ShloMosaic Idealize.ShloMosaic.TcCoe Idealize.ShloMosaic.StableHlo Idealize.ShloMosaic.ValueIdx
open Cert.KernelIdeal Cert.KernelIdeal.Gen Cert.KernelIdeal.Kit
open scoped BigOperators

variable {F : FTy → Type} [FloatOps F]

abbrev flatX (X : (⟨S512x256x1, .f32⟩ : BufTy).Contents (Elt F)) : (⟨S512x256, .f32⟩ : BufTy).Contents (Elt F) :=
  shapeCast S512x256 X shapeCasts_S512x256x1_S512x256

abbrev xNorm (G : (⟨S512x256, .f32⟩ : BufTy).Contents (Elt F)) : (⟨S512x1, .f32⟩ : BufTy).Contents (Elt F) :=
  maximumf
    (Host.sqrt (broadcastInDim S512x1 ![0] bcast_S512_S512x1_0
      (Host.reduceAdd (mulf G G) (constant S_ .f32 0x00000000#32) reducesTo_S512x256_S512_d1 h_S_)))
    (broadcastInDim S512x1 ![] bcast_S_S512x1 (constant S_ .f32 0x2B8CBCCC#32))

abbrev xRows (G : (⟨S512x256, .f32⟩ : BufTy).Contents (Elt F)) : (⟨S512x256, .f32⟩ : BufTy).Contents (Elt F) :=
  Host.divf G (broadcastInDim S512x256 ![0, 1] bcast_S512x1_S512x256_0_1 (xNorm G))

abbrev xhatTerm (X : (⟨S512x256x1, .f32⟩ : BufTy).Contents (Elt F)) : (⟨S512x256, .f32⟩ : BufTy).Contents (Elt F) :=
  xRows (flatX X)

-- the two results are the operations' own functions composed over the starting memory
theorem terms (W : Valuation τ sig (Elt F)) :
    after (hostOps0 (F := F)) W (Proc.devRef .tc main_v8) = xhatTerm (W (Proc.devRef .tc main_arg0))
      ∧ after (hostOps0 (F := F)) W (Proc.devRef .tc main_v9)
        = truncf .bf16 (xhatTerm (W (Proc.devRef .tc main_arg0))) bitsLt_bf16_f32 := by
  constructor <;>
  · simp only [hostOps0]
    after_results
    rfl

theorem flatX_apply (X : S512x256x1.Idx → EReal) (n : Fin 512) (k : Fin 256) :
    flatX (F := Ideal) X (ix2 n k) = X (ix3 n k 0) := by
  refine shapeCast_apply _ _ (ix2 n k) (ix3 n k 0) ?_
  rw [Shape.rowMajor_val_three, Shape.rowMajor_val_two]
  show (n.val * 256 + k.val) * 1 + 0 = n.val * 256 + k.val
  omega

theorem xReduces : S512x256.Reduces [1] S512 := by decide

theorem xRowSum_apply (x : S512x256.Idx → EReal) (n : Fin 512) :
    (Host.reduceAdd (F := Ideal) (φ := .f32) x (constant S_ .f32 0x00000000#32) reducesTo_S512x256_S512_d1 h_S_ : S512.Idx → EReal) (ix1 n)
      = ∑ k : Fin 256, x (ix2 n k) := by
  show Ideal.hostReduceAdd reducesTo_S512x256_S512_d1 x (Ideal.ofBits .f32 0x00000000#32) (ix1 n) = _
  rw [Ideal.hostReduceAdd_single reducesTo_S512x256_S512_d1 xReduces, Ideal.ofBits_zero_f32, zero_add]
  refine Finset.sum_congr rfl fun k _ => congrArg x ?_
  exact funext fun c => Fin.ext (match c with | ⟨0, _⟩ => rfl | ⟨1, _⟩ => rfl)

theorem xCol_apply {α : Type} (v : S512.Idx → α) (n : Fin 512) :
    broadcastInDim S512x1 ![0] bcast_S512_S512x1_0 v (ix2 n 0) = v (ix1 n) :=
  broadcastInDim_apply _ _ _ _ _ (fun a => by
    obtain rfl : a = 0 := Subsingleton.elim _ _
    rfl)

theorem xRow_apply {α : Type} (v : S512x1.Idx → α) (n : Fin 512) (k : Fin 256) :
    broadcastInDim S512x256 ![0, 1] bcast_S512x1_S512x256_0_1 v (ix2 n k) = v (ix2 n 0) :=
  broadcastInDim_apply _ _ _ _ _ (fun a => by
    match a with
    | ⟨0, _⟩ => rfl
    | ⟨1, _⟩ => rfl)

theorem xhatTerm_apply (X : S512x256x1.Idx → EReal) (n : Fin 512) (k : Fin 256) :
    xhatTerm (F := Ideal) X (ix2 n k) = LossSpec.xhat X n k := by
  show Ideal.div (flatX (F := Ideal) X (ix2 n k)) (broadcastInDim (s := S512x1) S512x256 ![0, 1]
    bcast_S512x1_S512x256_0_1 (xNorm (F := Ideal) (flatX X)) (ix2 n k)) = _
  rw [xRow_apply]
  show Ideal.div _ (max (Ideal.sqrt (broadcastInDim (s := S512) S512x1 ![0] bcast_S512_S512x1_0 _ (ix2 n 0))) _) = _
  rw [xCol_apply, xRowSum_apply]
  simp only [mulf_apply, flatX_apply]
  rfl

local notation:50 lhs:51 " =ₑ " rhs:51 => @Eq EReal lhs rhs

theorem v8_at (W : Valuation τ sig (Elt Ideal)) (n : Fin 512) (k : Fin 256) :
    ((after (hostOps0 (F := Ideal)) W (Proc.devRef .tc main_v8) : S512x256.Idx → EReal) (ValueIdx.ix2 n k))
      =ₑ LossSpec.xhat (W (Proc.devRef .tc main_arg0)) n k := by
  rw [(terms W).1]
  exact xhatTerm_apply _ n k

theorem v9_at (W : Valuation τ sig (Elt Ideal)) (n : Fin 512) (k : Fin 256) :
    ((after (hostOps0 (F := Ideal)) W (Proc.devRef .tc main_v9) : S512x256.Idx → EReal) (ValueIdx.ix2 n k))
      =ₑ LossSpec.xhat (W (Proc.devRef .tc main_arg0)) n k := by
  rw [(terms W).2]
  exact xhatTerm_apply _ n k

end Cert.KernelIdeal.KernelHead

end
-- ==== Proof.ResultArrays.lean ====
import proofs.«415580_j72155450573201_1_alg».proof.Proof.FrameRun
import Idealize.ShloMosaic.Lib.Pipeline.Value
import Idealize.ShloMosaic.Lib.ValueIdx

set_option maxRecDepth 16384

noncomputable section

namespace Cert.KernelIdeal.ResultArrays

open Idealize.ShloMosaic Idealize.ShloMosaic.TcCoe Idealize.ShloMosaic.ValueIdx
open Idealize.SL Idealize.SL.Sem
open Idealize.ShloMosaic.Pipeline (Dat Cfg Window Grid)
open Cert.KernelIdeal Cert.KernelIdeal.Gen

variable {F : FTy → Type} [FloatOps F]

variable (m : (ℓ : Loc nD τ sig) → Buf (Elt F) ℓ) (c : Dev nD)

theorem index_outs : ∀ (t : Fin cfg0.N) (a : Fin 3),
    (cfg0.win 2).index t a = (![t.val / 25, 0, 0] : Fin 3 → Nat) a
      ∧ (cfg0.win 3).index t a = (![t.val / 25, 0, 0] : Fin 3 → Nat) a :=
  (by decide +kernel : ∀ (t : Fin grid0.N) (a : Fin 3),
    win0_2.index t a = (![t.val / 25, 0, 0] : Fin 3 → Nat) a ∧ win0_3.index t a = (![t.val / 25, 0, 0] : Fin 3 → Nat) a)

-- points t ≠ t' with t ≡ t' ≡ 24 (mod 25) differ in t / 25
theorem disj_of_half {G : Grid} (W : Window sig G) (a : Fin W.shape.rank) (hi : ∀ t, W.index t a = t.val / 25)
    (hf : ∀ t, W.flush t = true → t.val % 25 = 24) (t t' : Fin G.N) (h : W.flush t = true) (h' : W.flush t' = true)
    (hne : t ≠ t') : Disjoint (W.blk t).view.set (W.blk t').view.set := by
  refine Window.disjoint_blk _ fun e => hne (Fin.ext ?_)
  have h0 := congrFun e a
  rw [hi, hi] at h0
  have := hf t h
  have := hf t' h'
  omega

-- (25 p + 24) / 25 = p
theorem emb_outs (p : Fin 2) (n : Fin 512) (ht : 25 * p.val + 24 < cfg0.N) :
    ((cfg0.win 2).blk ⟨_, ht⟩).view.emb (ix3 0 n 0) = ix3 p n 0
      ∧ ((cfg0.win 3).blk ⟨_, ht⟩).view.emb (ix3 0 n 0) = ix3 p n 0 := by
  constructor <;> refine funext fun a => Fin.ext ?_ <;>
  · first
      | refine ((cfg0.win 2).rect_emb_val ⟨_, ht⟩ (ix3 0 n 0) a).trans ?_; rw [(index_outs _ a).1]
      | refine ((cfg0.win 3).rect_emb_val ⟨_, ht⟩ (ix3 0 n 0) a).trans ?_; rw [(index_outs _ a).2]
    fin_cases a
    · show (25 * p.val + 24) / 25 * 1 + 0 = p.val
      omega
    · show 0 * 512 + n.val = n.val
      omega
    · rfl

theorem outArray_block (p : Fin 2) (n : Fin 512) (ht : 25 * p.val + 24 < cfg0.N) :
    ((Data.dats m 0 c).arrAt 2 cfg0.N : S2x512x1.Idx → Elt F .f32) (ix3 p n 0)
        = ((Data.outsAt m c (25 * p.val + 24) ht).1.1 : S1x512x1.Idx → Elt F .f32) (ix3 0 n 0)
    ∧ ((Data.dats m 0 c).arrAt 3 cfg0.N : S2x512x1.Idx → Elt F .f32) (ix3 p n 0)
        = ((Data.outsAt m c (25 * p.val + 24) ht).1.2 : S1x512x1.Idx → Elt F .f32) (ix3 0 n 0) := by
  have h24 : (25 * p.val + 24) % 25 = 24 := by omega
  have h2 := (Data.dats m 0 c).arrAt_emb_eq_flushed 2
    (disj_of_half _ 0 (fun t => (index_outs t 0).1) fun t => (flush0_2 t).mp) ⟨_, ht⟩ ((flush0_2 _).mpr h24) (ix3 0 n 0)
  have h3 := (Data.dats m 0 c).arrAt_emb_eq_flushed 3
    (disj_of_half _ 0 (fun t => (index_outs t 0).2) fun t => (flush0_3 t).mp) ⟨_, ht⟩ ((flush0_3 _).mpr h24) (ix3 0 n 0)
  rw [(emb_outs p n ht).1, cast_eq] at h2
  rw [(emb_outs p n ht).2, cast_eq] at h3
  exact ⟨h2.trans (congrFun (Data.after_maxOut m c ⟨_, ht⟩) _), h3.trans (congrFun (Data.after_sumOut m c ⟨_, ht⟩) _)⟩

theorem start_maxArray : Pipeline.withArrays spec0 c (Kit.V0 m c) (fun w => (Data.dats m 0 c).arrAt w cfg0.N) (Proc.devRef .tc main_v10_0) = (Data.dats m 0 c).arrAt 2 cfg0.N :=
  Pipeline.withArrays_arr spec0 launch0.win.arr_inj c _ _ 2

theorem start_sumArray : Pipeline.withArrays spec0 c (Kit.V0 m c) (fun w => (Data.dats m 0 c).arrAt w cfg0.N) (Proc.devRef .tc main_v10_1) = (Data.dats m 0 c).arrAt 3 cfg0.N :=
  Pipeline.withArrays_arr spec0 launch0.win.arr_inj c _ _ 3

theorem start_other (b : Ref sig .tc) (hb : ∀ w, Pipeline.arrRef spec0 w ≠ b) :
    Pipeline.withArrays spec0 c (Kit.V0 m c) (fun w => (Data.dats m 0 c).arrAt w cfg0.N) (Proc.devRef .tc b) = Kit.V0 m c (Proc.devRef .tc b) :=
  Pipeline.withArrays_of_ne spec0 c _ _ b hb

theorem start_weights : Pipeline.withArrays spec0 c (Kit.V0 m c) (fun w => (Data.dats m 0 c).arrAt w cfg0.N) (Proc.devRef .tc main_arg1) = m ((c.tc : Thread nD τ).loc main_arg1) :=
  (Pipeline.withArrays_arr spec0 launch0.win.arr_inj c _ _ 1).trans
    (((Data.dats m 0 c).arrAt_in 1 rfl _).trans ((Data.A_eq m c 1).trans (FrameRun.V_weights m c)))

end Cert.KernelIdeal.ResultArrays

end
-- ==== Proof.LossAlgebra.lean ====
import Mathlib.Analysis.SpecialFunctions.Exp
import Mathlib.Analysis.SpecialFunctions.Log.Basic
import Mathlib.Algebra.BigOperators.Group.Finset.Basic
import Mathlib.Algebra.BigOperators.Ring.Finset
import Mathlib.Data.Fintype.BigOperators
import Mathlib.Logic.Function.Basic
import Mathlib.Tactic.Ring
import Mathlib.Tactic.Linarith

namespace Cert.LossAlgebra

open scoped BigOperators

variable {ι : Type*}

def out4 [DecidableEq ι] (u : ι → ℝ) (a b g d : ι) (va vb vg vd : ℝ) : ι → ℝ :=
  Function.update (Function.update (Function.update (Function.update u a va) b vb) g vg) d vd

/-- moving the shift of a sum of exponentials from m to M multiplies it by exp (m - M) -/
theorem rescale (u : ι → ℝ) (H : Finset ι) (m M : ℝ) :
    (∑ c ∈ H, Real.exp (u c - m)) * Real.exp (m - M) = ∑ c ∈ H, Real.exp (u c - M) := by
  rw [Finset.sum_mul]
  exact Finset.sum_congr rfl fun c _ => by rw [← Real.exp_add, sub_add_sub_cancel]

variable [Fintype ι]

theorem merge_halves [DecidableEq ι] (u : ι → ℝ) (H0 H1 : Finset ι) (hdis : Disjoint H0 H1)
    (hcov : H0 ∪ H1 = Finset.univ) (m0 m1 M : ℝ) :
    (∑ c ∈ H0, Real.exp (u c - m0)) * Real.exp (m0 - M) + (∑ c ∈ H1, Real.exp (u c - m1)) * Real.exp (m1 - M)
      = ∑ c, Real.exp (u c - M) := by
  rw [rescale, rescale, ← hcov, Finset.sum_union hdis]

theorem sum_exp_pos [Nonempty ι] (w : ι → ℝ) : 0 < ∑ c, Real.exp (w c) :=
  Finset.sum_pos (fun c _ => Real.exp_pos (w c)) Finset.univ_nonempty

/-- dropping the shift s multiplies the sum by exp s, so its logarithm grows by s -/
theorem shift_law [Nonempty ι] (w : ι → ℝ) (v s : ℝ) :
    (v - s) - Real.log (∑ c, Real.exp (w c - s)) = v - Real.log (∑ c, Real.exp (w c)) := by
  have h := rescale w Finset.univ s 0
  simp only [sub_zero] at h
  rw [← h, Real.log_mul (sum_exp_pos fun c => w c - s).ne' (Real.exp_pos s).ne', Real.log_exp]
  ring

variable [DecidableEq ι]

/-- one write replaces the old term of its column by the new one -/
theorem sum_exp_update (f : ι → ℝ) (x : ι) (y m : ℝ) :
    ∑ c, Real.exp (Function.update f x y c - m)
      = (∑ c, Real.exp (f c - m)) + (Real.exp (y - m) - Real.exp (f x - m)) := by
  have split : ∀ h : ι → ℝ, ∑ c, Real.exp (h c - m)
      = Real.exp (h x - m) + ∑ c ∈ Finset.univ.erase x, Real.exp (h c - m) := fun h =>
    (Finset.add_sum_erase Finset.univ (fun c => Real.exp (h c - m)) (Finset.mem_univ x)).symm
  rw [split (Function.update f x y), split f, Function.update_self,
    Finset.sum_congr rfl fun c hc => by rw [Function.update_of_ne (Finset.ne_of_mem_erase hc)]]
  ring

/-- a write counts unless a later one goes to the same column -/
theorem sum_out4 (u : ι → ℝ) (a b g d : ι) (va vb vg vd m : ℝ) :
    ∑ c, Real.exp (out4 u a b g d va vb vg vd c - m)
      = (∑ c, Real.exp (u c - m))
        + ((((if b ≠ a ∧ g ≠ a ∧ d ≠ a then (1 : ℝ) else 0) * (Real.exp (va - m) - Real.exp (u a - m))
            + (if g ≠ b ∧ d ≠ b then (1 : ℝ) else 0) * (Real.exp (vb - m) - Real.exp (u b - m)))
            + (if d ≠ g then (1 : ℝ) else 0) * (Real.exp (vg - m) - Real.exp (u g - m)))
            + (1 : ℝ) * (Real.exp (vd - m) - Real.exp (u d - m))) := by
  unfold out4
  rw [sum_exp_update, sum_exp_update, sum_exp_update, sum_exp_update]
  simp only [Function.update_apply]
  by_cases hba : b = a <;> by_cases hga : g = a <;> by_cases hda : d = a <;>
    by_cases hgb : g = b <;> by_cases hdb : d = b <;> by_cases hdg : d = g <;>
    simp_all <;> ring

end Cert.LossAlgebra
-- ==== Proof.LossLift.lean ====
import proofs.«415580_j72155450573201_1_alg».proof.Proof.LossAlgebra
import Idealize.ShloMosaic.PureOps.Ideal
import Mathlib.Data.EReal.Basic
import Mathlib.Data.EReal.Operations
import Mathlib.Data.Finset.Lattice.Fold
import Mathlib.Algebra.Order.BigOperators.Group.Finset
import Mathlib.Order.Lattice
import Mathlib.Tactic.NormNum
import Mathlib.Tactic.Ring

noncomputable section

namespace Cert.LossLift

open Idealize.ShloMosaic
open scoped BigOperators

theorem coe_max (a b : ℝ) : max (a : EReal) (b : EReal) = ((max a b : ℝ) : EReal) :=
  (EReal.coe_strictMono.monotone.map_max).symm

theorem exp_sub_coe (x s : ℝ) : Ideal.exp ((x : EReal) - (s : EReal)) = ((Real.exp (x - s) : ℝ) : EReal) := rfl

theorem ite_coe (P : Prop) [Decidable P] (a b : ℝ) :
    (if P then (a : EReal) else (b : EReal)) = ((if P then a else b : ℝ) : EReal) :=
  (apply_ite _ P a b).symm

theorem log_coe_pos {r : ℝ} (h : 0 < r) : Ideal.log (r : EReal) = ((Real.log r : ℝ) : EReal) := by
  rw [Ideal.log_coe, if_neg (not_le.2 h)]

variable {ι : Type*}

theorem coe_sum (S : Finset ι) (f : ι → ℝ) : ∑ i ∈ S, (f i : EReal) = ((∑ i ∈ S, f i : ℝ) : EReal) :=
  (map_sum (⟨⟨Real.toEReal, EReal.coe_zero⟩, EReal.coe_add⟩ : ℝ →+ EReal) f S).symm

theorem sum_exp_sub_coe (S : Finset ι) (w : ι → ℝ) (s : ℝ) :
    ∑ c ∈ S, Ideal.exp ((w c : EReal) - (s : EReal))
      = ((∑ c ∈ S, Real.exp (w c - s) : ℝ) : EReal) :=
  coe_sum S fun c => Real.exp (w c - s)

variable [Fintype ι] [Nonempty ι]

/-- log-softmax relative to a shift s, every term a real, is log-softmax with no shift -/
theorem shift_law_E (w : ι → ℝ) (v s : ℝ) :
    ((v - s : ℝ) : EReal) - Ideal.log ((∑ c, Real.exp (w c - s) : ℝ) : EReal)
      = (v : EReal) - Ideal.log (∑ c, Ideal.exp (w c : EReal)) := by
  rw [show ∑ c, Ideal.exp (w c : EReal) = _ from coe_sum _ fun c => Real.exp (w c),
    log_coe_pos (LossAlgebra.sum_exp_pos _), log_coe_pos (LossAlgebra.sum_exp_pos w),
    ← EReal.coe_sub, ← EReal.coe_sub, LossAlgebra.shift_law]

theorem sup_univ_coe (w : ι → ℝ) :
    (Finset.univ.sup fun c => (w c : EReal))
      = ((Finset.univ.sup' Finset.univ_nonempty w : ℝ) : EReal) := by
  rw [← Finset.sup'_eq_sup Finset.univ_nonempty]
  exact (Finset.comp_sup'_eq_sup'_comp Finset.univ_nonempty (fun r : ℝ => (r : EReal))
    (fun x y => EReal.coe_strictMono.monotone.map_sup x y)).symm

end Cert.LossLift

end
-- ==== Proof.KernelReads.lean ====
import proofs.«415580_j72155450573201_1_alg».proof.Proof.TailStrip
import proofs.«415580_j72155450573201_1_alg».proof.Proof.TailCos
import proofs.«415580_j72155450573201_1_alg».proof.Proof.TailPointwise
import proofs.«415580_j72155450573201_1_alg».proof.Proof.TailPointwise2
import proofs.«415580_j72155450573201_1_alg».proof.Proof.TailLoss
import proofs.«415580_j72155450573201_1_alg».proof.Proof.KernelHead
import proofs.«415580_j72155450573201_1_alg».proof.Proof.ResultArrays
import proofs.«415580_j72155450573201_1_alg».proof.Proof.LossLift

set_option maxRecDepth 16384
set_option maxHeartbeats 4000000

noncomputable section

namespace Cert.KernelIdeal.KernelReads

open Idealize.ShloMosaic Idealize.ShloMosaic.TcCoe Idealize.ShloMosaic.StableHlo Idealize.ShloMosaic.ValueIdx
open Cert.KernelIdeal Cert.KernelIdeal.Gen Cert.KernelIdeal.Kit Cert.KernelIdeal.Keeps Cert.KernelIdeal.TailCut Cert.KernelIdeal.TailStrip
open Cert.KernelIdeal.TailPointwise

variable (m : (ℓ : Loc nD τ sig) → Buf (Elt Ideal) ℓ) (c : Dev nD)

/-- the valuations before and between the stretches of the operations after the region -/
noncomputable abbrev W0 : Valuation τ sig (Elt Ideal) := Pipeline.withArrays spec0 c (Kit.V0 m c) (fun w => (Data.dats m 0 c).arrAt w cfg0.N)
noncomputable abbrev N1 : Valuation τ sig (Elt Ideal) := after (opsMerge (F := Ideal)) (W0 m c)
noncomputable abbrev N2 : Valuation τ sig (Elt Ideal) := after (opsCosA (F := Ideal)) (N1 m c)
noncomputable abbrev N3 : Valuation τ sig (Elt Ideal) := after (opsCosB (F := Ideal)) (N2 m c)
noncomputable abbrev N4 : Valuation τ sig (Elt Ideal) := after (opsCosG (F := Ideal)) (N3 m c)
noncomputable abbrev N5 : Valuation τ sig (Elt Ideal) := after (opsCosD (F := Ideal)) (N4 m c)
noncomputable abbrev N6 : Valuation τ sig (Elt Ideal) := after (opsValues (F := Ideal)) (N5 m c)
noncomputable abbrev N7 : Valuation τ sig (Elt Ideal) := after (opsFlags (F := Ideal)) (N6 m c)
noncomputable abbrev N8 : Valuation τ sig (Elt Ideal) := after (opsCorrect (F := Ideal)) (N7 m c)
noncomputable abbrev M5 : Valuation τ sig (Elt Ideal) :=
  after hostOps1_5 (after hostOps1_4 (after hostOps1_3 (after hostOps1_2 (after hostOps1_1 (after (opsLog (F := Ideal)) (N8 m c))))))
noncomputable abbrev M9 : Valuation τ sig (Elt Ideal) := after hostOps1_9 (after hostOps1_8 (after hostOps1_7 (after hostOps1_6 (M5 m c))))
noncomputable abbrev M11 : Valuation τ sig (Elt Ideal) := after hostOps1_11 (after hostOps1_10 (M9 m c))

abbrev X : LossSpec.Inp := m ((c.tc : Thread nD τ).loc main_arg0)
abbrev Wt : LossSpec.Wts := m ((c.tc : Thread nD τ).loc main_arg1)
abbrev lamv : EReal := (m ((c.tc : Thread nD τ).loc main_arg2) : S_.Idx → EReal) ix0
abbrev ta : S512.Idx → BitVec 32 := m ((c.tc : Thread nD τ).loc main_arg3)
abbrev tb : S512.Idx → BitVec 32 := m ((c.tc : Thread nD τ).loc main_arg4)
abbrev tg : S512.Idx → BitVec 32 := m ((c.tc : Thread nD τ).loc main_arg5)
abbrev td : S512.Idx → BitVec 32 := m ((c.tc : Thread nD τ).loc main_arg6)

/-- the halves' maxima and sums of exponentials -/
abbrev A2 : S2x512x1.Idx → EReal := (Data.dats m 0 c).arrAt 2 cfg0.N
abbrev A3 : S2x512x1.Idx → EReal := (Data.dats m 0 c).arrAt 3 cfg0.N

/-- the joint maximum of example n, and the sum of exponentials relative to it -/
abbrev Mx (n : Fin 512) : EReal := max (A2 m c (ix3 0 n 0)) (A2 m c (ix3 1 n 0))
abbrev Lm (n : Fin 512) : EReal :=
  A3 m c (ix3 0 n 0) * Ideal.exp (A2 m c (ix3 0 n 0) - Mx m c n) + A3 m c (ix3 1 n 0) * Ideal.exp (A2 m c (ix3 1 n 0) - Mx m c n)

abbrev colOf (t : S512.Idx → BitVec 32) (h : ∀ n : Fin 512, (t (ix1 n)).toNat < 100000) (n : Fin 512) : Fin 100000 :=
  ⟨(t (ix1 n)).toNat, h n⟩

/-- columns built from words are equal exactly when the words are -/
theorem col_eq_iff (a b : BitVec 32) (ha : a.toNat < 100000) (hb : b.toNat < 100000) :
    ((⟨a.toNat, ha⟩ : Fin 100000) = ⟨b.toNat, hb⟩) ↔ a = b :=
  Fin.mk.inj_iff.trans BitVec.toNat_inj

theorem col_ne_iff (a b : BitVec 32) (ha : a.toNat < 100000) (hb : b.toNat < 100000) :
    ((⟨a.toNat, ha⟩ : Fin 100000) ≠ ⟨b.toNat, hb⟩) ↔ a ≠ b :=
  not_congr (col_eq_iff a b ha hb)

/-- an argument no earlier operation defines reads as given -/
theorem W0_arg (r : Ref sig .tc) (h : ∀ w, Pipeline.arrRef spec0 w ≠ r)
    (hk : ∀ op ∈ (hostOps0 : List (HloOp τ sig (Elt Ideal))), Proc.devRef (τ := τ) .tc r ∉ op.writes) :
    W0 m c (Proc.devRef .tc r) = m ((c.tc : Thread nD τ).loc r) := by
  rw [W0, ResultArrays.start_other m c r h]
  exact StableHlo.after_of_forall_not_mem hostOps0 _ hk

theorem W0_arg1 : W0 m c (Proc.devRef .tc main_arg1) = Wt m c := ResultArrays.start_weights m c
theorem W0_arg2 : W0 m c (Proc.devRef .tc main_arg2) = m ((c.tc : Thread nD τ).loc main_arg2) := W0_arg m c _ (by decide) (Keeps.kept.1 _ (by decide))
theorem W0_arg3 : W0 m c (Proc.devRef .tc main_arg3) = ta m c := W0_arg m c _ (by decide) (Keeps.kept.1 _ (by decide))
theorem W0_arg4 : W0 m c (Proc.devRef .tc main_arg4) = tb m c := W0_arg m c _ (by decide) (Keeps.kept.1 _ (by decide))
theorem W0_arg5 : W0 m c (Proc.devRef .tc main_arg5) = tg m c := W0_arg m c _ (by decide) (Keeps.kept.1 _ (by decide))
theorem W0_arg6 : W0 m c (Proc.devRef .tc main_arg6) = td m c := W0_arg m c _ (by decide) (Keeps.kept.1 _ (by decide))
theorem W0_max : W0 m c (Proc.devRef .tc main_v10_0) = A2 m c := ResultArrays.start_maxArray m c
theorem W0_sum : W0 m c (Proc.devRef .tc main_v10_1) = A3 m c := ResultArrays.start_sumArray m c

theorem W0_v8 (n : Fin 512) (k : Fin 256) :
    (W0 m c (Proc.devRef .tc main_v8) : S512x256.Idx → EReal) (ix2 n k) = LossSpec.xhat (X m c) n k := by
  rw [W0, ResultArrays.start_other m c main_v8 (by decide)]
  exact KernelHead.v8_at (fun b => m (c, b)) n k

/-- step past every stretch that does not define the buffer read -/
local macro "peel" l:(Lean.Parser.Tactic.location)? : tactic => `(tactic| simp (disch := decide) only [strip_hostOps1_12, strip_hostOps1_11, strip_hostOps1_10, strip_hostOps1_9, strip_hostOps1_8, strip_hostOps1_7, strip_hostOps1_6, strip_hostOps1_5, strip_hostOps1_4, strip_hostOps1_3, strip_hostOps1_2, strip_hostOps1_1, strip_opsLog, strip_opsCorrect, strip_opsFlags, strip_opsValues, strip_opsCosD, strip_opsCosG, strip_opsCosB, strip_opsCosA, strip_opsMerge] $(l)?)

theorem r_merge (n : Fin 512) :
    row (after opsMerge (W0 m c) (Proc.devRef .tc main_v19)) n = Mx m c n ∧ row (after opsMerge (W0 m c) (Proc.devRef .tc main_v26)) n = Lm m c n := by
  simpa only [W0_max m c, W0_sum m c] using merge_rows (W0 m c) n

/-- the value left in a label's column is that of the last label naming the column -/
abbrev fb (ha : ∀ n : Fin 512, ((ta m c) (ix1 n)).toNat < 100000) (hb : ∀ n : Fin 512, ((tb m c) (ix1 n)).toNat < 100000) (hg : ∀ n : Fin 512, ((tg m c) (ix1 n)).toNat < 100000) (hd : ∀ n : Fin 512, ((td m c) (ix1 n)).toNat < 100000) (n : Fin 512) : EReal :=
  if colOf (td m c) hd n = colOf (tb m c) hb n then LossSpec.valO (X m c) (Wt m c) n (colOf (td m c) hd n) else if colOf (tg m c) hg n = colOf (tb m c) hb n then LossSpec.valO (X m c) (Wt m c) n (colOf (tg m c) hg n)
  else LossSpec.valO (X m c) (Wt m c) n (colOf (tb m c) hb n)
abbrev fg (ha : ∀ n : Fin 512, ((ta m c) (ix1 n)).toNat < 100000) (hb : ∀ n : Fin 512, ((tb m c) (ix1 n)).toNat < 100000) (hg : ∀ n : Fin 512, ((tg m c) (ix1 n)).toNat < 100000) (hd : ∀ n : Fin 512, ((td m c) (ix1 n)).toNat < 100000) (n : Fin 512) : EReal :=
  if colOf (td m c) hd n = colOf (tg m c) hg n then LossSpec.valO (X m c) (Wt m c) n (colOf (td m c) hd n) else LossSpec.valO (X m c) (Wt m c) n (colOf (tg m c) hg n)
abbrev fd (ha : ∀ n : Fin 512, ((ta m c) (ix1 n)).toNat < 100000) (hb : ∀ n : Fin 512, ((tb m c) (ix1 n)).toNat < 100000) (hg : ∀ n : Fin 512, ((tg m c) (ix1 n)).toNat < 100000) (hd : ∀ n : Fin 512, ((td m c) (ix1 n)).toNat < 100000) (n : Fin 512) : EReal := LossSpec.valO (X m c) (Wt m c) n (colOf (td m c) hd n)

variable (ha : ∀ n : Fin 512, ((ta m c) (ix1 n)).toNat < 100000) (hb : ∀ n : Fin 512, ((tb m c) (ix1 n)).toNat < 100000)
  (hg : ∀ n : Fin 512, ((tg m c) (ix1 n)).toNat < 100000) (hd : ∀ n : Fin 512, ((td m c) (ix1 n)).toNat < 100000)
include ha hb hg hd

/-- each label's cosine is the specification's, at the column the label names -/
theorem r_cos (n : Fin 512) :
    row (after opsCosA (N1 m c) (Proc.devRef .tc main_v44)) n = LossSpec.cosv (X m c) (Wt m c) n (colOf (ta m c) ha n) ∧
    row (after opsCosB (N2 m c) (Proc.devRef .tc main_v62)) n = LossSpec.cosv (X m c) (Wt m c) n (colOf (tb m c) hb n) ∧
    row (after opsCosG (N3 m c) (Proc.devRef .tc main_v80)) n = LossSpec.cosv (X m c) (Wt m c) n (colOf (tg m c) hg n) ∧
    row (after opsCosD (N4 m c) (Proc.devRef .tc main_v98)) n = LossSpec.cosv (X m c) (Wt m c) n (colOf (td m c) hd n) := by
  refine ⟨((congrFun (TailCos.v44_term (N1 m c)) (ix2 n 0)).trans (TailCos.cosTerm_apply _ _ _ n (by peel; rw [W0_arg3 m c]; exact ha n))).trans ?_,
    ((congrFun (TailCos.v62_term (N2 m c)) (ix2 n 0)).trans (TailCos.cosTerm_apply _ _ _ n (by peel; rw [W0_arg4 m c]; exact hb n))).trans ?_,
    ((congrFun (TailCos.v80_term (N3 m c)) (ix2 n 0)).trans (TailCos.cosTerm_apply _ _ _ n (by peel; rw [W0_arg5 m c]; exact hg n))).trans ?_,
    ((congrFun (TailCos.v98_term (N4 m c)) (ix2 n 0)).trans (TailCos.cosTerm_apply _ _ _ n (by peel; rw [W0_arg6 m c]; exact hd n))).trans ?_⟩ <;>
  (peel; simp only [zero_add, LossSpec.cosv, W0_v8 m c, W0_arg1 m c, W0_arg3 m c, W0_arg4 m c, W0_arg5 m c, W0_arg6 m c])

theorem r_values (n : Fin 512) :
    row (after opsValues (N5 m c) (Proc.devRef .tc main_v102)) n = LossSpec.valA (X m c) (Wt m c) n (colOf (ta m c) ha n) ∧
    row (after opsValues (N5 m c) (Proc.devRef .tc main_v104)) n = LossSpec.base (X m c) (Wt m c) n (colOf (ta m c) ha n) ∧
    row (after opsValues (N5 m c) (Proc.devRef .tc main_v106)) n = LossSpec.valO (X m c) (Wt m c) n (colOf (tb m c) hb n) ∧
    row (after opsValues (N5 m c) (Proc.devRef .tc main_v108)) n = LossSpec.base (X m c) (Wt m c) n (colOf (tb m c) hb n) ∧
    row (after opsValues (N5 m c) (Proc.devRef .tc main_v110)) n = LossSpec.valO (X m c) (Wt m c) n (colOf (tg m c) hg n) ∧
    row (after opsValues (N5 m c) (Proc.devRef .tc main_v112)) n = LossSpec.base (X m c) (Wt m c) n (colOf (tg m c) hg n) ∧
    row (after opsValues (N5 m c) (Proc.devRef .tc main_v114)) n = LossSpec.valO (X m c) (Wt m c) n (colOf (td m c) hd n) ∧
    row (after opsValues (N5 m c) (Proc.devRef .tc main_v116)) n = LossSpec.base (X m c) (Wt m c) n (colOf (td m c) hd n) := by
  have h := values_rows (N5 m c) n
  peel at h
  obtain ⟨c1, c2, c3, c4⟩ := r_cos m c ha hb hg hd n
  rw [c1, c2, c3, c4] at h
  exact h

/-- equal words name equal columns, so the flags compare columns -/
theorem r_flags (n : Fin 512) :
    word (after opsFlags (N6 m c) (Proc.devRef .tc main_v117)) n = ta m c (ix1 n) ∧
    word (after opsFlags (N6 m c) (Proc.devRef .tc main_v118)) n = tb m c (ix1 n) ∧
    word (after opsFlags (N6 m c) (Proc.devRef .tc main_v119)) n = tg m c (ix1 n) ∧
    word (after opsFlags (N6 m c) (Proc.devRef .tc main_v120)) n = td m c (ix1 n) ∧
    num (word (after opsFlags (N6 m c) (Proc.devRef .tc main_v125)) n)
      = (if colOf (tb m c) hb n ≠ colOf (ta m c) ha n ∧ colOf (tg m c) hg n ≠ colOf (ta m c) ha n ∧ colOf (td m c) hd n ≠ colOf (ta m c) ha n then (1 : EReal) else 0) ∧
    num (word (after opsFlags (N6 m c) (Proc.devRef .tc main_v128)) n)
      = (if colOf (tg m c) hg n ≠ colOf (tb m c) hb n ∧ colOf (td m c) hd n ≠ colOf (tb m c) hb n then (1 : EReal) else 0) ∧
    num (word (after opsFlags (N6 m c) (Proc.devRef .tc main_v129)) n) = (if colOf (td m c) hd n ≠ colOf (tg m c) hg n then (1 : EReal) else 0) ∧
    num (word (after opsFlags (N6 m c) (Proc.devRef .tc main_v130)) n) = 1 := by
  have h := flags_rows (N6 m c) n
  peel at h
  rw [W0_arg3 m c, W0_arg4 m c, W0_arg5 m c, W0_arg6 m c] at h
  simp only [col_ne_iff]
  exact h

/-- the sum of exponentials of the overwritten row: each surviving label's column exchanges its term -/
abbrev Lc (n : Fin 512) : EReal :=
  Lm m c n + (((((if colOf (tb m c) hb n ≠ colOf (ta m c) ha n ∧ colOf (tg m c) hg n ≠ colOf (ta m c) ha n ∧ colOf (td m c) hd n ≠ colOf (ta m c) ha n then (1 : EReal) else 0) * (Ideal.exp (LossSpec.valA (X m c) (Wt m c) n (colOf (ta m c) ha n) - Mx m c n) - Ideal.exp (LossSpec.base (X m c) (Wt m c) n (colOf (ta m c) ha n) - Mx m c n))
      + (if colOf (tg m c) hg n ≠ colOf (tb m c) hb n ∧ colOf (td m c) hd n ≠ colOf (tb m c) hb n then (1 : EReal) else 0) * (Ideal.exp (LossSpec.valO (X m c) (Wt m c) n (colOf (tb m c) hb n) - Mx m c n) - Ideal.exp (LossSpec.base (X m c) (Wt m c) n (colOf (tb m c) hb n) - Mx m c n)))
      + (if colOf (td m c) hd n ≠ colOf (tg m c) hg n then (1 : EReal) else 0) * (Ideal.exp (LossSpec.valO (X m c) (Wt m c) n (colOf (tg m c) hg n) - Mx m c n) - Ideal.exp (LossSpec.base (X m c) (Wt m c) n (colOf (tg m c) hg n) - Mx m c n)))
      + (1 : EReal) * (Ideal.exp (LossSpec.valO (X m c) (Wt m c) n (colOf (td m c) hd n) - Mx m c n) - Ideal.exp (LossSpec.base (X m c) (Wt m c) n (colOf (td m c) hd n) - Mx m c n))))

theorem r_v162 (n : Fin 512) : row (after opsCorrect (N7 m c) (Proc.devRef .tc main_v162)) n = Lc m c ha hb hg hd n := by
  obtain ⟨h102, h104, h106, h108, h110, h112, h114, h116⟩ := r_values m c ha hb hg hd n
  obtain ⟨-, -, -, -, f1, f2, f3, f4⟩ := r_flags m c ha hb hg hd n
  refine (correct_row (N7 m c) n).trans ?_
  peel
  rw [(r_merge m c n).1, (r_merge m c n).2, h102, h104, h106, h108, h110, h112, h114, h116, f1, f2, f3, f4]

theorem r_v163 (n : Fin 512) : row (after opsLog (N8 m c) (Proc.devRef .tc main_v163)) n = Ideal.log (Lc m c ha hb hg hd n) :=
  (log_row (N8 m c) n).trans (congrArg Ideal.log (r_v162 m c ha hb hg hd n))

abbrev fa (n : Fin 512) : EReal :=
  if colOf (td m c) hd n = colOf (ta m c) ha n then LossSpec.valO (X m c) (Wt m c) n (colOf (td m c) hd n) else if colOf (tg m c) hg n = colOf (ta m c) ha n then LossSpec.valO (X m c) (Wt m c) n (colOf (tg m c) hg n)
  else if colOf (tb m c) hb n = colOf (ta m c) ha n then LossSpec.valO (X m c) (Wt m c) n (colOf (tb m c) hb n) else LossSpec.valA (X m c) (Wt m c) n (colOf (ta m c) ha n)

theorem r_left (n : Fin 512) :
    row ((M5 m c) (Proc.devRef .tc main_v169)) n = fa m c ha hb hg hd n ∧ row ((M9 m c) (Proc.devRef .tc main_v173)) n = fb m c ha hb hg hd n ∧
    row ((M11 m c) (Proc.devRef .tc main_v175)) n = fg m c ha hb hg hd n := by
  obtain ⟨h102, -, h106, -, h110, -, h114, -⟩ := r_values m c ha hb hg hd n
  obtain ⟨w1, w2, w3, w4, -⟩ := r_flags m c ha hb hg hd n
  refine ⟨(chainA_row (N8 m c) n).trans ?_, (chainB_row (M5 m c) n).trans ?_, (chainG_row (M9 m c) n).trans ?_⟩ <;>
  (peel; simp only [w1, w2, w3, w4, h102, h106, h110, h114, fa, fb, fg, col_eq_iff])

/-- the program's loss: the mix of the four cross-entropies of (value left − maximum) − log (corrected sum) -/
theorem result_reads :
    ((Pipeline.afterTail₀ cfgs (Data.dats m) 0 (Kit.V0 m) (Kit.tailOps (F := Ideal)) c main_v205 : S_.Idx → EReal) ix0)
      = LossSpec.lossOf (lamv m c)
          (fun n => (fa m c ha hb hg hd n - Mx m c n) - Ideal.log (Lc m c ha hb hg hd n))
          (fun n => (fb m c ha hb hg hd n - Mx m c n) - Ideal.log (Lc m c ha hb hg hd n))
          (fun n => (fg m c ha hb hg hd n - Mx m c n) - Ideal.log (Lc m c ha hb hg hd n))
          (fun n => (fd m c ha hb hg hd n - Mx m c n) - Ideal.log (Lc m c ha hb hg hd n)) := by
  unfold Pipeline.afterTail₀
  show (after (Keeps.afterOps (F := Ideal)) (W0 m c) (Proc.devRef .tc main_v205) : S_.Idx → EReal) ix0 = _
  rw [TailCut.after_afterOps, TailCut.after_hostOps1]
  refine (TailLoss.loss_row (M11 m c)).trans ?_
  peel
  simp only [fun n => (r_left m c ha hb hg hd n).1, fun n => (r_left m c ha hb hg hd n).2.1, fun n => (r_left m c ha hb hg hd n).2.2, r_v163 m c ha hb hg hd,
    fun n => (r_values m c ha hb hg hd n).2.2.2.2.2.2.1, fun n => (r_merge m c n).1, W0_arg2 m c]

end Cert.KernelIdeal.KernelReads
end
-- ==== Proof.Scratch.lean ====
import proofs.«415580_j72155450573201_1_alg».proof.Proof.Gen.KernelIdeal.Skeleton

noncomputable section

namespace Cert.KernelIdeal.Scratch

open Idealize.ShloMosaic Cert.KernelIdeal Cert.KernelIdeal.Gen

variable {F : FTy → Type} [FloatOps F]

abbrev Pair (F : FTy → Type) := FVec F S512x1 .f32 × FVec F S512x1 .f32

def reset : Pair F := (k0_pay4 (F := F), k0_pay5 (F := F))

def update (w : Vec F S2000x256 .f32) (x : Vec F S512x256 .bf16) (s : Pair F) : Pair F :=
  (k0_pay1 (k0_pay7 w x s.1), k0_pay8 w x s.1 s.2 s.1)

def start (t : ℕ) (prev : Pair F) : Pair F := if t % 25 = 0 then reset else prev

theorem start_of_first (t : ℕ) (h : t % 25 = 0) (prev : Pair F) : start t prev = reset := if_pos h

theorem start_of_later (t : ℕ) (h : t % 25 ≠ 0) (prev : Pair F) : start t prev = prev := if_neg h

end Cert.KernelIdeal.Scratch

end
-- ==== Proof.PiecesArePayloads.lean ====
import proofs.«415580_j72155450573201_1_alg».proof.Proof.Dats
import proofs.«415580_j72155450573201_1_alg».proof.Proof.Scratch
import Idealize.ShloMosaic.Lib.Pipeline.FrameBody
import Idealize.ShloMosaic.Lib.Pipeline.Value
import Idealize.ShloMosaic.Lib.Tactic
import Idealize.ShloMosaic.Lib.Ring

set_option maxRecDepth 16384

noncomputable section

namespace Cert.KernelIdeal.Pieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (c : Dev nD)

abbrev xblk (t : Fin cfg0.N) : Vec F S512x256 .bf16 := Data.iblk m c 0 t
abbrev wblk (t : Fin cfg0.N) : Vec F S2000x256 .f32 := Data.iblk m c 1 t

-- one point's update of the carried pair, from the blocks the point reads
abbrev step (t : Fin cfg0.N) : Scratch.Pair F → Scratch.Pair F := Scratch.update (wblk m c t) (xblk m c t)

theorem hz2 : (![0, 0] : Fin 2 → Nat) = fun _ => 0 := by funext i; fin_cases i <;> rfl
theorem hz3 : (![0, 0, 0] : Fin 3 → Nat) = fun _ => 0 := by funext i; fin_cases i <;> rfl

theorem read_unread_scMax (h : Cases.scMax.IsWhole) (X : Vec F S512x1 .f32) :
    View.read (Elt F) (View.whole cc0_scratch0) (h.unread X) = X := h.read_unread X
theorem read_unread_scSum (h : Cases.scSum.IsWhole) (X : Vec F S512x1 .f32) :
    View.read (Elt F) (View.whole cc0_scratch1) (h.unread X) = X := h.read_unread X

-- an overwrite of the whole extent, read back, is the value written
theorem early_pair (t : Fin cfg0.N) :
    (∀ h0, (Data.afterFirst m c t h0).2 = step m c t Scratch.reset)
    ∧ ∀ h0 h1 prev, (Data.afterMiddle m c t h0 h1 prev).2 = step m c t prev := by
  refine ⟨fun h0 => Prod.ext ?_ ?_, fun h0 h1 prev => Prod.ext ?_ ?_⟩ <;>
  · first | unfold Data.afterFirst | unfold Data.afterMiddle
    dsimp only
    rw [View.read_writes_eq_canon]
    on_goal 2 =>
      first
        | exact View.cover_of_tiledL _ S512x1.size (by sl_kernel_rfl)
        | exact View.cover_of_tiledL _ S1x512x1.size (by sl_kernel_rfl)
    first | unfold Data.firstRun Cases.runFirst | unfold Data.middleRun Cases.runMiddle
    dsimp only
    sl_unfold_words
    first | rw [View.canon_cons_unit_zero (S := S512x1) hz2] | rw [View.canon_unit_zero (S := S512x1) hz2]
    simp only [View.readAt_eq_ld, Memref.IsWhole.read_unread, read_unread_scMax, read_unread_scSum,
      View.readCov_unit_zero (S := S512x1) _ hz2, View.ld_unit_zero (S := S2000x256) hz2,
      View.ld_unit_zero (S := S512x256) hz2, View.ld_unit_zero (S := S512x1) hz2]
    rfl

theorem last_all (t : Fin cfg0.N) (h1 : t.val % 25 = 24) (prev : Scratch.Pair F) :
    (Data.afterLast m c t h1 prev).2 = step m c t prev
    ∧ (Data.afterLast m c t h1 prev).1 = (k0_pay2 (step m c t prev).1, k0_pay3 (step m c t prev).2) := by
  refine ⟨Prod.ext ?_ ?_, Prod.ext ?_ ?_⟩ <;>
  · unfold Data.afterLast
    dsimp only
    rw [View.read_writes_eq_canon]
    on_goal 2 =>
      first
        | exact View.cover_of_tiledL _ S512x1.size (by sl_kernel_rfl)
        | exact View.cover_of_tiledL _ S1x512x1.size (by sl_kernel_rfl)
    unfold Data.lastRun Cases.runLast
    dsimp only
    sl_unfold_words
    first | rw [View.canon_unit_zero (S := S512x1) hz2] | rw [View.canon_unit_zero (S := S1x512x1) hz3]
    simp only [View.readAt_eq_ld, Memref.IsWhole.read_unread, read_unread_scMax, read_unread_scSum,
      View.readCov_unit_zero (S := S512x1) _ hz2, View.ld_unit_zero (S := S2000x256) hz2,
      View.ld_unit_zero (S := S512x256) hz2, View.ld_unit_zero (S := S512x1) hz2]
    rfl

-- point t of the grid, a natural number read modulo the grid's size
def point (t : ℕ) : Fin cfg0.N := ⟨t % cfg0.N, Nat.mod_lt _ (Nat.lt_of_lt_of_eq (by decide : 0 < 50) N_0.symm)⟩

theorem point_of_lt (t : ℕ) (h : t < cfg0.N) : point t = ⟨t, h⟩ := Fin.ext (Nat.mod_eq_of_lt h)

-- the pair after the first n points: reset, then each point's update of what it starts from
def pairAfter : ℕ → Scratch.Pair F
  | 0 => Scratch.reset
  | t + 1 => step m c (point t) (Scratch.start t (pairAfter t))

theorem outsAt_step (t : Fin cfg0.N) :
    (Data.outsAt m c t.val t.isLt).2 = step m c t
      (Scratch.start t.val (Data.outsAt m c (t.val - 1) (Nat.lt_of_le_of_lt (Nat.sub_le _ _) t.isLt)).2) := by
  by_cases h0 : t.val % 25 = 0
  · rw [Data.outsAt_first m c t h0, Scratch.start_of_first _ h0]
    exact (early_pair m c t).1 h0
  · rw [Scratch.start_of_later _ h0]
    by_cases h1 : t.val % 25 = 24
    · rw [Data.outsAt_last m c t h1]
      exact (last_all m c t h1 _).1
    · rw [Data.outsAt_middle m c t h0 h1]
      exact (early_pair m c t).2 h0 h1 _

theorem pairAfter_succ (t : ℕ) (h : t < cfg0.N) :
    pairAfter m c (t + 1) = step m c ⟨t, h⟩ (Scratch.start t (pairAfter m c t)) :=
  congrArg (fun q => step m c q _) (point_of_lt t h)

theorem outsAt_pair : ∀ (n : ℕ) (hn : n < cfg0.N), (Data.outsAt m c n hn).2 = pairAfter m c (n + 1)
  | 0, hn => (outsAt_step m c ⟨0, hn⟩).trans ((congrArg (step m c ⟨0, hn⟩)
      ((Scratch.start_of_first 0 rfl _).trans (Scratch.start_of_first 0 rfl _).symm)).trans (pairAfter_succ m c 0 hn).symm)
  | n + 1, hn => (outsAt_step m c ⟨n + 1, hn⟩).trans ((congrArg (fun q => step m c ⟨n + 1, hn⟩ (Scratch.start (n + 1) q))
      (outsAt_pair n (Nat.lt_of_succ_lt hn))).trans (pairAfter_succ m c (n + 1) hn).symm)

-- the two result blocks are the reshaped copies of the updated pair
theorem outsAt_outs (t : Fin cfg0.N) (h1 : t.val % 25 = 24) :
    (Data.outsAt m c t.val t.isLt).1
      = (k0_pay2 (pairAfter m c (t.val + 1)).1, k0_pay3 (pairAfter m c (t.val + 1)).2) := by
  rw [← outsAt_pair m c t.val t.isLt, Data.outsAt_last m c t h1, (last_all m c t h1 _).1]
  exact (last_all m c t h1 _).2

end Cert.KernelIdeal.Pieces

end
-- ==== Proof.Payloads.lean ====
import proofs.«415580_j72155450573201_1_alg».proof.Proof.Gen.KernelIdeal.Skeleton
import proofs.«415580_j72155450573201_1_alg».proof.Proof.LossSpec
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Payloads

open Idealize.ShloMosaic Idealize.ShloMosaic.ValueIdx
open Cert.KernelIdeal Cert.KernelIdeal.Gen
open scoped BigOperators

theorem ofBits_neg_inf : Ideal.ofBits .f32 0xFF800000#32 = ⊥ := by simp [Ideal.ofBits, Ideal.ieee]

theorem sqrt_at {s : Shape} (a : s.Idx → EReal) (j : s.Idx) :
    (sqrt (F := Ideal) (φ := .f32) a : s.Idx → EReal) j = Ideal.sqrt (a j) := rfl
theorem exp_at {s : Shape} (a : s.Idx → EReal) (j : s.Idx) :
    (exp (F := Ideal) (φ := .f32) a : s.Idx → EReal) j = Ideal.exp (a j) := rfl

theorem cast_self_at {s : Shape} {α : Type} (v : s.Idx → α) (h : s.ShapeCasts s) (j : s.Idx) :
    shapeCast s v h j = v j := by rw [shapeCast_self]

section Generic

variable {a b : ℕ} {α : Type}

-- a column viewed with a leading unit axis keeps its row-major position
theorem cast_col3_at (v : (⟨2, ![a, 1]⟩ : Shape).Idx → α) (h : (⟨2, ![a, 1]⟩ : Shape).ShapeCasts ⟨3, ![1, a, 1]⟩) (n : Fin a) :
    shapeCast ⟨3, ![1, a, 1]⟩ v h (ix3 0 n 0) = v (ix2 n 0) := by
  refine shapeCast_apply _ _ (ix3 0 n 0) (ix2 n 0) ?_
  rw [Shape.rowMajor_val_three, Shape.rowMajor_val_two]
  show n.val * 1 + 0 = (0 * a + n.val) * 1 + 0
  omega

-- a vector viewed as a column keeps its row-major position
theorem cast_col_at (v : (⟨1, ![a]⟩ : Shape).Idx → α) (h : (⟨1, ![a]⟩ : Shape).ShapeCasts ⟨2, ![a, 1]⟩) (n : Fin a) :
    shapeCast ⟨2, ![a, 1]⟩ v h (ix2 n 0) = v (ix1 n) := by
  refine shapeCast_apply _ _ (ix2 n 0) (ix1 n) ?_
  rw [Shape.rowMajor_val_one, Shape.rowMajor_val_two]
  show n.val = n.val * 1 + 0
  omega

-- a column broadcast along its unit axis reads its row at every column
theorem bcast_col_at (v : (⟨2, ![a, 1]⟩ : Shape).Idx → α) (h : (⟨2, ![a, 1]⟩ : Shape).Broadcasts ⟨2, ![a, b]⟩)
    (n : Fin a) (j : Fin b) : broadcastTo ⟨2, ![a, b]⟩ v h (ix2 n j) = v (ix2 n 0) :=
  broadcastTo_apply _ _ _ _ fun
    | ⟨0, _⟩ => by
      show n.val = if a = 1 then 0 else n.val
      split <;> omega
    | ⟨1, _⟩ => rfl

-- the index over row n whose coordinate on the reduced axis is j is (n, j)
theorem lift_at (r : (⟨2, ![a, b]⟩ : Shape).Reduces [1] ⟨1, ![a]⟩) (n : Fin a) (j : Fin b) :
    r.lift (ix1 n) j = ix2 n j :=
  funext fun c => Fin.ext (match c with | ⟨0, _⟩ => rfl | ⟨1, _⟩ => rfl)

theorem rowSum_at (c : (⟨2, ![a, b]⟩ : Shape).Idx → EReal) (r : (⟨2, ![a, b]⟩ : Shape).Reduces [1] ⟨1, ![a]⟩) (n : Fin a) :
    (multiReduction (F := Ideal) (φ := .f32) .add [1] ⟨1, ![a]⟩ c 0x00000000#32 r (.inl rfl) rfl : (⟨1, ![a]⟩ : Shape).Idx → EReal) (ix1 n)
      = ∑ j : Fin b, c (ix2 n j) :=
  (Ideal.multiReduction_add_single (φ := .f32) c 0x00000000#32 r (.inl rfl) rfl (ix1 n)).trans
    (Finset.sum_congr rfl fun j _ => congrArg c (lift_at r n j))

end Generic

theorem pay4_at (n : Fin 512) : k0_pay4 (F := Ideal) (ix2 n 0) = ⊥ := by
  unfold k0_pay4
  rw [cast_self_at]
  exact ofBits_neg_inf

theorem pay5_at (n : Fin 512) : k0_pay5 (F := Ideal) (ix2 n 0) = 0 := by
  unfold k0_pay5
  rw [cast_self_at]
  exact Ideal.ofBits_zero_f32

theorem pay1_at (v : S512x1.Idx → EReal) (n : Fin 512) : k0_pay1 (F := Ideal) v (ix2 n 0) = v (ix2 n 0) := by
  unfold k0_pay1
  rw [cast_self_at]

theorem pay2_at (v : S512x1.Idx → EReal) (n : Fin 512) : k0_pay2 (F := Ideal) v (ix3 0 n 0) = v (ix2 n 0) :=
  cast_col3_at v _ n

theorem pay3_at (v : S512x1.Idx → EReal) (n : Fin 512) : k0_pay3 (F := Ideal) v (ix3 0 n 0) = v (ix2 n 0) :=
  cast_col3_at v _ n

theorem fold_max_eq_sup {ι : Type} (s : Finset ι) (b : EReal) (f : ι → EReal) :
    s.fold max b f = max b (s.sup f) :=
  eq_of_forall_ge_iff fun c => by rw [Finset.fold_max_le, max_le_iff, Finset.sup_le_iff]

theorem rowMax_at (c : S512x2000.Idx → EReal) (n : Fin 512) :
    (multiReduction (F := Ideal) (φ := .f32) .maximumf [1] S512 c 0xFF800000#32 reduces_S512x2000_S512 (.inl rfl) rfl : S512.Idx → EReal) (ix1 n)
      = max ⊥ (Finset.univ.sup fun j : Fin 2000 => c (ix2 n j)) := by
  refine (Ideal.multiReduction_maximumf_single (φ := .f32) c 0xFF800000#32 reduces_S512x2000_S512 (.inl rfl) rfl (ix1 n)).trans ?_
  refine (fold_max_eq_sup _ _ _).trans ?_
  refine congrArg₂ max ofBits_neg_inf ?_
  exact congrArg (Finset.sup Finset.univ) (funext fun j => congrArg c (lift_at reduces_S512x2000_S512 n j))

theorem pay7_at (w : S2000x256.Idx → EReal) (x : S512x256.Idx → EReal) (M : S512x1.Idx → EReal) (n : Fin 512) :
    k0_pay7 (F := Ideal) w x M (ix2 n 0)
      = max (M (ix2 n 0)) (max ⊥ (Finset.univ.sup fun j : Fin 2000 => k0_pay6 (F := Ideal) w x (ix2 n j))) := by
  unfold k0_pay7
  rw [maximumf_apply, cast_col_at, rowMax_at]

theorem pay8_at (w : S2000x256.Idx → EReal) (x : S512x256.Idx → EReal) (M L M' : S512x1.Idx → EReal) (n : Fin 512) :
    k0_pay8 (F := Ideal) w x M L M' (ix2 n 0)
      = L (ix2 n 0) * Ideal.exp (M' (ix2 n 0) - k0_pay7 (F := Ideal) w x M (ix2 n 0))
        + ∑ j : Fin 2000, Ideal.exp (k0_pay6 (F := Ideal) w x (ix2 n j) - k0_pay7 (F := Ideal) w x M (ix2 n 0)) := by
  unfold k0_pay8
  rw [cast_self_at, addf_apply, mulf_apply, exp_at, subf_apply, cast_col_at, rowSum_at]
  simp only [exp_at, subf_apply, bcast_col_at]

-- row j of the block divided by its length kept away from zero
def wrow (w : S2000x256.Idx → EReal) (j : Fin 2000) (k : Fin 256) : EReal :=
  Ideal.div (w (ix2 j k)) (max (Ideal.sqrt (∑ i : Fin 256, w (ix2 j i) * w (ix2 j i))) LossSpec.eps)

-- the product contracts axis 1 of both operands: at (n, j) it reads the left at (n, k) and the right at (j, k)
theorem lhs_axis0 (i : S512x2000.Idx) (q : (dot_S512x256_S2000x256_S512x2000_1_1_0_0_n_n).contr.Idx) : ((dot_S512x256_S2000x256_S512x2000_1_1_0_0_n_n).lhsIdx i q 0).val = (i 0).val := by
  unfold DotDims.lhsIdx
  rw [dif_neg (show ¬(0 : Fin S512x256.rank) ∈ (dot_S512x256_S2000x256_S512x2000_1_1_0_0_n_n).lhsBatch by decide),
    dif_pos (show (0 : Fin S512x256.rank) ∈ (dot_S512x256_S2000x256_S512x2000_1_1_0_0_n_n).lhsNonContracting by decide)]
  rfl
theorem rhs_axis0 (i : S512x2000.Idx) (q : (dot_S512x256_S2000x256_S512x2000_1_1_0_0_n_n).contr.Idx) : ((dot_S512x256_S2000x256_S512x2000_1_1_0_0_n_n).rhsIdx i q 0).val = (i 1).val := by
  unfold DotDims.rhsIdx
  rw [dif_neg (show ¬(0 : Fin S2000x256.rank) ∈ (dot_S512x256_S2000x256_S512x2000_1_1_0_0_n_n).rhsBatch by decide),
    dif_pos (show (0 : Fin S2000x256.rank) ∈ (dot_S512x256_S2000x256_S512x2000_1_1_0_0_n_n).rhsNonContracting by decide)]
  rfl

theorem blockDot_at (A : S512x256.Idx → EReal) (B : S2000x256.Idx → EReal) (n : Fin 512) (j : Fin 2000) :
    (matmul (F := Ideal) (φ₁ := .bf16) (φ₂ := .bf16) dot_S512x256_S2000x256_S512x2000_1_1_0_0_n_n none A B (constant S512x2000 .f32 0x00000000#32) : S512x2000.Idx → EReal) (ix2 n j)
      = ∑ k : Fin 256, A (ix2 n k) * B (ix2 j k) := by
  refine (Ideal.matmul_constant_zero_apply (φ₁ := .bf16) (φ₂ := .bf16) dot_S512x256_S2000x256_S512x2000_1_1_0_0_n_n none A B (ix2 n j)).trans ?_
  rw [← Equiv.sum_comp (contrEquiv1 dot_S512x256_S2000x256_S512x2000_1_1_0_0_n_n 256 rfl rfl).symm]
  refine Finset.sum_congr rfl fun k _ => ?_
  have hk := contrEquiv1_symm_val dot_S512x256_S2000x256_S512x2000_1_1_0_0_n_n 256 rfl rfl k
  have el : (dot_S512x256_S2000x256_S512x2000_1_1_0_0_n_n).lhsIdx (ix2 n j) ((contrEquiv1 dot_S512x256_S2000x256_S512x2000_1_1_0_0_n_n 256 rfl rfl).symm k) = ix2 n k :=
    funext fun a => Fin.ext (by
    match a with
    | ⟨0, _⟩ => exact lhs_axis0 _ _
    | ⟨1, _⟩ => exact ((dot_S512x256_S2000x256_S512x2000_1_1_0_0_n_n).lhsIdx_val_of_single rfl _ _).trans hk)
  have er : (dot_S512x256_S2000x256_S512x2000_1_1_0_0_n_n).rhsIdx (ix2 n j) ((contrEquiv1 dot_S512x256_S2000x256_S512x2000_1_1_0_0_n_n 256 rfl rfl).symm k) = ix2 j k :=
    funext fun a => Fin.ext (by
    match a with
    | ⟨0, _⟩ => exact rhs_axis0 _ _
    | ⟨1, _⟩ => exact ((dot_S512x256_S2000x256_S512x2000_1_1_0_0_n_n).rhsIdx_val_of_single rfl _ _).trans hk)
  rw [el, er]

theorem pay6_at (w : S2000x256.Idx → EReal) (x : S512x256.Idx → EReal) (n : Fin 512) (j : Fin 2000) :
    k0_pay6 (F := Ideal) w x (ix2 n j) = LossSpec.scale * ∑ k : Fin 256, x (ix2 n k) * wrow w j k := by
  unfold k0_pay6
  rw [mulf_apply, blockDot_at, broadcast_apply]
  refine (mul_comm _ _).trans ?_
  show LossSpec.scale * _ = _
  refine congrArg (LossSpec.scale * ·) (Finset.sum_congr rfl fun k _ => ?_)
  rw [cast_self_at, truncf_apply, divf_apply, bcast_col_at, maximumf_apply, sqrt_at, cast_col_at, rowSum_at, broadcast_apply]
  simp only [mulf_apply]
  rfl

end Cert.KernelIdeal.Payloads

end
-- ==== Proof.BlockReads.lean ====
import proofs.«415580_j72155450573201_1_alg».proof.Proof.Dats
import Idealize.ShloMosaic.Lib.Pipeline.Value
import Idealize.ShloMosaic.Lib.ValueIdx

set_option maxRecDepth 16384

noncomputable section

namespace Cert.KernelIdeal.BlockReads

open Idealize.ShloMosaic Idealize.ShloMosaic.TcCoe Idealize.ShloMosaic.ValueIdx
open Idealize.SL Idealize.SL.Sem
open Cert.KernelIdeal Cert.KernelIdeal.Gen

variable {F : FTy → Type} [FloatOps F]
variable (m : (ℓ : Loc nD τ sig) → Buf (Elt F) ℓ) (c : Dev nD)

theorem widx : ∀ t : Fin cfg0.N, (cfg0.win 1).index t 0 = t.val ∧ (cfg0.win 1).index t 1 = 0 :=
  (by decide +kernel : ∀ t : Fin grid0.N, win0_1.index t 0 = t.val ∧ win0_1.index t 1 = 0)

theorem xidx : ∀ t : Fin cfg0.N, ∀ a, (cfg0.win 0).index t a = 0 :=
  (by decide +kernel : ∀ t : Fin grid0.N, ∀ a, win0_0.index t a = 0)

-- on each axis an element sits at the block index times the block's size plus its own coordinate
theorem wblk_at (t : Fin cfg0.N) (j : Fin 2000) (k : Fin 256) :
    (Data.iblk m c 1 t : S2000x256.Idx → Elt F .f32) (ix2 j k)
      = (Kit.V m c main_arg1 : S100000x256.Idx → Elt F .f32)
          (ix2 ⟨2000 * t.val + j.val, by have := t.isLt; have : cfg0.N = 50 := N_0; omega⟩ k) := by
  unfold Data.iblk
  rw [View.read_apply]
  refine congrArg (Kit.V m c main_arg1) (funext fun (a : Fin 2) =>
    Fin.ext (((cfg0.win 1).rect_emb_val t (ix2 j k) a).trans ?_))
  match a with
  | ⟨0, _⟩ =>
    show (cfg0.win 1).index t 0 * 2000 + j.val = 2000 * t.val + j.val
    rw [(widx t).1]; omega
  | ⟨1, _⟩ =>
    show (cfg0.win 1).index t 1 * 256 + k.val = k.val
    rw [(widx t).2]; omega

theorem xblk_at (t : Fin cfg0.N) (n : Fin 512) (k : Fin 256) :
    (Data.iblk m c 0 t : S512x256.Idx → Elt F .bf16) (ix2 n k)
      = (Kit.V m c main_v9 : S512x256.Idx → Elt F .bf16) (ix2 n k) := by
  unfold Data.iblk
  rw [View.read_apply]
  exact congrArg (Kit.V m c main_v9)
    (funext fun a => Fin.ext ((cfg0.win 0).rect_emb_val_of_index_zero t a (xidx t a) (ix2 n k)))

end Cert.KernelIdeal.BlockReads

end
-- ==== Proof.LibOnlineSoftmax.lean ====
import proofs.«415580_j72155450573201_1_alg».proof.Proof.LossLift
import Idealize.ShloMosaic.PureOps.Ideal
import Mathlib.Data.EReal.Operations
import Mathlib.Algebra.BigOperators.Group.Finset.Basic
import Mathlib.Algebra.Order.BigOperators.Group.Finset
import Mathlib.Data.Fintype.BigOperators
import Mathlib.Data.Finset.Lattice.Fold
import Mathlib.Analysis.SpecialFunctions.Exp

noncomputable section

namespace Cert.OnlineSoftmax

open Idealize.ShloMosaic
open scoped BigOperators

variable {ι : Type*} [Fintype ι]

/-- one tile's update of the running maximum and the running sum -/
def step (s : EReal × EReal) (b : ι → EReal) : EReal × EReal :=
  let m' := max s.1 (Finset.univ.sup b)
  (m', Ideal.exp (s.1 - m') * s.2 + ∑ k, Ideal.exp (b k - m'))

/-- the state after the first t tiles, from (-∞, 0) -/
def run (b : ℕ → ι → EReal) : ℕ → EReal × EReal
  | 0 => (⊥, 0)
  | t + 1 => step (run b t) (b t)

variable [Nonempty ι]

/-- over real tiles a step moves the old sum's shift to the new maximum M and adds the new tile's exp (entry - M) -/
theorem run_real (b : ℕ → ι → EReal) (f : ℕ → ι → ℝ) (t : ℕ) (hb : ∀ i ≤ t, ∀ j, b i j = (f i j : EReal)) :
    ∃ M : ℝ, run b (t + 1)
      = ((M : EReal), ((∑ v ∈ Finset.range (t + 1) ×ˢ Finset.univ, Real.exp (f v.1 v.2 - M) : ℝ) : EReal)) := by
  induction t with
  | zero =>
    refine ⟨Finset.univ.sup' Finset.univ_nonempty (f 0), ?_⟩
    show step (⊥, 0) (b 0) = _
    rw [funext (hb 0 le_rfl)]
    simp only [step]
    rw [max_eq_right bot_le, LossLift.sup_univ_coe, mul_zero, zero_add, LossLift.sum_exp_sub_coe,
      Finset.sum_product, Finset.sum_range_one]
  | succ t ih =>
    obtain ⟨M, hM⟩ := ih fun i hi => hb i (Nat.le_succ_of_le hi)
    refine ⟨max M (Finset.univ.sup' Finset.univ_nonempty (f (t + 1))), ?_⟩
    show step (run b (t + 1)) (b (t + 1)) = _
    rw [hM, funext (hb (t + 1) le_rfl)]
    simp only [step]
    rw [LossLift.sup_univ_coe, LossLift.coe_max, LossLift.exp_sub_coe, LossLift.sum_exp_sub_coe, ← EReal.coe_mul,
      ← EReal.coe_add, mul_comm, LossAlgebra.rescale, Finset.sum_product, Finset.sum_product,
      Finset.sum_range_succ _ (t + 1)]

/-- after N + 1 real tiles the state is a real M and the real sum of exp (entry - M) over all entries -/
theorem run_spec (b : ℕ → ι → EReal) (N : ℕ) (hb : ∀ i : Fin (N + 1), ∀ j, ∃ r : ℝ, b i j = (r : EReal)) :
    ∃ M L : ℝ, run b (N + 1) = ((M : EReal), (L : EReal))
      ∧ (L : EReal) = ∑ v : Fin (N + 1) × ι, Ideal.exp (b v.1 v.2 - (M : EReal)) := by
  have hf : ∀ i ≤ N, ∀ j, b i j = ((b i j).toReal : EReal) := fun i hi j => by
    obtain ⟨r, hr⟩ := hb ⟨i, Nat.lt_succ_of_le hi⟩ j
    rw [show b i j = (r : EReal) from hr]
    rfl
  obtain ⟨M, hM⟩ := run_real b (fun i j => (b i j).toReal) N hf
  refine ⟨M, _, hM, ?_⟩
  rw [Fintype.sum_prod_type, ← LossLift.sum_exp_sub_coe, Finset.sum_product, ← Fin.sum_univ_eq_sum_range]
  exact Finset.sum_congr rfl fun i _ => Finset.sum_congr rfl fun j _ =>
    congrArg (fun e => Ideal.exp (e - (M : EReal))) (hf i (Nat.le_of_lt_succ i.isLt) j).symm

end Cert.OnlineSoftmax

end
-- ==== Proof.LossReal.lean ====
import proofs.«415580_j72155450573201_1_alg».proof.Proof.LossSpec
import proofs.«415580_j72155450573201_1_alg».proof.Proof.LossAlgebra
import proofs.«415580_j72155450573201_1_alg».proof.Proof.LossLift
import proofs.«415580_j72155450573201_1_alg».proof.Proof.LibOnlineSoftmax
import Idealize.ShloMosaic.PureOps.Ideal
import Idealize.ShloMosaic.PureOps.Ideal.Laws
import Idealize.ShloMosaic.Lib.ValueIdx
import Mathlib.Data.EReal.Basic
import Mathlib.Data.EReal.Operations
import Mathlib.Data.EReal.Inv
import Mathlib.Tactic.NormNum
import Mathlib.Tactic.Positivity

noncomputable section

namespace Cert.LossReal

open Idealize.ShloMosaic Idealize.ShloMosaic.ValueIdx
open scoped BigOperators

/-- a float word with sign bit clear and exponent field neither all ones nor zero denotes a positive real -/
theorem ieee_pos (e m : Nat) {w : Nat} (b : BitVec w)
    (hs : (b.extractLsb' (e + m) 1 == 1#1) = false)
    (h1 : (b.extractLsb' m e).toNat ≠ 2 ^ e - 1) (h0 : (b.extractLsb' m e).toNat ≠ 0) :
    ∃ r : ℝ, 0 < r ∧ Ideal.ieee e m b = (r : EReal) := by
  simp only [Ideal.ieee, if_neg h1, if_neg h0, hs]
  refine ⟨_, ?_, rfl⟩
  simp only [Bool.false_eq_true, if_false, one_mul]
  positivity

theorem eps_pos : ∃ e : ℝ, 0 < e ∧ LossSpec.eps = (e : EReal) :=
  ieee_pos 8 23 (0x2B8CBCCC#32) (by decide) (by decide) (by decide)

theorem scale_eq : LossSpec.scale = ((30 : ℝ) : EReal) := by
  simp [LossSpec.scale, Ideal.ofBits, Ideal.ieee, -EReal.coe_mul]; norm_num

theorem margin_pos : ∃ r : ℝ, 0 < r ∧ LossSpec.margin = (r : EReal) :=
  ieee_pos 8 23 (0x3E4CCCCD#32) (by decide) (by decide) (by decide)

/-- a real vector over the larger of its Euclidean norm and ε is real: the divisor is a positive real -/
theorem normalized_real {κ : Type*} [Fintype κ] (f : κ → EReal)
    (hf : ∀ j, ∃ r : ℝ, f j = (r : EReal)) (k : κ) :
    ∃ r : ℝ, Ideal.div (f k) (max (Ideal.sqrt (∑ j, f j * f j)) LossSpec.eps) = (r : EReal) := by
  choose g hg using hf
  obtain ⟨e, he, hE⟩ := eps_pos
  have hsq : ∑ j, f j * f j = ((∑ j, g j * g j : ℝ) : EReal) := by
    rw [← LossLift.coe_sum]
    exact Finset.sum_congr rfl (fun j _ => by rw [hg j, ← EReal.coe_mul])
  have hq : ¬ (∑ j, g j * g j) < 0 :=
    not_lt.2 (Finset.sum_nonneg (fun j _ => mul_self_nonneg (g j)))
  have hd : max (Real.sqrt (∑ j, g j * g j)) e ≠ 0 := (lt_max_of_lt_right he).ne'
  rw [hsq, Ideal.sqrt_coe, if_neg hq, hE, LossLift.coe_max, hg k, Ideal.div_coe hd, ← EReal.coe_mul]
  exact ⟨_, rfl⟩

variable {X : LossSpec.Inp} {Wt : LossSpec.Wts}
variable (hX : ∀ i, ∃ r : ℝ, X i = (r : EReal)) (hW : ∀ i, ∃ r : ℝ, Wt i = (r : EReal))

include hX hW in
theorem cosv_real (n : Fin 512) (c : Fin 100000) : ∃ r : ℝ, LossSpec.cosv X Wt n c = (r : EReal) := by
  choose a ha using normalized_real (fun j : Fin 256 => X (ix3 n j 0)) fun j => hX _
  choose b hb using normalized_real (fun j : Fin 256 => Wt (ix2 c j)) fun j => hW _
  refine ⟨∑ k, a k * b k, ?_⟩
  rw [← LossLift.coe_sum]
  exact Finset.sum_congr rfl fun k _ => (congrArg₂ (· * ·) (ha k) (hb k)).trans (EReal.coe_mul _ _).symm

def marginR : ℝ := margin_pos.choose

def cosR (n : Fin 512) (c : Fin 100000) : ℝ := (cosv_real hX hW n c).choose

theorem cosR_spec (n : Fin 512) (c : Fin 100000) :
    LossSpec.cosv X Wt n c = ((cosR hX hW n c : ℝ) : EReal) :=
  (cosv_real hX hW n c).choose_spec

def baseR (n : Fin 512) (c : Fin 100000) : ℝ := 30 * cosR hX hW n c

theorem base_eq (n : Fin 512) (c : Fin 100000) :
    LossSpec.base X Wt n c = ((baseR hX hW n c : ℝ) : EReal) := by
  rw [LossSpec.base, scale_eq, cosR_spec hX hW, ← EReal.coe_mul]
  rfl

def valAR (n : Fin 512) (ca : Fin 100000) : ℝ := 30 * (cosR hX hW n ca - marginR)

theorem valA_eq (n : Fin 512) (ca : Fin 100000) :
    LossSpec.valA X Wt n ca = ((valAR hX hW n ca : ℝ) : EReal) := by
  rw [LossSpec.valA, scale_eq, cosR_spec hX hW, margin_pos.choose_spec.2, ← EReal.coe_sub, ← EReal.coe_mul]
  rfl

def valOR (n : Fin 512) (c : Fin 100000) : ℝ := cosR hX hW n c - marginR

theorem valO_eq (n : Fin 512) (c : Fin 100000) :
    LossSpec.valO X Wt n c = ((valOR hX hW n c : ℝ) : EReal) := by
  rw [LossSpec.valO, cosR_spec hX hW, margin_pos.choose_spec.2, ← EReal.coe_sub]
  rfl

def outR (n : Fin 512) (ca cb cg cd : Fin 100000) : Fin 100000 → ℝ :=
  Cert.LossAlgebra.out4 (baseR hX hW n) ca cb cg cd
    (valAR hX hW n ca) (valOR hX hW n cb) (valOR hX hW n cg) (valOR hX hW n cd)

/-- coercion commutes with each write -/
theorem outRow_eq (n : Fin 512) (ca cb cg cd c : Fin 100000) :
    LossSpec.outRow X Wt n ca cb cg cd c = ((outR hX hW n ca cb cg cd c : ℝ) : EReal) := by
  unfold LossSpec.outRow outR Cert.LossAlgebra.out4
  rw [show LossSpec.base X Wt n = (fun r : ℝ => (r : EReal)) ∘ baseR hX hW n from funext (base_eq hX hW n),
    valA_eq hX hW, valO_eq hX hW, valO_eq hX hW, valO_eq hX hW, ← Function.comp_update, ← Function.comp_update,
    ← Function.comp_update, ← Function.comp_update]
  rfl

end Cert.LossReal

end
-- ==== Proof.OnlineFold.lean ====
import proofs.«415580_j72155450573201_1_alg».proof.Proof.Scratch
import proofs.«415580_j72155450573201_1_alg».proof.Proof.LossSpec
import proofs.«415580_j72155450573201_1_alg».proof.Proof.LibOnlineSoftmax
import proofs.«415580_j72155450573201_1_alg».proof.Proof.Payloads
import Idealize.ShloMosaic.Lib.ValueIdx
import Idealize.ShloMosaic.PureOps.Ideal

noncomputable section

namespace Cert.KernelIdeal.OnlineFold

open Idealize.ShloMosaic Idealize.ShloMosaic.ValueIdx
open Cert.KernelIdeal Cert.KernelIdeal.Gen Cert.KernelIdeal.Payloads Cert.OnlineSoftmax
open scoped BigOperators

/-- example n's running maximum and running sum -/
def row (q : Scratch.Pair Ideal) (n : Fin 512) : EReal × EReal := (q.1 (ix2 n 0), q.2 (ix2 n 0))

theorem row_reset (n : Fin 512) : row Scratch.reset n = (⊥, 0) :=
  congrArg₂ Prod.mk (pay4_at n) (pay5_at n)

/-- one update, read at row n, is one step on the block's 2000 scaled cosines of example n -/
theorem row_update (w : S2000x256.Idx → EReal) (x : S512x256.Idx → EReal) (q : Scratch.Pair Ideal) (n : Fin 512) :
    row (Scratch.update w x q) n
      = step (row q n) (fun j : Fin 2000 => k0_pay6 (F := Ideal) w x (ix2 n j)) := by
  have h7 : k0_pay7 (F := Ideal) w x q.1 (ix2 n 0)
      = max (q.1 (ix2 n 0)) (Finset.univ.sup fun j : Fin 2000 => k0_pay6 (F := Ideal) w x (ix2 n j)) := by
    rw [pay7_at, max_eq_right bot_le]
  refine Prod.ext ((pay1_at _ n).trans h7) ((pay8_at w x q.1 q.2 q.1 n).trans ?_)
  rw [h7, mul_comm (q.2 (ix2 n 0))]
  rfl

variable (w : ℕ → (S2000x256.Idx → EReal)) (x : ℕ → (S512x256.Idx → EReal)) (P : ℕ → Scratch.Pair Ideal)

/-- example n's scaled cosines against the block of the half's point i -/
def tiles (p : ℕ) (n : Fin 512) (i : ℕ) (j : Fin 2000) : EReal :=
  k0_pay6 (F := Ideal) (w (25 * p + i)) (x (25 * p + i)) (ix2 n j)

/-- the half's first point starts from the reset pair, every later one from what the point before left -/
theorem row_half (p : ℕ)
    (hPs : ∀ t, t < 25 * p + 25 → P (t + 1) = Scratch.update (w t) (x t) (Scratch.start t (P t))) (n : Fin 512) :
    ∀ i, i < 25 → row (P (25 * p + i + 1)) n = run (tiles w x p n) (i + 1) := by
  intro i
  induction i with
  | zero =>
    intro _
    rw [Nat.add_zero, hPs (25 * p) (by omega), Scratch.start_of_first _ (Nat.mul_mod_right 25 p), row_update, row_reset]
    rfl
  | succ i ih =>
    intro hi
    have hne : (25 * p + (i + 1)) % 25 ≠ 0 := by omega
    rw [hPs (25 * p + (i + 1)) (by omega), Scratch.start_of_later _ hne, row_update,
      show row (P (25 * p + (i + 1))) n = _ from ih (by omega)]
    rfl

theorem fold_half (p : ℕ)
    (hPs : ∀ t, t < 25 * p + 25 → P (t + 1) = Scratch.update (w t) (x t) (Scratch.start t (P t)))
    (n : Fin 512)
    (hs : ∀ i : Fin 25, ∀ j : Fin 2000, ∃ r : ℝ,
      k0_pay6 (F := Ideal) (w (25 * p + i.val)) (x (25 * p + i.val)) (ix2 n j) = (r : EReal)) :
    ∃ M L : ℝ, (P (25 * p + 25)).1 (ix2 n 0) = (M : EReal) ∧ (P (25 * p + 25)).2 (ix2 n 0) = (L : EReal)
      ∧ (L : EReal) = ∑ v : Fin 25 × Fin 2000,
          Ideal.exp (k0_pay6 (F := Ideal) (w (25 * p + v.1.val)) (x (25 * p + v.1.val)) (ix2 n v.2) - (M : EReal)) := by
  obtain ⟨M, L, hrun, hsum⟩ := run_spec (tiles w x p n) 24 hs
  have hrow := (row_half w x P p hPs n 24 (by norm_num)).trans hrun
  exact ⟨M, L, congrArg Prod.fst hrow, congrArg Prod.snd hrow, hsum⟩

end Cert.KernelIdeal.OnlineFold

end
-- ==== Proof.KernelHalves.lean ====
import proofs.«415580_j72155450573201_1_alg».proof.Proof.ResultArrays
import proofs.«415580_j72155450573201_1_alg».proof.Proof.PiecesArePayloads
import proofs.«415580_j72155450573201_1_alg».proof.Proof.Payloads
import proofs.«415580_j72155450573201_1_alg».proof.Proof.BlockReads
import proofs.«415580_j72155450573201_1_alg».proof.Proof.KernelHead
import proofs.«415580_j72155450573201_1_alg».proof.Proof.LossReal
import proofs.«415580_j72155450573201_1_alg».proof.Proof.LossLift
import proofs.«415580_j72155450573201_1_alg».proof.Proof.OnlineFold
set_option maxRecDepth 16384

noncomputable section

namespace Cert.KernelIdeal.KernelHalves

open Idealize.ShloMosaic Idealize.ShloMosaic.TcCoe Idealize.ShloMosaic.StableHlo Idealize.ShloMosaic.ValueIdx
open Cert.KernelIdeal Cert.KernelIdeal.Gen Cert.KernelIdeal.Payloads
open scoped BigOperators

variable (m : (ℓ : Loc nD τ sig) → Buf (Elt Ideal) ℓ) (c : Dev nD)

local notation:50 lhs:51 " =ₑ " rhs:51 => @Eq EReal lhs rhs

abbrev X : LossSpec.Inp := m ((c.tc : Thread nD τ).loc main_arg0)
abbrev Wt : LossSpec.Wts := m ((c.tc : Thread nD τ).loc main_arg1)

theorem N50 : cfg0.N = 50 := N_0

def colAt (t : Fin cfg0.N) (j : Fin 2000) : Fin 100000 :=
  ⟨2000 * t.val + j.val, by have := t.isLt; have := N50; have := j.isLt; omega⟩

theorem xblk_spec (t : Fin cfg0.N) (n : Fin 512) (k : Fin 256) :
    ((Pieces.xblk m c t : S512x256.Idx → EReal) (ix2 n k)) =ₑ LossSpec.xhat (X m c) n k :=
  (BlockReads.xblk_at m c t n k).trans (KernelHead.v9_at (fun b => m (c, b)) n k)

theorem wblk_spec (t : Fin cfg0.N) (j : Fin 2000) (k : Fin 256) :
    ((Pieces.wblk m c t : S2000x256.Idx → EReal) (ix2 j k)) =ₑ (Wt m c) (ix2 (colAt t j) k) :=
  (BlockReads.wblk_at m c t j k).trans
    (congrFun (FrameRun.V_weights m c) (ix2 (colAt t j) k))

theorem wrow_spec (t : Fin cfg0.N) (j : Fin 2000) (k : Fin 256) :
    wrow (Pieces.wblk m c t) j k = LossSpec.what (Wt m c) (colAt t j) k := by
  unfold wrow LossSpec.what
  rw [wblk_spec m c t j k]
  refine congrArg (fun s => Ideal.div _ (max (Ideal.sqrt s) LossSpec.eps)) ?_
  exact Finset.sum_congr rfl fun i _ => by rw [wblk_spec m c t j i]

theorem entry_eq (t : Fin cfg0.N) (n : Fin 512) (j : Fin 2000) :
    k0_pay6 (F := Ideal) (Pieces.wblk m c t) (Pieces.xblk m c t) (ix2 n j)
      = LossSpec.base (X m c) (Wt m c) n (colAt t j) := by
  rw [pay6_at]
  unfold LossSpec.base LossSpec.cosv
  refine congrArg (LossSpec.scale * ·) (Finset.sum_congr rfl fun k _ => ?_)
  rw [xblk_spec m c t n k, wrow_spec m c t j k]

def half (p : Fin 2) : Finset (Fin 100000) := Finset.univ.filter fun q => q.val / 50000 = p.val

theorem mem_half (p : Fin 2) (q : Fin 100000) : q ∈ half p ↔ q.val / 50000 = p.val :=
  Finset.mem_filter.trans (and_iff_right (Finset.mem_univ q))

theorem halves_cover : Disjoint (half 0) (half 1) ∧ half 0 ∪ half 1 = Finset.univ := by
  refine ⟨Finset.disjoint_left.2 fun q h0 h1 => ?_, Finset.eq_univ_iff_forall.2 fun q => ?_⟩
  · exact absurd (((mem_half 0 q).1 h0).symm.trans ((mem_half 1 q).1 h1)) (by decide)
  · rw [Finset.mem_union, mem_half, mem_half]
    have := q.isLt
    show q.val / 50000 = 0 ∨ q.val / 50000 = 1
    omega

def pt (p : Fin 2) (i : Fin 25) : Fin cfg0.N :=
  ⟨25 * p.val + i.val, by have := N50; have := p.isLt; have := i.isLt; omega⟩

def colOf (p : Fin 2) (v : Fin 25 × Fin 2000) : Fin 100000 := colAt (pt p v.1) v.2

theorem colOf_val (p : Fin 2) (v : Fin 25 × Fin 2000) :
    (colOf p v).val = 2000 * (25 * p.val + v.1.val) + v.2.val := rfl

theorem sum_half (p : Fin 2) (f : Fin 100000 → ℝ) :
    ∑ v : Fin 25 × Fin 2000, f (colOf p v) = ∑ q ∈ half p, f q := by
  have hp := p.isLt
  refine Finset.sum_bij (fun v _ => colOf p v) (fun v _ => ?_) (fun v _ v' _ h => ?_) (fun q hq => ?_) fun _ _ => rfl
  · rw [mem_half, colOf_val]
    have := v.1.isLt
    have := v.2.isLt
    omega
  · have h' := congrArg Fin.val h
    rw [colOf_val, colOf_val] at h'
    have := v.2.isLt
    have := v'.2.isLt
    exact Prod.ext (Fin.ext (by omega)) (Fin.ext (by omega))
  · rw [mem_half] at hq
    have := q.isLt
    refine ⟨(⟨q.val % 50000 / 2000, by omega⟩, ⟨q.val % 2000, by omega⟩), Finset.mem_univ _, Fin.ext ?_⟩
    rw [colOf_val]
    show 2000 * (25 * p.val + q.val % 50000 / 2000) + q.val % 2000 = q.val
    omega

variable (hX : ∀ i, ∃ r : ℝ, X m c i = (r : EReal)) (hW : ∀ i, ∃ r : ℝ, Wt m c i = (r : EReal))

include hX hW in
theorem entry_real (p : Fin 2) (n : Fin 512) (v : Fin 25 × Fin 2000) :
    k0_pay6 (F := Ideal) (Pieces.wblk m c (Pieces.point (25 * p.val + v.1.val)))
        (Pieces.xblk m c (Pieces.point (25 * p.val + v.1.val))) (ix2 n v.2)
      = ((LossReal.baseR hX hW n (colOf p v) : ℝ) : EReal) := by
  rw [Pieces.point_of_lt (25 * p.val + v.1.val) (pt p v.1).isLt]
  exact (entry_eq m c (pt p v.1) n v.2).trans (LossReal.base_eq hX hW n (colOf p v))

theorem half_values (p : Fin 2) (n : Fin 512) : ∃ M : ℝ,
    ((((Data.dats m 0 c).arrAt 2 cfg0.N : S2x512x1.Idx → EReal) (ix3 p n 0)) =ₑ (M : EReal))
    ∧ ((((Data.dats m 0 c).arrAt 3 cfg0.N : S2x512x1.Idx → EReal) (ix3 p n 0))
        =ₑ ((∑ q ∈ half p, Real.exp (LossReal.baseR hX hW n q - M) : ℝ) : EReal)) := by
  have hp := p.isLt
  have ht : 25 * p.val + 24 < cfg0.N := by have := N50; omega
  have ho := Pieces.outsAt_outs m c ⟨_, ht⟩ (show (25 * p.val + 24) % 25 = 24 by omega)
  have hb := ResultArrays.outArray_block m c p n ht
  obtain ⟨M, L, h1, h2, hsum⟩ :=
    OnlineFold.fold_half (fun t => Pieces.wblk m c (Pieces.point t)) (fun t => Pieces.xblk m c (Pieces.point t))
      (Pieces.pairAfter m c) p.val (fun t _ => rfl) n (fun i j => ⟨_, entry_real m c hX hW p n (i, j)⟩)
  refine ⟨M, hb.1.trans ((congrFun (congrArg Prod.fst ho) _).trans ((pay2_at _ n).trans h1)),
    hb.2.trans ((congrFun (congrArg Prod.snd ho) _).trans ((pay3_at _ n).trans (h2.trans ?_)))⟩
  rw [hsum]
  refine (Finset.sum_congr rfl fun v _ => by rw [entry_real m c hX hW p n v]).trans ?_
  rw [LossLift.sum_exp_sub_coe Finset.univ (fun v => LossReal.baseR hX hW n (colOf p v)) M]
  exact congrArg (fun s : ℝ => (s : EReal)) (sum_half p (fun q => Real.exp (LossReal.baseR hX hW n q - M)))

end Cert.KernelIdeal.KernelHalves

end
-- ==== Proof.RowAlgebra.lean ====
import proofs.«415580_j72155450573201_1_alg».proof.Proof.LossSpec
import proofs.«415580_j72155450573201_1_alg».proof.Proof.LossAlgebra
import proofs.«415580_j72155450573201_1_alg».proof.Proof.LossLift
import Idealize.ShloMosaic.PureOps.Ideal
import Mathlib.Data.EReal.Basic
import Mathlib.Data.EReal.Operations

noncomputable section

namespace Cert.RowAlgebra

open Idealize.ShloMosaic
open scoped BigOperators

/-- at any column the latest write to it wins -/
theorem outRow_apply (X : LossSpec.Inp) (Wt : LossSpec.Wts) (n : Fin 512) (ca cb cg cd c : Fin 100000) :
    LossSpec.outRow X Wt n ca cb cg cd c
      = if cd = c then LossSpec.valO X Wt n cd else if cg = c then LossSpec.valO X Wt n cg
        else if cb = c then LossSpec.valO X Wt n cb else if ca = c then LossSpec.valA X Wt n ca
        else LossSpec.base X Wt n c := by
  unfold LossSpec.outRow
  simp only [Function.update_apply, eq_comm (a := c)]

variable {ι : Type*} [Fintype ι] [Nonempty ι]

/-- the row maximum of reals is a real, and log-softmax does not depend on the shift -/
theorem reference_row (w : ι → ℝ) (v : ℝ) :
    ((v : EReal) - max (⊥ : EReal) (Finset.univ.sup fun c => (w c : EReal)))
      - Ideal.log (0 + ∑ c, Ideal.exp ((w c : EReal)
          - max (⊥ : EReal) (Finset.univ.sup fun c => (w c : EReal))))
    = (v : EReal) - Ideal.log (∑ c, Ideal.exp ((w c : EReal))) := by
  rw [max_eq_right bot_le, LossLift.sup_univ_coe, zero_add, LossLift.sum_exp_sub_coe, ← EReal.coe_sub]
  exact LossLift.shift_law_E w v _

end Cert.RowAlgebra

end
-- ==== Proof.KernelCombine.lean ====
import proofs.«415580_j72155450573201_1_alg».proof.Proof.LossSpec
import proofs.«415580_j72155450573201_1_alg».proof.Proof.LossReal
import proofs.«415580_j72155450573201_1_alg».proof.Proof.RowAlgebra
import Idealize.ShloMosaic.Lib.ValueIdx

noncomputable section

namespace Cert.KernelCombine

open Idealize.ShloMosaic Idealize.ShloMosaic.ValueIdx Cert.LossSpec

variable (X : LossSpec.Inp) (Wt : LossSpec.Wts)
  (hX : ∀ i, ∃ r : ℝ, X i = (r : EReal)) (hW : ∀ i, ∃ r : ℝ, Wt i = (r : EReal))

/-- all terms real: the halves' sums merge at the larger shift, the corrections give the written row's sum, the shift drops out -/
theorem row_eq (n : Fin 512) (ca cb cg cd : Fin 100000) (H0 H1 : Finset (Fin 100000)) (hdis : Disjoint H0 H1) (hcov : H0 ∪ H1 = Finset.univ)
    (M0 M1 : ℝ) (ℓ : Fin 100000) :
    ((LossSpec.outRow X Wt n ca cb cg cd ℓ) - max (M0 : EReal) (M1 : EReal))
      - Ideal.log (
          (((∑ c ∈ H0, Real.exp (LossReal.baseR hX hW n c - M0) : ℝ) : EReal) * Ideal.exp ((M0 : EReal) - max (M0 : EReal) (M1 : EReal))
            + ((∑ c ∈ H1, Real.exp (LossReal.baseR hX hW n c - M1) : ℝ) : EReal) * Ideal.exp ((M1 : EReal) - max (M0 : EReal) (M1 : EReal)))
          + ((((if cb ≠ ca ∧ cg ≠ ca ∧ cd ≠ ca then (1 : EReal) else 0) * (Ideal.exp (LossSpec.valA X Wt n ca - max (M0 : EReal) (M1 : EReal)) - Ideal.exp (LossSpec.base X Wt n ca - max (M0 : EReal) (M1 : EReal)))
              + (if cg ≠ cb ∧ cd ≠ cb then (1 : EReal) else 0) * (Ideal.exp (LossSpec.valO X Wt n cb - max (M0 : EReal) (M1 : EReal)) - Ideal.exp (LossSpec.base X Wt n cb - max (M0 : EReal) (M1 : EReal))))
              + (if cd ≠ cg then (1 : EReal) else 0) * (Ideal.exp (LossSpec.valO X Wt n cg - max (M0 : EReal) (M1 : EReal)) - Ideal.exp (LossSpec.base X Wt n cg - max (M0 : EReal) (M1 : EReal))))
              + (1 : EReal) * (Ideal.exp (LossSpec.valO X Wt n cd - max (M0 : EReal) (M1 : EReal)) - Ideal.exp (LossSpec.base X Wt n cd - max (M0 : EReal) (M1 : EReal)))))
      = LossSpec.lsm (LossSpec.outRow X Wt n ca cb cg cd) ℓ := by
  simp only [LossSpec.lsm, LossReal.outRow_eq hX hW, LossReal.valA_eq hX hW, LossReal.valO_eq hX hW, LossReal.base_eq hX hW,
    LossLift.coe_max, ← EReal.coe_one, ← EReal.coe_zero, LossLift.ite_coe, ← EReal.coe_sub,
    ← EReal.coe_mul, ← EReal.coe_add, Ideal.exp_coe]
  rw [LossAlgebra.merge_halves _ H0 H1 hdis hcov, ← LossAlgebra.sum_out4]
  exact LossLift.shift_law_E (LossReal.outR hX hW n ca cb cg cd) _ _

end Cert.KernelCombine

end
-- ==== Proof.KernelValue.lean ====
import proofs.«415580_j72155450573201_1_alg».proof.Proof.KernelReads
import proofs.«415580_j72155450573201_1_alg».proof.Proof.KernelHalves
import proofs.«415580_j72155450573201_1_alg».proof.Proof.KernelCombine

set_option maxRecDepth 16384

noncomputable section
namespace Cert.KernelIdeal.KernelValue

open Idealize.ShloMosaic Idealize.ShloMosaic.TcCoe Idealize.ShloMosaic.ValueIdx
open Cert.KernelIdeal Cert.KernelIdeal.Gen Cert.KernelIdeal.KernelReads

variable (m : (ℓ : Loc nD τ sig) → Buf (Elt Ideal) ℓ) (c : Dev nD)
  (hX : ∀ i, ∃ r : ℝ, X m c i = (r : EReal)) (hW : ∀ i, ∃ r : ℝ, Wt m c i = (r : EReal))
  (ha : ∀ n : Fin 512, ((ta m c) (ix1 n)).toNat < 100000) (hb : ∀ n : Fin 512, ((tb m c) (ix1 n)).toNat < 100000)
  (hg : ∀ n : Fin 512, ((tg m c) (ix1 n)).toNat < 100000) (hd : ∀ n : Fin 512, ((td m c) (ix1 n)).toNat < 100000)

abbrev row (n : Fin 512) : Fin 100000 → EReal :=
  LossSpec.outRow (X m c) (Wt m c) n (colOf (ta m c) ha n) (colOf (tb m c) hb n) (colOf (tg m c) hg n) (colOf (td m c) hd n)

include hX hW

-- a value that is the overwritten row's entry at a column, less m, less log (corrected sum), is the row's log-softmax there
theorem entry (n : Fin 512) (col : Fin 100000) (v : EReal) (hv : v = row m c ha hb hg hd n col) :
    (v - Mx m c n) - Ideal.log (Lc m c ha hb hg hd n) = LossSpec.lsm (row m c ha hb hg hd n) col := by
  obtain ⟨M0, hM0, hL0⟩ := KernelHalves.half_values m c hX hW 0 n
  obtain ⟨M1, hM1, hL1⟩ := KernelHalves.half_values m c hX hW 1 n
  have hc := KernelHalves.halves_cover
  have key := Cert.KernelCombine.row_eq (X m c) (Wt m c) hX hW n (colOf (ta m c) ha n) (colOf (tb m c) hb n)
    (colOf (tg m c) hg n) (colOf (td m c) hd n) (KernelHalves.half 0) (KernelHalves.half 1) hc.1 hc.2 M0 M1 col
  rw [← hL0, ← hL1, ← hM0, ← hM1] at key
  exact hv ▸ key

theorem kernel_value :
    ((Pipeline.afterTail₀ cfgs (Data.dats m) 0 (Kit.V0 m) (Kit.tailOps (F := Ideal)) c main_v205 : S_.Idx → EReal) ix0)
      = LossSpec.lossOf (lamv m c)
          (fun n => LossSpec.lsm (row m c ha hb hg hd n) (colOf (ta m c) ha n))
          (fun n => LossSpec.lsm (row m c ha hb hg hd n) (colOf (tb m c) hb n))
          (fun n => LossSpec.lsm (row m c ha hb hg hd n) (colOf (tg m c) hg n))
          (fun n => LossSpec.lsm (row m c ha hb hg hd n) (colOf (td m c) hd n)) := by
  rw [KernelReads.result_reads m c ha hb hg hd]
  congr 1 <;> funext n <;> refine entry m c hX hW ha hb hg hd n _ _ ?_ <;>
  · unfold row
    rw [RowAlgebra.outRow_apply, if_pos rfl]

end Cert.KernelIdeal.KernelValue
end
-- ==== Proof.RefHead.lean ====
import proofs.«415580_j72155450573201_1_alg».proof.Proof.RefCut
import proofs.«415580_j72155450573201_1_alg».proof.Proof.LossSpec
import Idealize.ShloMosaic.Lib.StableHlo.Run
import Idealize.ShloMosaic.Lib.Pipeline.Frame
import Idealize.ShloMosaic.Lib.Pipeline.Value
import Idealize.ShloMosaic.Lib.ValueIdx
import Idealize.ShloMosaic.PureOps.Ideal
import Idealize.ShloMosaic.PureOps.Ideal.Laws

set_option maxRecDepth 16384
set_option maxHeartbeats 4000000

noncomputable section

namespace Cert.ReferenceIdeal.RefHead

open Idealize.ShloMosaic Idealize.ShloMosaic.TcCoe Idealize.ShloMosaic.StableHlo Idealize.ShloMosaic.ValueIdx
open Cert.ReferenceIdeal Cert.ReferenceIdeal.Gen Cert.ReferenceIdeal.ValueP Cert.ReferenceIdeal.RefCut
open scoped BigOperators

variable {F : FTy → Type} [FloatOps F]

noncomputable abbrev flatX (X : (⟨S512x256x1, .f32⟩ : BufTy).Contents (Elt F)) : (⟨S512x256, .f32⟩ : BufTy).Contents (Elt F) :=
  shapeCast S512x256 X shapeCasts_S512x256x1_S512x256

section Rows

variable {m : Nat} (hr : (⟨2, ![m, 256]⟩ : Shape).ReducesTo [1] ⟨1, ![m]⟩)
  (hc : (⟨1, ![m]⟩ : Shape).BroadcastsInDim ⟨2, ![m, 1]⟩ (![0] : Fin 1 → Fin 2))
  (he : S_.BroadcastsInDim (⟨2, ![m, 1]⟩ : Shape) (![] : Fin 0 → Fin 2))
  (hb : (⟨2, ![m, 1]⟩ : Shape).BroadcastsInDim ⟨2, ![m, 256]⟩ (![0, 1] : Fin 2 → Fin 2))

/-- each row of an m × 256 matrix divided by its length kept away from zero: G[n, k] / max (√(Σ_j G[n, j]²)) ε -/
noncomputable abbrev rowsTerm (G : (⟨⟨2, ![m, 256]⟩, .f32⟩ : BufTy).Contents (Elt F)) :
    (⟨⟨2, ![m, 256]⟩, .f32⟩ : BufTy).Contents (Elt F) :=
  Host.divf G (broadcastInDim _ ![0, 1] hb (maximumf
    (Host.sqrt (broadcastInDim _ ![0] hc (Host.reduceAdd (mulf G G) (constant S_ .f32 0x00000000#32) hr h_S_)))
    (broadcastInDim _ ![] he (constant S_ .f32 0x2B8CBCCC#32))))

end Rows

noncomputable abbrev xhatTerm (X : (⟨S512x256x1, .f32⟩ : BufTy).Contents (Elt F)) : (⟨S512x256, .f32⟩ : BufTy).Contents (Elt F) :=
  rowsTerm reducesTo_S512x256_S512_d1 bcast_S512_S512x1_0 bcast_S_S512x1 bcast_S512x1_S512x256_0_1 (flatX X)

noncomputable abbrev whatTerm (G : (⟨S100000x256, .f32⟩ : BufTy).Contents (Elt F)) : (⟨S100000x256, .f32⟩ : BufTy).Contents (Elt F) :=
  rowsTerm reducesTo_S100000x256_S100000_d1 bcast_S100000_S100000x1_0 bcast_S_S100000x1 bcast_S100000x1_S100000x256_0_1 G

noncomputable abbrev cosTerm (A : (⟨S512x256, .f32⟩ : BufTy).Contents (Elt F)) (B : (⟨S100000x256, .f32⟩ : BufTy).Contents (Elt F)) :
    (⟨S512x100000, .f32⟩ : BufTy).Contents (Elt F) :=
  Host.dotGeneral dot_S512x256_S100000x256_S512x100000_1_1_0_0_n_n none A B

theorem v8_term (W : Valuation τ sig (Elt F)) :
    after (opsXhat (F := F)) W (Proc.devRef .tc main_v8) = xhatTerm (W (Proc.devRef .tc main_arg0)) := by
  simp only [opsXhat, ops, List.take_succ_cons, List.take_zero, List.drop_succ_cons, List.drop_zero]
  after_results
  rfl

theorem v16_term (W : Valuation τ sig (Elt F)) :
    after (opsWhat (F := F)) W (Proc.devRef .tc main_v16) = whatTerm (W (Proc.devRef .tc main_arg1)) := by
  simp only [opsWhat, ops, List.take_succ_cons, List.take_zero, List.drop_succ_cons, List.drop_zero]
  after_results

theorem v17_term (W : Valuation τ sig (Elt F)) :
    after (opsCos (F := F)) W (Proc.devRef .tc main_v17)
      = cosTerm (W (Proc.devRef .tc main_v8)) (W (Proc.devRef .tc main_v16)) := by
  simp only [opsCos, ops, List.take_succ_cons, List.take_zero, List.drop_succ_cons, List.drop_zero]
  after_results

theorem flatX_apply (X : S512x256x1.Idx → EReal) (n : Fin 512) (k : Fin 256) :
    flatX (F := Ideal) X (ix2 n k) = X (ix3 n k 0) := by
  refine shapeCast_apply _ _ (ix2 n k) (ix3 n k 0) ?_
  rw [Shape.rowMajor_val_three, Shape.rowMajor_val_two]
  show (n.val * 256 + k.val) * 1 + 0 = n.val * 256 + k.val
  omega

section RowsAt

variable {m : Nat} {hr : (⟨2, ![m, 256]⟩ : Shape).ReducesTo [1] ⟨1, ![m]⟩}
  {hc : (⟨1, ![m]⟩ : Shape).BroadcastsInDim ⟨2, ![m, 1]⟩ (![0] : Fin 1 → Fin 2)}
  {he : S_.BroadcastsInDim (⟨2, ![m, 1]⟩ : Shape) (![] : Fin 0 → Fin 2)}
  {hb : (⟨2, ![m, 1]⟩ : Shape).BroadcastsInDim ⟨2, ![m, 256]⟩ (![0, 1] : Fin 2 → Fin 2)}

/-- a sum over the columns from the zero word, read at row n, is the sum of the row: zero plus a sum is the sum -/
theorem rowSum_apply (hR : (⟨2, ![m, 256]⟩ : Shape).Reduces [1] ⟨1, ![m]⟩) (x : (⟨2, ![m, 256]⟩ : Shape).Idx → EReal) (n : Fin m) :
    (Host.reduceAdd (F := Ideal) (φ := .f32) x (constant S_ .f32 0x00000000#32) hr h_S_ : (⟨1, ![m]⟩ : Shape).Idx → EReal) (ix1 n)
      = ∑ k : Fin 256, x (ix2 n k) := by
  show Ideal.hostReduceAdd hr x (Ideal.ofBits .f32 0x00000000#32) (ix1 n) = _
  rw [Ideal.hostReduceAdd_single hr hR, Ideal.ofBits_zero_f32, zero_add]
  refine Finset.sum_congr rfl fun k _ => congrArg x ?_
  funext a
  refine Fin.ext ?_
  match a with
  | ⟨0, _⟩ => rfl
  | ⟨1, _⟩ => rfl

/-- a coordinate below m is zero when m is one -/
theorem coord (n : Fin m) : (n : Nat) = if m = 1 then 0 else (n : Nat) := by
  split
  · have := n.isLt; omega
  · rfl

theorem col_apply {α : Type} (v : (⟨1, ![m]⟩ : Shape).Idx → α) (n : Fin m) :
    broadcastInDim (⟨2, ![m, 1]⟩ : Shape) ![0] hc v (ix2 n 0) = v (ix1 n) :=
  broadcastInDim_apply _ _ _ _ _ (fun a => by
    obtain rfl : a = 0 := Subsingleton.elim _ _
    exact coord n)

theorem row_apply {α : Type} (v : (⟨2, ![m, 1]⟩ : Shape).Idx → α) (n : Fin m) (k : Fin 256) :
    broadcastInDim (⟨2, ![m, 256]⟩ : Shape) ![0, 1] hb v (ix2 n k) = v (ix2 n 0) :=
  broadcastInDim_apply _ _ _ _ _ (fun a => by
    match a with
    | ⟨0, _⟩ => exact coord n
    | ⟨1, _⟩ => rfl)

theorem sqrt_at {s : Shape} (a : s.Idx → EReal) (j : s.Idx) :
    (Host.sqrt (F := Ideal) (φ := .f32) a : s.Idx → EReal) j = Ideal.sqrt (a j) := rfl
theorem div_at {s : Shape} (a b : s.Idx → EReal) (j : s.Idx) :
    (Host.divf (F := Ideal) (φ := .f32) a b : s.Idx → EReal) j = Ideal.div (a j) (b j) := rfl
theorem eps_apply (j : (⟨2, ![m, 1]⟩ : Shape).Idx) :
    (broadcastInDim (⟨2, ![m, 1]⟩ : Shape) ![] he (constant (F := Ideal) S_ .f32 0x2B8CBCCC#32) : (⟨2, ![m, 1]⟩ : Shape).Idx → EReal) j
      = LossSpec.eps := rfl

/-- a row divided by its length, at (n, k) -/
theorem rowsTerm_apply (hR : (⟨2, ![m, 256]⟩ : Shape).Reduces [1] ⟨1, ![m]⟩) (G : (⟨2, ![m, 256]⟩ : Shape).Idx → EReal)
    (n : Fin m) (k : Fin 256) :
    rowsTerm (F := Ideal) hr hc he hb G (ix2 n k)
      = Ideal.div (G (ix2 n k)) (max (Ideal.sqrt (∑ j : Fin 256, G (ix2 n j) * G (ix2 n j))) LossSpec.eps) := by
  rw [rowsTerm, div_at, row_apply, maximumf_apply, sqrt_at, col_apply, rowSum_apply hR, eps_apply]
  simp only [mulf_apply]

end RowsAt

theorem xhatTerm_apply (X : S512x256x1.Idx → EReal) (n : Fin 512) (k : Fin 256) :
    xhatTerm (F := Ideal) X (ix2 n k) = LossSpec.xhat X n k := by
  rw [xhatTerm, rowsTerm_apply (by decide)]
  simp only [flatX_apply]
  rfl

theorem whatTerm_apply (Wt : S100000x256.Idx → EReal) (c : Fin 100000) (k : Fin 256) :
    whatTerm (F := Ideal) Wt (ix2 c k) = LossSpec.what Wt c k := by
  rw [whatTerm, rowsTerm_apply (by decide)]
  rfl

theorem lhs_axis0 (i : S512x100000.Idx) (q : dot_S512x256_S100000x256_S512x100000_1_1_0_0_n_n.contr.Idx) :
    (dot_S512x256_S100000x256_S512x100000_1_1_0_0_n_n.lhsIdx i q 0).val = (i 0).val := by
  unfold DotDims.lhsIdx
  rw [dif_neg (show ¬(0 : Fin S512x256.rank) ∈ dot_S512x256_S100000x256_S512x100000_1_1_0_0_n_n.lhsBatch by decide),
    dif_pos (show (0 : Fin S512x256.rank) ∈ dot_S512x256_S100000x256_S512x100000_1_1_0_0_n_n.lhsNonContracting by decide)]
  rfl
theorem lhs_axis1 (i : S512x100000.Idx) (q : dot_S512x256_S100000x256_S512x100000_1_1_0_0_n_n.contr.Idx) :
    (dot_S512x256_S100000x256_S512x100000_1_1_0_0_n_n.lhsIdx i q 1).val = (q ⟨0, by decide⟩).val :=
  dot_S512x256_S100000x256_S512x100000_1_1_0_0_n_n.lhsIdx_val_of_single rfl i q
theorem rhs_axis0 (i : S512x100000.Idx) (q : dot_S512x256_S100000x256_S512x100000_1_1_0_0_n_n.contr.Idx) :
    (dot_S512x256_S100000x256_S512x100000_1_1_0_0_n_n.rhsIdx i q 0).val = (i 1).val := by
  unfold DotDims.rhsIdx
  rw [dif_neg (show ¬(0 : Fin S100000x256.rank) ∈ dot_S512x256_S100000x256_S512x100000_1_1_0_0_n_n.rhsBatch by decide),
    dif_pos (show (0 : Fin S100000x256.rank) ∈ dot_S512x256_S100000x256_S512x100000_1_1_0_0_n_n.rhsNonContracting by decide)]
  rfl
theorem rhs_axis1 (i : S512x100000.Idx) (q : dot_S512x256_S100000x256_S512x100000_1_1_0_0_n_n.contr.Idx) :
    (dot_S512x256_S100000x256_S512x100000_1_1_0_0_n_n.rhsIdx i q 1).val = (q ⟨0, by decide⟩).val :=
  dot_S512x256_S100000x256_S512x100000_1_1_0_0_n_n.rhsIdx_val_of_single rfl i q

theorem cosTerm_apply (A : S512x256.Idx → EReal) (B : S100000x256.Idx → EReal) (n : Fin 512) (c : Fin 100000) :
    cosTerm (F := Ideal) A B (ix2 n c) = ∑ k : Fin 256, A (ix2 n k) * B (ix2 c k) := by
  simp only [cosTerm, Host.dotGeneral]
  rw [Ideal.dotGeneral_apply, ← Equiv.sum_comp (contrEquiv1 dot_S512x256_S100000x256_S512x100000_1_1_0_0_n_n 256 rfl rfl).symm]
  refine Finset.sum_congr rfl fun k _ => ?_
  have hk := contrEquiv1_symm_val dot_S512x256_S100000x256_S512x100000_1_1_0_0_n_n 256 rfl rfl k
  have el : dot_S512x256_S100000x256_S512x100000_1_1_0_0_n_n.lhsIdx (ix2 n c)
      ((contrEquiv1 dot_S512x256_S100000x256_S512x100000_1_1_0_0_n_n 256 rfl rfl).symm k) = ix2 n k :=
    funext fun a => Fin.ext (by
    match a with
    | ⟨0, _⟩ => exact lhs_axis0 _ _
    | ⟨1, _⟩ => exact (lhs_axis1 _ _).trans hk)
  have er : dot_S512x256_S100000x256_S512x100000_1_1_0_0_n_n.rhsIdx (ix2 n c)
      ((contrEquiv1 dot_S512x256_S100000x256_S512x100000_1_1_0_0_n_n 256 rfl rfl).symm k) = ix2 c k :=
    funext fun a => Fin.ext (by
    match a with
    | ⟨0, _⟩ => exact rhs_axis0 _ _
    | ⟨1, _⟩ => exact (rhs_axis1 _ _).trans hk)
  rw [el, er]

local notation:50 lhs:51 " =ₑ " rhs:51 => @Eq EReal lhs rhs
local notation:70 lhs:70 " *ₑ " rhs:71 => @HMul.hMul EReal EReal EReal _ lhs rhs

theorem v8_at (W : Valuation τ sig (Elt Ideal)) (n : Fin 512) (k : Fin 256) :
    ((after (opsXhat (F := Ideal)) W (Proc.devRef .tc main_v8) : S512x256.Idx → EReal) (ValueIdx.ix2 n k))
      =ₑ LossSpec.xhat (W (Proc.devRef .tc main_arg0)) n k := by
  rw [v8_term]
  exact xhatTerm_apply _ n k

theorem v16_at (W : Valuation τ sig (Elt Ideal)) (c : Fin 100000) (k : Fin 256) :
    ((after (opsWhat (F := Ideal)) W (Proc.devRef .tc main_v16) : S100000x256.Idx → EReal) (ValueIdx.ix2 c k))
      =ₑ LossSpec.what (W (Proc.devRef .tc main_arg1)) c k := by
  rw [v16_term]
  exact whatTerm_apply _ c k

theorem v17_at (W : Valuation τ sig (Elt Ideal)) (n : Fin 512) (c : Fin 100000) :
    ((after (opsCos (F := Ideal)) W (Proc.devRef .tc main_v17) : S512x100000.Idx → EReal) (ValueIdx.ix2 n c))
      =ₑ ∑ k : Fin 256, ((W (Proc.devRef .tc main_v8) : S512x256.Idx → EReal) (ValueIdx.ix2 n k))
          *ₑ ((W (Proc.devRef .tc main_v16) : S100000x256.Idx → EReal) (ValueIdx.ix2 c k)) := by
  rw [v17_term]
  exact cosTerm_apply _ _ n c

theorem v17_cosv (W : Valuation τ sig (Elt Ideal)) (X : LossSpec.Inp) (Wt : LossSpec.Wts)
    (h8 : ∀ (n : Fin 512) (k : Fin 256),
      ((W (Proc.devRef .tc main_v8) : S512x256.Idx → EReal) (ValueIdx.ix2 n k)) =ₑ LossSpec.xhat X n k)
    (h16 : ∀ (c : Fin 100000) (k : Fin 256),
      ((W (Proc.devRef .tc main_v16) : S100000x256.Idx → EReal) (ValueIdx.ix2 c k)) =ₑ LossSpec.what Wt c k)
    (n : Fin 512) (c : Fin 100000) :
    ((after (opsCos (F := Ideal)) W (Proc.devRef .tc main_v17) : S512x100000.Idx → EReal) (ValueIdx.ix2 n c))
      =ₑ LossSpec.cosv X Wt n c := by
  rw [v17_at]
  exact Finset.sum_congr rfl fun k _ => by rw [h8 n k, h16 c k]

end Cert.ReferenceIdeal.RefHead

end
-- ==== Proof.RefGather.lean ====
import proofs.«415580_j72155450573201_1_alg».proof.Proof.RefStrip
import proofs.«415580_j72155450573201_1_alg».proof.Proof.LossSpec
import Idealize.ShloMosaic.Lib.StableHlo.Run
import Idealize.ShloMosaic.Lib.Pipeline.Frame
import Idealize.ShloMosaic.Lib.Pipeline.Value
import Idealize.ShloMosaic.Lib.ValueIdx
import Idealize.ShloMosaic.Lib.ValueIdxRank1
import Idealize.ShloMosaic.Lib.IdealHost
import Idealize.ShloMosaic.PureOps.Ideal
import Idealize.ShloMosaic.PureOps.Ideal.Laws

set_option maxRecDepth 16384
set_option maxHeartbeats 4000000

noncomputable section

namespace Cert.ReferenceIdeal.RefGather

open Idealize.ShloMosaic Idealize.ShloMosaic.TcCoe Idealize.ShloMosaic.StableHlo Idealize.ShloMosaic.ValueIdx
open Cert.ReferenceIdeal Cert.ReferenceIdeal.Gen Cert.ReferenceIdeal.ValueP Cert.ReferenceIdeal.RefCut
open scoped BigOperators

variable {F : FTy → Type} [FloatOps F]

/-- Both operand axes are collapsed: result n is the operand at row n's two start indices, read signed and clamped. -/
theorem gather_elem_apply {α : Type} {w : Nat} (x : S512x100000.Idx → α) (idx : IVec S512x2 w) (n : Fin 512) :
    Host.gather gather_S512x100000_S512x2_S512_n_01_n_n_01_1_11 x idx (ix1 n)
      = x (ix2 ⟨min (idx (ix2 n 0)).toInt.toNat (512 - 1), by omega⟩
              ⟨min (idx (ix2 n 1)).toInt.toNat (100000 - 1), by omega⟩) := by
  have hsi : ∀ c : Fin 2, gather_S512x100000_S512x2_S512_n_01_n_n_01_1_11.siIdx (ix1 n) c = ix2 n c :=
    Fin.forall_fin_two.2 ⟨funext (Fin.forall_fin_two.2 ⟨rfl, rfl⟩), funext (Fin.forall_fin_two.2 ⟨rfl, rfl⟩)⟩
  refine congrArg x (funext (Fin.forall_fin_two.2 ⟨Fin.ext ?_, Fin.ext ?_⟩))
  · exact congrArg (fun i => min (idx i).toInt.toNat (512 - 1)) (hsi 0)
  · exact congrArg (fun i => min (idx i).toInt.toNat (100000 - 1)) (hsi 1)

abbrev wrapBy (m : BitVec 32) (t : (⟨S512, .i32⟩ : BufTy).Contents (Elt F)) : (⟨S512, .i32⟩ : BufTy).Contents (Elt F) :=
  select (cmpi .slt t (broadcastInDim S512 ![] bcast_S_S512 (constantI S_ 32 0#32)))
    (addi t (broadcastInDim S512 ![] bcast_S_S512 (constantI S_ 32 m))) t

abbrev idxPairs (r t : (⟨S512, .i32⟩ : BufTy).Contents (Elt F)) : (⟨S512x2, .i32⟩ : BufTy).Contents (Elt F) :=
  concatenate S512x2 1 [⟨S512x1, broadcastInDim S512x1 ![0] bcast_S512_S512x1_0 (wrapBy 512#32 r)⟩,
    ⟨S512x1, broadcastInDim S512x1 ![0] bcast_S512_S512x1_0 (wrapBy 100000#32 t)⟩] concatenates_S512x1_S512x1_S512x2_d1

abbrev atLabel (x : (⟨S512x100000, .f32⟩ : BufTy).Contents (Elt F)) (r t : (⟨S512, .i32⟩ : BufTy).Contents (Elt F)) :
    (⟨S512, .f32⟩ : BufTy).Contents (Elt F) :=
  Host.gather gather_S512x100000_S512x2_S512_n_01_n_n_01_1_11 x (idxPairs r t)

abbrev penTerm (x : (⟨S512x100000, .f32⟩ : BufTy).Contents (Elt F)) (r t : (⟨S512, .i32⟩ : BufTy).Contents (Elt F)) :
    (⟨S512, .f32⟩ : BufTy).Contents (Elt F) :=
  subf (atLabel x r t) (broadcastInDim S512 ![] bcast_S_S512 (constant S_ .f32 0x3E4CCCCD#32))

abbrev negMean (e : (⟨S512, .f32⟩ : BufTy).Contents (Elt F)) : (⟨S_, .f32⟩ : BufTy).Contents (Elt F) :=
  Host.negf (Host.divf (Host.reduceAdd e (constant S_ .f32 0x00000000#32) reducesTo_S512_S_d0 h_S_)
    (constant S_ .f32 0x44000000#32))

abbrev ceTerm (c : BitVec 32) (x : (⟨S512x100000, .f32⟩ : BufTy).Contents (Elt F))
    (r t : (⟨S512, .i32⟩ : BufTy).Contents (Elt F)) : (⟨S_, .f32⟩ : BufTy).Contents (Elt F) :=
  mulf (constant S_ .f32 c) (negMean (atLabel x r t))

abbrev mixTerm (lam : (⟨S_, .f32⟩ : BufTy).Contents (Elt F)) (x : (⟨S512x100000, .f32⟩ : BufTy).Contents (Elt F))
    (r a b g d : (⟨S512, .i32⟩ : BufTy).Contents (Elt F)) : (⟨S_, .f32⟩ : BufTy).Contents (Elt F) :=
  addf (mulf lam (addf (ceTerm 0x3E4CCCCD#32 x r a) (ceTerm 0x3F4CCCCD#32 x r b)))
    (mulf (subf (constant S_ .f32 0x3F800000#32) lam) (addf (ceTerm 0x3E4CCCCD#32 x r g) (ceTerm 0x3F4CCCCD#32 x r d)))

theorem v18_term (W : Valuation τ sig (Elt F)) :
    after (opsPenA (F := F)) W (Proc.devRef .tc main_v18) = iotaInDim S512 32 0 := by
  simp only [opsPenA, ops, List.take, List.drop]
  after_results
theorem v34_term (W : Valuation τ sig (Elt F)) :
    after (opsPenA (F := F)) W (Proc.devRef .tc main_v34)
      = penTerm (W (Proc.devRef .tc main_v17)) (iotaInDim S512 32 0) (W (Proc.devRef .tc main_arg3)) := by
  simp only [opsPenA, ops, List.take, List.drop]
  after_results
theorem v50_term (W : Valuation τ sig (Elt F)) :
    after (opsPenB (F := F)) W (Proc.devRef .tc main_v50)
      = penTerm (W (Proc.devRef .tc main_v17)) (W (Proc.devRef .tc main_v18)) (W (Proc.devRef .tc main_arg4)) := by
  simp only [opsPenB, ops, List.take, List.drop]
  after_results
theorem v66_term (W : Valuation τ sig (Elt F)) :
    after (opsPenG (F := F)) W (Proc.devRef .tc main_v66)
      = penTerm (W (Proc.devRef .tc main_v17)) (W (Proc.devRef .tc main_v18)) (W (Proc.devRef .tc main_arg5)) := by
  simp only [opsPenG, ops, List.take, List.drop]
  after_results
theorem v82_term (W : Valuation τ sig (Elt F)) :
    after (opsPenD (F := F)) W (Proc.devRef .tc main_v82)
      = penTerm (W (Proc.devRef .tc main_v17)) (W (Proc.devRef .tc main_v18)) (W (Proc.devRef .tc main_arg6)) := by
  simp only [opsPenD, ops, List.take, List.drop]
  after_results
theorem v161_term (W : Valuation τ sig (Elt F)) :
    after (opsCeA (F := F)) W (Proc.devRef .tc main_v161)
      = ceTerm 0x3E4CCCCD#32 (W (Proc.devRef .tc main_v143)) (W (Proc.devRef .tc main_v18)) (W (Proc.devRef .tc main_arg3)) := by
  simp only [opsCeA, ops, List.take, List.drop]
  after_results
theorem v181_term (W : Valuation τ sig (Elt F)) :
    after (opsCeB (F := F)) W (Proc.devRef .tc main_v181)
      = mulf (W (Proc.devRef .tc main_arg2)) (addf (W (Proc.devRef .tc main_v161))
          (ceTerm 0x3F4CCCCD#32 (W (Proc.devRef .tc main_v143)) (W (Proc.devRef .tc main_v18)) (W (Proc.devRef .tc main_arg4)))) := by
  simp only [opsCeB, ops, List.take, List.drop]
  after_results
theorem v182_term (W : Valuation τ sig (Elt F)) :
    after (opsCeB (F := F)) W (Proc.devRef .tc main_v182)
      = subf (constant S_ .f32 0x3F800000#32) (W (Proc.devRef .tc main_arg2)) := by
  simp only [opsCeB, ops, List.take, List.drop]
  after_results
theorem v200_term (W : Valuation τ sig (Elt F)) :
    after (opsCeG (F := F)) W (Proc.devRef .tc main_v200)
      = ceTerm 0x3E4CCCCD#32 (W (Proc.devRef .tc main_v143)) (W (Proc.devRef .tc main_v18)) (W (Proc.devRef .tc main_arg5)) := by
  simp only [opsCeG, ops, List.take, List.drop]
  after_results
theorem v221_term (W : Valuation τ sig (Elt F)) :
    after (opsCeD (F := F)) W (Proc.devRef .tc main_v221)
      = addf (W (Proc.devRef .tc main_v181)) (mulf (W (Proc.devRef .tc main_v182)) (addf (W (Proc.devRef .tc main_v200))
          (ceTerm 0x3F4CCCCD#32 (W (Proc.devRef .tc main_v143)) (W (Proc.devRef .tc main_v18)) (W (Proc.devRef .tc main_arg6))))) := by
  simp only [opsCeD, ops, List.take, List.drop]
  after_results

/-- No value is defined twice, so each stretch reads the matrix, the counter and the arguments as the first found them. -/
theorem v221_thread (W : Valuation τ sig (Elt F)) :
    after (opsCeD (F := F)) (after opsCeG (after opsCeB (after opsCeA W))) (Proc.devRef .tc main_v221)
      = mixTerm (W (Proc.devRef .tc main_arg2)) (W (Proc.devRef .tc main_v143)) (W (Proc.devRef .tc main_v18))
          (W (Proc.devRef .tc main_arg3)) (W (Proc.devRef .tc main_arg4)) (W (Proc.devRef .tc main_arg5)) (W (Proc.devRef .tc main_arg6)) := by
  rw [v221_term]
  simp (disch := decide) only [RefStrip.strip]
  rw [v200_term, v181_term, v182_term]
  simp (disch := decide) only [RefStrip.strip]
  rw [v161_term]

theorem not_slt_zero_of_lt (v : BitVec 32) (h : v.toNat < 2147483648) : IntOp.cmpi .slt v 0#32 = 0#1 := by
  have hi : v.toInt = (v.toNat : Int) := by rw [BitVec.toInt_eq_toNat_cond, if_pos (by omega)]
  have hs : v.slt 0#32 = false := by
    simp only [BitVec.slt, hi, BitVec.toInt_zero, decide_eq_false_iff_not, not_lt]; omega
  show BitVec.ofBool (v.slt 0#32) = 0#1
  rw [hs]; rfl

theorem toInt_toNat_of_lt (v : BitVec 32) (h : v.toNat < 2147483648) : v.toInt.toNat = v.toNat := by
  rw [BitVec.toInt_eq_toNat_cond, if_pos (by omega)]; rfl

/-- A word that is not negative as a signed integer is not moved. -/
theorem wrapBy_apply (m : BitVec 32) (t : S512.Idx → BitVec 32) (n : Fin 512) (h : (t (ix1 n)).toNat < 2147483648) :
    wrapBy (F := Ideal) m t (ix1 n) = t (ix1 n) := by
  show Scalar.select (IntOp.cmpi .slt (t (ix1 n)) 0#32) _ _ = _
  rw [not_slt_zero_of_lt _ h, select_zero]

theorem bcastCol_apply {α : Type} (v : S512.Idx → α) (n : Fin 512) :
    broadcastInDim S512x1 ![0] bcast_S512_S512x1_0 v (ix2 n 0) = v (ix1 n) :=
  broadcastInDim_apply _ _ _ _ _ (fun a => by
    obtain rfl : a = 0 := Subsingleton.elim _ _
    rfl)

theorem idxPairs_row (r t : S512.Idx → BitVec 32) (n : Fin 512) :
    idxPairs (F := Ideal) r t (ix2 n 0) = wrapBy (F := Ideal) 512#32 r (ix1 n) :=
  (concatenate_pair_apply_left 1 _ _ concatenates_S512x1_S512x1_S512x2_d1 (ix2 n 0) rfl (ix2 n 0)
    (Fin.forall_fin_two.2 ⟨rfl, rfl⟩)).trans (bcastCol_apply _ n)

theorem idxPairs_lab (r t : S512.Idx → BitVec 32) (n : Fin 512) :
    idxPairs (F := Ideal) r t (ix2 n 1) = wrapBy (F := Ideal) 100000#32 t (ix1 n) :=
  (concatenate_pair_apply_right 1 _ _ concatenates_S512x1_S512x1_S512x2_d1 (ix2 n 1) rfl rfl (ix2 n 0)
    (Fin.forall_fin_two.2 ⟨fun _ => rfl, fun h => absurd rfl h⟩) rfl).trans (bcastCol_apply _ n)

/-- The counter reads n at n and a label below 100000 is its own column: wraps and clamps are the identity. -/
theorem atLabel_apply {α : Type} (x : S512x100000.Idx → α) (r t : S512.Idx → BitVec 32) (n : Fin 512)
    (hr : r (ix1 n) = BitVec.ofNat 32 n.val) (h : (t (ix1 n)).toNat < 100000) :
    Host.gather gather_S512x100000_S512x2_S512_n_01_n_n_01_1_11 x (idxPairs (F := Ideal) r t) (ix1 n)
      = x (ix2 n ⟨(t (ix1 n)).toNat, h⟩) := by
  have hn : (r (ix1 n)).toNat = n.val := by
    rw [hr, BitVec.toNat_ofNat]; exact Nat.mod_eq_of_lt (by have := n.isLt; omega)
  have hlt := n.isLt
  rw [gather_elem_apply]
  refine congrArg x (funext (Fin.forall_fin_two.2 ⟨Fin.ext ?_, Fin.ext ?_⟩))
  · show min (_ : BitVec 32).toInt.toNat (512 - 1) = n.val
    rw [idxPairs_row, wrapBy_apply _ _ _ (by omega), toInt_toNat_of_lt _ (by omega), hn]
    omega
  · show min (_ : BitVec 32).toInt.toNat (100000 - 1) = (t (ix1 n)).toNat
    rw [idxPairs_lab, wrapBy_apply _ _ _ (by omega), toInt_toNat_of_lt _ (by omega)]
    omega

theorem penTerm_apply (x : S512x100000.Idx → EReal) (r t : S512.Idx → BitVec 32) (n : Fin 512)
    (hr : r (ix1 n) = BitVec.ofNat 32 n.val) (h : (t (ix1 n)).toNat < 100000) :
    penTerm (F := Ideal) x r t (ix1 n) = x (ix2 n ⟨(t (ix1 n)).toNat, h⟩) - LossSpec.margin := by
  show Host.gather gather_S512x100000_S512x2_S512_n_01_n_n_01_1_11 x (idxPairs (F := Ideal) r t) (ix1 n) - _ = _
  rw [atLabel_apply x r t n hr h]
  rfl

local notation:50 lhs:51 " =ₑ " rhs:51 => @Eq EReal lhs rhs

theorem v18_row (W : Valuation τ sig (Elt Ideal)) (n : Fin 512) :
    ((after (opsPenA (F := Ideal)) W (Proc.devRef .tc main_v18) : S512.Idx → BitVec 32) (ValueIdx.ix1 n))
      = BitVec.ofNat 32 n.val := by
  rw [v18_term]
  rfl

/-- The sum along the one axis is the initial value 0 plus the sum over the 512 coordinates. -/
theorem negMean_ideal (e : S512.Idx → EReal) :
    (negMean (F := Ideal) e : S_.Idx → EReal) ix0 = LossSpec.ce (fun n : Fin 512 => e (ix1 n)) := by
  show -(Ideal.div (Ideal.hostReduceAdd reducesTo_S512_S_d0 e (Ideal.ofBits .f32 0x00000000#32) ix0)
      (Ideal.ofBits .f32 0x44000000#32)) = _
  rw [Ideal.hostReduceAdd_total reducesTo_S512_S_d0 (fun b => b.elim0), Ideal.ofBits_zero_f32,
    ← Equiv.sum_comp (idxEquiv1 (n := 512)).symm e]
  rfl

theorem ceTerm_ideal (c : BitVec 32) (x : S512x100000.Idx → EReal) (r t : S512.Idx → BitVec 32)
    (hr : ∀ n : Fin 512, r (ix1 n) = BitVec.ofNat 32 n.val) (h : ∀ n : Fin 512, (t (ix1 n)).toNat < 100000) :
    (ceTerm (F := Ideal) c x r t : S_.Idx → EReal) ix0
      = Ideal.ofBits .f32 c * LossSpec.ce (fun n : Fin 512 => x (ix2 n ⟨(t (ix1 n)).toNat, h n⟩)) := by
  show Ideal.ofBits .f32 c * (negMean (F := Ideal) (atLabel (F := Ideal) x r t) : S_.Idx → EReal) ix0 = _
  rw [negMean_ideal]
  congr 2
  funext n
  exact atLabel_apply x r t n (hr n) (h n)

theorem v221_ideal (W : Valuation τ sig (Elt Ideal))
    (hiota : ∀ n : Fin 512, ((W (Proc.devRef .tc main_v18) : S512.Idx → BitVec 32) (ValueIdx.ix1 n)) = BitVec.ofNat 32 n.val)
    (ha : ∀ n : Fin 512, ((W (Proc.devRef .tc main_arg3) : S512.Idx → BitVec 32) (ValueIdx.ix1 n)).toNat < 100000)
    (hb : ∀ n : Fin 512, ((W (Proc.devRef .tc main_arg4) : S512.Idx → BitVec 32) (ValueIdx.ix1 n)).toNat < 100000)
    (hg : ∀ n : Fin 512, ((W (Proc.devRef .tc main_arg5) : S512.Idx → BitVec 32) (ValueIdx.ix1 n)).toNat < 100000)
    (hd : ∀ n : Fin 512, ((W (Proc.devRef .tc main_arg6) : S512.Idx → BitVec 32) (ValueIdx.ix1 n)).toNat < 100000) :
    ((after (opsCeD (F := Ideal)) (after opsCeG (after opsCeB (after opsCeA W))) (Proc.devRef .tc main_v221) : S_.Idx → EReal) ix0)
      =ₑ LossSpec.lossOf ((W (Proc.devRef .tc main_arg2) : S_.Idx → EReal) ix0)
          (fun n : Fin 512 => (W (Proc.devRef .tc main_v143) : S512x100000.Idx → EReal)
            (ValueIdx.ix2 n ⟨((W (Proc.devRef .tc main_arg3) : S512.Idx → BitVec 32) (ValueIdx.ix1 n)).toNat, ha n⟩))
          (fun n : Fin 512 => (W (Proc.devRef .tc main_v143) : S512x100000.Idx → EReal)
            (ValueIdx.ix2 n ⟨((W (Proc.devRef .tc main_arg4) : S512.Idx → BitVec 32) (ValueIdx.ix1 n)).toNat, hb n⟩))
          (fun n : Fin 512 => (W (Proc.devRef .tc main_v143) : S512x100000.Idx → EReal)
            (ValueIdx.ix2 n ⟨((W (Proc.devRef .tc main_arg5) : S512.Idx → BitVec 32) (ValueIdx.ix1 n)).toNat, hg n⟩))
          (fun n : Fin 512 => (W (Proc.devRef .tc main_v143) : S512x100000.Idx → EReal)
            (ValueIdx.ix2 n ⟨((W (Proc.devRef .tc main_arg6) : S512.Idx → BitVec 32) (ValueIdx.ix1 n)).toNat, hd n⟩)) := by
  rw [v221_thread]
  unfold mixTerm
  rw [addf_apply, mulf_apply, mulf_apply, addf_apply, addf_apply, subf_apply,
    ceTerm_ideal _ _ _ _ hiota ha, ceTerm_ideal _ _ _ _ hiota hb, ceTerm_ideal _ _ _ _ hiota hg, ceTerm_ideal _ _ _ _ hiota hd]
  rfl

end Cert.ReferenceIdeal.RefGather

end
-- ==== Proof.LibScatterSet.lean ====
import Idealize.ShloMosaic.PureOps

namespace Idealize.ShloMosaic.ScatterSet
open Idealize.ShloMosaic

/-- A fold of overwriting steps holds v at i' if every step aimed at i' writes v and either the start holds v or some step is aimed there. -/
private theorem foldl_set_of_hits_agree {ι I α : Type}
    (tgt : ι → Option I) (val : ι → α) (step : (I → α) → ι → (I → α))
    (hnone : ∀ r n, tgt n = none → step r n = r)
    (hsame : ∀ r n i, tgt n = some i → step r n i = val n)
    (hother : ∀ r n i k, tgt n = some i → k ≠ i → step r n k = r k)
    (i' : I) (v : α) (L : List ι) :
    ∀ r : I → α, (∀ n ∈ L, tgt n = some i' → val n = v) →
      (r i' = v ∨ ∃ n ∈ L, tgt n = some i') → L.foldl step r i' = v := by
  induction L with
  | nil => exact fun r _ h => h.elim id fun ⟨_, hn, _⟩ => nomatch hn
  | cons n L ih =>
    intro r hall h
    refine ih _ (fun m hm => hall m (List.mem_cons_of_mem _ hm)) ?_
    by_cases htn : tgt n = some i'
    · exact Or.inl ((hsame r n i' htn).trans (hall n (List.mem_cons_self ..) htn))
    · rcases h with h | ⟨m, hm, hmt⟩
      · left
        cases htn' : tgt n with
        | none => rw [hnone r n htn']; exact h
        | some i => rw [hother r n i i' htn' fun e => htn (by rw [htn', e])]; exact h
      · rcases List.mem_cons.1 hm with rfl | hm'
        · exact absurd hmt htn
        · exact Or.inr ⟨m, hm', hmt⟩

private theorem scatter_set_eq {α : Type} {s si u : Shape} {w : Nat}
    (d : ScatterDims s si u) (x : s.Idx → α) (idx : IVec si w) (upd : u.Idx → α) (i' : s.Idx) (v : α)
    (hall : ∀ j : u.Idx, d.resultIdx? j idx = some i' → upd j = v)
    (h : x i' = v ∨ ∃ j : u.Idx, d.resultIdx? j idx = some i') :
    Host.scatter d (fun _ b => b) x idx upd i' = v := by
  unfold Host.scatter
  refine foldl_set_of_hits_agree (fun n => d.resultIdx? (u.rowMajor.symm n) idx)
    (fun n => upd (u.rowMajor.symm n)) _ ?_ ?_ ?_ i' v (List.finRange u.numel) x
    (fun n _ => hall (u.rowMajor.symm n)) (h.imp id fun ⟨j, hj⟩ => ⟨u.rowMajor j, List.mem_finRange _, by simpa using hj⟩)
  · intro r n hn
    simp only [hn]
  · intro r n i hn
    simp only [hn, if_true]
  · intro r n i k hn hk
    simp only [hn, if_neg hk]

/-- A position no update lands on keeps the operand's element. -/
theorem scatter_set_of_no_hit {α : Type} {s si u : Shape} {w : Nat}
    (d : ScatterDims s si u) (x : s.Idx → α) (idx : IVec si w) (upd : u.Idx → α) (i' : s.Idx)
    (h : ∀ j : u.Idx, d.resultIdx? j idx ≠ some i') :
    Host.scatter d (fun _ b => b) x idx upd i' = x i' :=
  scatter_set_eq d x idx upd i' _ (fun j hj => absurd hj (h j)) (Or.inl rfl)

/-- Repeated writes to one position are harmless when they all carry the same value. -/
theorem scatter_set_of_hits_agree {α : Type} {s si u : Shape} {w : Nat}
    (d : ScatterDims s si u) (x : s.Idx → α) (idx : IVec si w) (upd : u.Idx → α) (i' : s.Idx)
    (v : α)
    (hex : ∃ j : u.Idx, d.resultIdx? j idx = some i')
    (hall : ∀ j : u.Idx, d.resultIdx? j idx = some i' → upd j = v) :
    Host.scatter d (fun _ b => b) x idx upd i' = v :=
  scatter_set_eq d x idx upd i' v hall (Or.inr hex)

end Idealize.ShloMosaic.ScatterSet
-- ==== Proof.RefScatter.lean ====
import proofs.«415580_j72155450573201_1_alg».proof.Proof.RefGather
import proofs.«415580_j72155450573201_1_alg».proof.Proof.RefStrip
import proofs.«415580_j72155450573201_1_alg».proof.Proof.LibScatterSet

set_option maxRecDepth 16384
set_option maxHeartbeats 4000000

noncomputable section

namespace Cert.ReferenceIdeal.RefScatter

open Idealize.ShloMosaic Idealize.ShloMosaic.TcCoe Idealize.ShloMosaic.StableHlo Idealize.ShloMosaic.ValueIdx
open Cert.ReferenceIdeal Cert.ReferenceIdeal.Gen Cert.ReferenceIdeal.ValueP Cert.ReferenceIdeal.RefCut
open Cert.ReferenceIdeal.RefGather

variable {F : FTy → Type} [FloatOps F]

abbrev setAt (x : (⟨S512x100000, .f32⟩ : BufTy).Contents (Elt F)) (io t : (⟨S512, .i32⟩ : BufTy).Contents (Elt F))
    (u : (⟨S512, .f32⟩ : BufTy).Contents (Elt F)) : (⟨S512x100000, .f32⟩ : BufTy).Contents (Elt F) :=
  Host.scatter scatter_S512x100000_S512x2_S512_n_01_01_1 (fun _ b => b) x (idxPairs io t) u

abbrev fillWord (v : BitVec 32) : (⟨S512x100000, .f32⟩ : BufTy).Contents (Elt F) :=
  broadcastInDim S512x100000 ![] bcast_S_S512x100000 (constant S_ .f32 v)

theorem v98_term (W : Valuation τ sig (Elt F)) :
    after (opsSetA (F := F)) W (Proc.devRef .tc main_v98)
      = mulf (fillWord 0x41F00000#32) (setAt (W (Proc.devRef .tc main_v17)) (W (Proc.devRef .tc main_v18)) (W (Proc.devRef .tc main_arg3)) (W (Proc.devRef .tc main_v34))) := by
  simp only [opsSetA, ops, List.take, List.drop]
  after_results
theorem v112_term (W : Valuation τ sig (Elt F)) :
    after (opsSetB (F := F)) W (Proc.devRef .tc main_v112)
      = setAt (W (Proc.devRef .tc main_v98)) (W (Proc.devRef .tc main_v18)) (W (Proc.devRef .tc main_arg4)) (W (Proc.devRef .tc main_v50)) := by
  simp only [opsSetB, ops, List.take, List.drop]
  after_results
theorem v126_term (W : Valuation τ sig (Elt F)) :
    after (opsSetG (F := F)) W (Proc.devRef .tc main_v126)
      = setAt (W (Proc.devRef .tc main_v112)) (W (Proc.devRef .tc main_v18)) (W (Proc.devRef .tc main_arg5)) (W (Proc.devRef .tc main_v66)) := by
  simp only [opsSetG, ops, List.take, List.drop]
  after_results
theorem v142_term (W : Valuation τ sig (Elt F)) :
    after (opsSetD (F := F)) W (Proc.devRef .tc main_v142)
      = Host.divf (setAt (W (Proc.devRef .tc main_v126)) (W (Proc.devRef .tc main_v18)) (W (Proc.devRef .tc main_arg6)) (W (Proc.devRef .tc main_v82))) (fillWord 0x3F800000#32) := by
  simp only [opsSetD, ops, List.take, List.drop]
  after_results

/-- No value is defined twice, so each stretch reads the counter, the labels and the updates as the first found them. -/
theorem v142_thread (W : Valuation τ sig (Elt F)) :
    after (opsSetD (F := F)) (after opsSetG (after opsSetB (after opsSetA W))) (Proc.devRef .tc main_v142)
      = Host.divf (setAt (setAt (setAt (mulf (fillWord 0x41F00000#32) (setAt (W (Proc.devRef .tc main_v17)) (W (Proc.devRef .tc main_v18)) (W (Proc.devRef .tc main_arg3)) (W (Proc.devRef .tc main_v34))))
          (W (Proc.devRef .tc main_v18)) (W (Proc.devRef .tc main_arg4)) (W (Proc.devRef .tc main_v50))) (W (Proc.devRef .tc main_v18)) (W (Proc.devRef .tc main_arg5)) (W (Proc.devRef .tc main_v66))) (W (Proc.devRef .tc main_v18)) (W (Proc.devRef .tc main_arg6)) (W (Proc.devRef .tc main_v82)))
          (fillWord 0x3F800000#32) := by
  rw [v142_term]
  simp (disch := decide) only [RefStrip.strip]
  rw [v126_term]
  simp (disch := decide) only [RefStrip.strip]
  rw [v112_term]
  simp (disch := decide) only [RefStrip.strip]
  rw [v98_term]

/-- Both operand axes are inserted and named by the map: update j's target on axis a is the word at (j, a), read signed. -/
theorem start_window {w : Nat} (idx : IVec S512x2 w) (j : Fin 512) (a : Fin 2) :
    scatter_S512x100000_S512x2_S512_n_01_01_1.start (ix1 j) idx a + (scatter_S512x100000_S512x2_S512_n_01_01_1.window (ix1 j) a : Nat) = (idx (ix2 j a)).toInt := by
  have hw : scatter_S512x100000_S512x2_S512_n_01_01_1.window (ix1 j) a = 0 := by
    unfold ScatterDims.window
    rw [dif_neg]
    rw [show scatter_S512x100000_S512x2_S512_n_01_01_1.sKept = [] from by decide]
    exact List.not_mem_nil
  rw [hw, Nat.cast_zero, add_zero]
  clear hw
  revert a
  refine Fin.forall_fin_two.2 ⟨?_, ?_⟩ <;>
  · unfold ScatterDims.start
    rw [dif_pos (by decide)]
    exact congrArg (fun i => (idx i).toInt) (funext (Fin.forall_fin_two.2 ⟨rfl, rfl⟩))

theorem resultIdx_val {w : Nat} (idx : IVec S512x2 w) (j : Fin 512) (i : S512x100000.Idx)
    (h : scatter_S512x100000_S512x2_S512_n_01_01_1.resultIdx? (ix1 j) idx = some i) (a : Fin 2) : ((i a).val : Int) = (idx (ix2 j a)).toInt := by
  unfold ScatterDims.resultIdx? at h
  split at h
  · next hin =>
    rw [← Option.some.inj h, ← start_window]
    exact Int.toNat_of_nonneg (hin a).1
  · cases h

theorem resultIdx_of {w : Nat} (idx : IVec S512x2 w) (j r : Fin 512) (c : Fin 100000)
    (h0 : (idx (ix2 j 0)).toInt = (r.val : Int)) (h1 : (idx (ix2 j 1)).toInt = (c.val : Int)) :
    scatter_S512x100000_S512x2_S512_n_01_01_1.resultIdx? (ix1 j) idx = some (ix2 r c) := by
  have hv : ∀ a : Fin 2, (idx (ix2 j a)).toInt = (((ix2 r c : S512x100000.Idx) a).val : Int) :=
    Fin.forall_fin_two.2 ⟨h0, h1⟩
  unfold ScatterDims.resultIdx?
  rw [dif_pos fun a => by
    rw [start_window, hv]; exact ⟨by omega, Int.ofNat_lt.2 ((ix2 r c : S512x100000.Idx) a).isLt⟩]
  exact congrArg some (funext fun a => Fin.ext (by
    show (scatter_S512x100000_S512x2_S512_n_01_01_1.start (ix1 j) idx a + (scatter_S512x100000_S512x2_S512_n_01_01_1.window (ix1 j) a : Nat)).toNat = _
    rw [start_window, hv]; rfl))

/-- Update j lands in row j, so only update n can land on (n, c), and it does exactly when c is the column row n names. -/
theorem scatter_pairs_apply {α : Type} {w : Nat} (x : S512x100000.Idx → α) (idx : IVec S512x2 w) (upd : S512.Idx → α)
    (h0 : ∀ j : Fin 512, (idx (ix2 j 0)).toInt = (j.val : Int))
    (n : Fin 512) (cn : Fin 100000) (h1 : (idx (ix2 n 1)).toInt = (cn.val : Int)) (c : Fin 100000) :
    Host.scatter scatter_S512x100000_S512x2_S512_n_01_01_1 (fun _ b => b) x idx upd (ix2 n c)
      = if c = cn then upd (ix1 n) else x (ix2 n c) := by
  have hrow : ∀ j : S512.Idx, scatter_S512x100000_S512x2_S512_n_01_01_1.resultIdx? j idx = some (ix2 n c) → j = ix1 n ∧ c = cn := by
    intro j hj
    obtain ⟨a, rfl⟩ : ∃ a, j = ix1 a := ⟨j 0, eq_ix1 j⟩
    have hr := resultIdx_val idx a _ hj 0
    rw [h0 a] at hr
    obtain rfl : a = n := Fin.ext (by exact_mod_cast hr.symm)
    have hc := resultIdx_val idx a _ hj 1
    rw [h1] at hc
    exact ⟨rfl, Fin.ext (by exact_mod_cast hc)⟩
  by_cases hc : c = cn
  · subst hc
    rw [if_pos rfl]
    exact ScatterSet.scatter_set_of_hits_agree _ x idx upd _ _ ⟨ix1 n, resultIdx_of idx n n c (h0 n) h1⟩
      fun j hj => by rw [(hrow j hj).1]
  · rw [if_neg hc]
    exact ScatterSet.scatter_set_of_no_hit _ x idx upd _ fun j hj => hc (hrow j hj).2

theorem toInt_of_lt (v : BitVec 32) (h : v.toNat < 2147483648) : v.toInt = (v.toNat : Int) := by
  rw [BitVec.toInt_eq_toNat_cond, if_pos (by omega)]

/-- With the counter the identity and label n below 100000, position (n, c) holds update n at the label's column. -/
theorem setAt_apply (x : S512x100000.Idx → EReal) (io t : S512.Idx → BitVec 32) (u : S512.Idx → EReal)
    (hiota : ∀ j : Fin 512, io (ix1 j) = BitVec.ofNat 32 j.val) (n : Fin 512) (h : (t (ix1 n)).toNat < 100000)
    (c : Fin 100000) :
    setAt (F := Ideal) x io t u (ix2 n c) = if c = ⟨(t (ix1 n)).toNat, h⟩ then u (ix1 n) else x (ix2 n c) := by
  have hio : ∀ j : Fin 512, (io (ix1 j)).toNat = j.val := fun j => by
    rw [hiota j, BitVec.toNat_ofNat]; have := j.isLt; omega
  refine scatter_pairs_apply x (idxPairs (F := Ideal) io t) u (fun j => ?_) n _ ?_ c
  · have := hio j; have := j.isLt
    rw [idxPairs_row, wrapBy_apply _ _ _ (by omega), toInt_of_lt _ (by omega), hio j]
  · rw [idxPairs_lab, wrapBy_apply _ _ _ (by omega), toInt_of_lt _ (by omega)]

theorem fillWord_apply (v : BitVec 32) (i : S512x100000.Idx) : fillWord (F := Ideal) v i = Ideal.ofBits .f32 v :=
  broadcastInDim_scalar_apply bcast_S_S512x100000 (constant (F := Ideal) S_ .f32 v) i

theorem div_one_eq (x : EReal) : Ideal.div x 1 = x := by
  rw [Ideal.div, if_neg one_ne_zero, ← EReal.coe_one, ← EReal.coe_inv, inv_one, EReal.coe_one, mul_one]

local notation:50 lhs:51 " =ₑ " rhs:51 => @Eq EReal lhs rhs
local notation:70 lhs:70 " *ₑ " rhs:71 => @HMul.hMul EReal EReal EReal _ lhs rhs

/-- Row n is 30 times the cosines overwritten in order at the four labels' columns, the first value scaled too. -/
theorem v142_row_spec (W : Valuation τ sig (Elt Ideal)) (n : Fin 512)
    (hiota : ∀ j : Fin 512, ((W (Proc.devRef .tc main_v18) : S512.Idx → BitVec 32) (ValueIdx.ix1 j)) = BitVec.ofNat 32 j.val)
    (hA : ((W (Proc.devRef .tc main_arg3) : S512.Idx → BitVec 32) (ValueIdx.ix1 n)).toNat < 100000)
    (hB : ((W (Proc.devRef .tc main_arg4) : S512.Idx → BitVec 32) (ValueIdx.ix1 n)).toNat < 100000)
    (hG : ((W (Proc.devRef .tc main_arg5) : S512.Idx → BitVec 32) (ValueIdx.ix1 n)).toNat < 100000)
    (hD : ((W (Proc.devRef .tc main_arg6) : S512.Idx → BitVec 32) (ValueIdx.ix1 n)).toNat < 100000)
    (X : LossSpec.Inp) (Wt : LossSpec.Wts)
    (h17 : ∀ c' : Fin 100000, ((W (Proc.devRef .tc main_v17) : S512x100000.Idx → EReal) (ValueIdx.ix2 n c')) =ₑ LossSpec.cosv X Wt n c')
    (h34 : ((W (Proc.devRef .tc main_v34) : S512.Idx → EReal) (ValueIdx.ix1 n)) =ₑ LossSpec.cosv X Wt n ⟨((W (Proc.devRef .tc main_arg3) : S512.Idx → BitVec 32) (ValueIdx.ix1 n)).toNat, hA⟩ - LossSpec.margin)
    (h50 : ((W (Proc.devRef .tc main_v50) : S512.Idx → EReal) (ValueIdx.ix1 n)) =ₑ LossSpec.cosv X Wt n ⟨((W (Proc.devRef .tc main_arg4) : S512.Idx → BitVec 32) (ValueIdx.ix1 n)).toNat, hB⟩ - LossSpec.margin)
    (h66 : ((W (Proc.devRef .tc main_v66) : S512.Idx → EReal) (ValueIdx.ix1 n)) =ₑ LossSpec.cosv X Wt n ⟨((W (Proc.devRef .tc main_arg5) : S512.Idx → BitVec 32) (ValueIdx.ix1 n)).toNat, hG⟩ - LossSpec.margin)
    (h82 : ((W (Proc.devRef .tc main_v82) : S512.Idx → EReal) (ValueIdx.ix1 n)) =ₑ LossSpec.cosv X Wt n ⟨((W (Proc.devRef .tc main_arg6) : S512.Idx → BitVec 32) (ValueIdx.ix1 n)).toNat, hD⟩ - LossSpec.margin)
    (c : Fin 100000) :
    ((after (opsSetD (F := Ideal)) (after (opsSetG (F := Ideal)) (after (opsSetB (F := Ideal)) (after (opsSetA (F := Ideal)) W))) (Proc.devRef .tc main_v142) : S512x100000.Idx → EReal) (ValueIdx.ix2 n c))
      =ₑ LossSpec.outRow X Wt n ⟨((W (Proc.devRef .tc main_arg3) : S512.Idx → BitVec 32) (ValueIdx.ix1 n)).toNat, hA⟩ ⟨((W (Proc.devRef .tc main_arg4) : S512.Idx → BitVec 32) (ValueIdx.ix1 n)).toNat, hB⟩ ⟨((W (Proc.devRef .tc main_arg5) : S512.Idx → BitVec 32) (ValueIdx.ix1 n)).toNat, hG⟩ ⟨((W (Proc.devRef .tc main_arg6) : S512.Idx → BitVec 32) (ValueIdx.ix1 n)).toNat, hD⟩ c := by
  rw [v142_thread, hostDivf_apply, fillWord_apply, Ideal.ofBits_one_f32, div_one_eq, setAt_apply _ _ _ _ hiota n hD,
    setAt_apply _ _ _ _ hiota n hG, setAt_apply _ _ _ _ hiota n hB, mulf_apply, fillWord_apply,
    setAt_apply _ _ _ _ hiota n hA, h34, h50, h66, h82, h17]
  simp only [LossSpec.outRow, Function.update_apply, mul_ite]
  rfl

end Cert.ReferenceIdeal.RefScatter

end
-- ==== Proof.RefLsm.lean ====
import proofs.«415580_j72155450573201_1_alg».proof.Proof.RefCut
import proofs.«415580_j72155450573201_1_alg».proof.Proof.LossSpec
import Idealize.ShloMosaic.Lib.StableHlo.Run
import Idealize.ShloMosaic.Lib.Pipeline.Frame
import Idealize.ShloMosaic.Lib.Pipeline.Value
import Idealize.ShloMosaic.Lib.ValueIdx
import Idealize.ShloMosaic.PureOps.Ideal
import Idealize.ShloMosaic.PureOps.Ideal.Laws

set_option maxRecDepth 16384
set_option maxHeartbeats 4000000

noncomputable section

namespace Cert.ReferenceIdeal.RefLsm

open Idealize.ShloMosaic Idealize.ShloMosaic.TcCoe Idealize.ShloMosaic.StableHlo Idealize.ShloMosaic.ValueIdx
open Cert.ReferenceIdeal Cert.ReferenceIdeal.Gen Cert.ReferenceIdeal.ValueP Cert.ReferenceIdeal.RefCut
open scoped BigOperators

section AnyInstance

variable {F : FTy → Type} [FloatOps F]

noncomputable abbrev rowMax (x : (⟨S512x100000, .f32⟩ : BufTy).Contents (Elt F)) : (⟨S512, .f32⟩ : BufTy).Contents (Elt F) :=
  maximumf (broadcastInDim S512 ![] bcast_S_S512 (constant S_ .f32 0xFF800000#32))
    (Host.reduce FloatOps.maximumf x (constant S_ .f32 0xFF800000#32) reducesTo_S512x100000_S512_d1 h_S_)

noncomputable abbrev shifted (x : (⟨S512x100000, .f32⟩ : BufTy).Contents (Elt F)) : (⟨S512x100000, .f32⟩ : BufTy).Contents (Elt F) :=
  subf x (broadcastInDim S512x100000 ![0, 1] bcast_S512x1_S512x100000_0_1
    (broadcastInDim S512x1 ![0] bcast_S512_S512x1_0 (rowMax x)))

noncomputable abbrev logSum (x : (⟨S512x100000, .f32⟩ : BufTy).Contents (Elt F)) : (⟨S512x1, .f32⟩ : BufTy).Contents (Elt F) :=
  Host.log (broadcastInDim S512x1 ![0] bcast_S512_S512x1_0
    (Host.reduceAdd (Host.exp (shifted x)) (constant S_ .f32 0x00000000#32) reducesTo_S512x100000_S512_d1 h_S_))

noncomputable abbrev lsmTerm (x : (⟨S512x100000, .f32⟩ : BufTy).Contents (Elt F)) : (⟨S512x100000, .f32⟩ : BufTy).Contents (Elt F) :=
  subf (shifted x) (broadcastInDim S512x100000 ![0, 1] bcast_S512x1_S512x100000_0_1 (logSum x))

theorem ofBuf_toBuf {T : BufTy} (x : StableHlo.TRef sig T) (v : T.Contents (Elt F)) : x.ofBuf (x.toBuf v) = v := by
  obtain ⟨r, rfl, _, _⟩ := x
  rfl

theorem v143_term (W : Valuation τ sig (Elt F)) :
    after (opsLsm (F := F)) W (Proc.devRef .tc main_v143) = lsmTerm (W (Proc.devRef .tc main_v142)) := by
  simp only [opsLsm, ops, List.take_succ_cons, List.take_zero, List.drop_succ_cons, List.drop_zero,
    StableHlo.TRef.nullary, StableHlo.TRef.unary, StableHlo.TRef.binary]
  after_results
  simp only [ofBuf_toBuf]
  rfl

end AnyInstance

section AtIdeal

/-- a row's log-softmax at a column as the operations compute it: shifted by the row maximum taken from minus infinity -/
def shiftedLsm (f : Fin 100000 → EReal) (l : Fin 100000) : EReal :=
  (f l - max (⊥ : EReal) (Finset.univ.sup f)) - Ideal.log (0 + ∑ c', Ideal.exp (f c' - max (⊥ : EReal) (Finset.univ.sup f)))

theorem exp_at {s : Shape} (a : s.Idx → EReal) (j : s.Idx) :
    (Host.exp (F := Ideal) (φ := .f32) a : s.Idx → EReal) j = Ideal.exp (a j) := rfl
theorem log_at {s : Shape} (a : s.Idx → EReal) (j : s.Idx) :
    (Host.log (F := Ideal) (φ := .f32) a : s.Idx → EReal) j = Ideal.log (a j) := rfl

theorem ofBits_neg_inf : Ideal.ofBits .f32 0xFF800000#32 = (⊥ : EReal) := by simp [Ideal.ofBits, Ideal.ieee]

theorem negInf_apply (j : S512.Idx) :
    (broadcastInDim S512 ![] bcast_S_S512 (constant (F := Ideal) S_ .f32 0xFF800000#32) : S512.Idx → EReal) j = ⊥ :=
  ofBits_neg_inf

theorem bcastCol_apply {α : Type} (v : S512.Idx → α) (n : Fin 512) :
    broadcastInDim S512x1 ![0] bcast_S512_S512x1_0 v (ix2 n 0) = v (ix1 n) :=
  broadcastInDim_apply _ _ _ _ _ (fun a => by
    obtain rfl : a = 0 := Subsingleton.elim _ _
    rfl)

theorem bcastRow_apply {α : Type} (v : S512x1.Idx → α) (n : Fin 512) (c : Fin 100000) :
    broadcastInDim S512x100000 ![0, 1] bcast_S512x1_S512x100000_0_1 v (ix2 n c) = v (ix2 n 0) :=
  broadcastInDim_apply _ _ _ _ _ (fun a => by
    match a with
    | ⟨0, _⟩ => rfl
    | ⟨1, _⟩ => rfl)

theorem reduces_d1 : S512x100000.Reduces [1] S512 := by decide

theorem lift_row (n : Fin 512) (k : Fin 100000) : reduces_d1.lift (ix1 n) k = ix2 n k := by
  funext c
  refine Fin.ext ?_
  match c with
  | ⟨0, _⟩ => rfl
  | ⟨1, _⟩ => rfl

theorem rowFold_apply (x : S512x100000.Idx → EReal) (n : Fin 512) :
    (Host.reduce (FloatOps.maximumf (F := Ideal) (φ := .f32)) x (constant (F := Ideal) S_ .f32 0xFF800000#32)
        reducesTo_S512x100000_S512_d1 h_S_ : S512.Idx → EReal) (ix1 n)
      = Finset.univ.sup fun c' : Fin 100000 => x (ix2 n c') := by
  rw [Host.reduce_eq_fold_single (FloatOps.maximumf (F := Ideal) (φ := .f32)) x _ reducesTo_S512x100000_S512_d1 reduces_d1 h_S_ (ix1 n)]
  have hf : (x ∘ reduces_d1.lift (ix1 n)) = fun c' : Fin 100000 => x (ix2 n c') :=
    funext fun k => congrArg x (lift_row n k)
  have h0 : (constant (F := Ideal) S_ .f32 0xFF800000#32 : S_.Idx → EReal) (Shape.Idx.first h_S_) = ⊥ := ofBits_neg_inf
  rw [hf, h0]
  rfl

theorem rowSum_apply (y : S512x100000.Idx → EReal) (n : Fin 512) :
    (Host.reduceAdd (F := Ideal) (φ := .f32) y (constant S_ .f32 0x00000000#32) reducesTo_S512x100000_S512_d1 h_S_ : S512.Idx → EReal) (ix1 n)
      = 0 + ∑ c' : Fin 100000, y (ix2 n c') := by
  show Ideal.hostReduceAdd reducesTo_S512x100000_S512_d1 y (Ideal.ofBits .f32 0x00000000#32) (ix1 n) = _
  rw [Ideal.hostReduceAdd_single reducesTo_S512x100000_S512_d1 reduces_d1, Ideal.ofBits_zero_f32]
  exact congrArg (fun s : EReal => 0 + s) (Finset.sum_congr rfl fun k _ => congrArg y (lift_row n k))

noncomputable abbrev mx (O : S512x100000.Idx → EReal) (n : Fin 512) : EReal :=
  max ⊥ (Finset.univ.sup fun c' : Fin 100000 => O (ix2 n c'))

theorem rowMax_apply (x : S512x100000.Idx → EReal) (n : Fin 512) : rowMax (F := Ideal) x (ix1 n) = mx x n := by
  rw [rowMax, maximumf_apply, negInf_apply, rowFold_apply]

theorem shifted_apply (x : S512x100000.Idx → EReal) (n : Fin 512) (c : Fin 100000) :
    shifted (F := Ideal) x (ix2 n c) = x (ix2 n c) - mx x n := by
  rw [shifted, subf_apply, bcastRow_apply, bcastCol_apply, rowMax_apply]

theorem logSum_apply (x : S512x100000.Idx → EReal) (n : Fin 512) :
    logSum (F := Ideal) x (ix2 n 0) = Ideal.log (0 + ∑ c' : Fin 100000, Ideal.exp (x (ix2 n c') - mx x n)) := by
  rw [logSum, log_at, bcastCol_apply, rowSum_apply]
  exact congrArg (fun s : EReal => Ideal.log (0 + s))
    (Finset.sum_congr rfl fun c' _ => (exp_at _ _).trans (congrArg Ideal.exp (shifted_apply x n c')))

theorem lsmTerm_apply (x : S512x100000.Idx → EReal) (n : Fin 512) (c : Fin 100000) :
    lsmTerm (F := Ideal) x (ix2 n c)
      = (x (ix2 n c) - mx x n) - Ideal.log (0 + ∑ c' : Fin 100000, Ideal.exp (x (ix2 n c') - mx x n)) := by
  rw [lsmTerm, subf_apply, bcastRow_apply, shifted_apply, logSum_apply]

local notation:50 lhs:51 " =ₑ " rhs:51 => @Eq EReal lhs rhs

theorem v143_row (W : Valuation τ sig (Elt Ideal)) (n : Fin 512) (c : Fin 100000) :
    ((after (opsLsm (F := Ideal)) W (Proc.devRef .tc main_v143) : S512x100000.Idx → EReal) (ValueIdx.ix2 n c))
      =ₑ shiftedLsm (fun c' => (W (Proc.devRef .tc main_v142) : S512x100000.Idx → EReal) (ValueIdx.ix2 n c')) c := by
  rw [v143_term]
  exact lsmTerm_apply _ n c

end AtIdeal

end Cert.ReferenceIdeal.RefLsm

end
-- ==== Proof.RefValue.lean ====
import proofs.«415580_j72155450573201_1_alg».proof.Proof.RefCut
import proofs.«415580_j72155450573201_1_alg».proof.Proof.RefStrip
import proofs.«415580_j72155450573201_1_alg».proof.Proof.RefHead
import proofs.«415580_j72155450573201_1_alg».proof.Proof.RefGather
import proofs.«415580_j72155450573201_1_alg».proof.Proof.RefScatter
import proofs.«415580_j72155450573201_1_alg».proof.Proof.RefLsm
import proofs.«415580_j72155450573201_1_alg».proof.Proof.LossSpec
import proofs.«415580_j72155450573201_1_alg».proof.Proof.LossReal
import proofs.«415580_j72155450573201_1_alg».proof.Proof.RowAlgebra
import Idealize.ShloMosaic.Lib.StableHlo.Run
import Idealize.ShloMosaic.Lib.ValueIdx
import Idealize.ShloMosaic.PureOps.Ideal

set_option maxRecDepth 16384
set_option maxHeartbeats 4000000

noncomputable section

namespace Cert.ReferenceIdeal.RefValue

open Idealize.ShloMosaic Idealize.ShloMosaic.TcCoe Idealize.ShloMosaic.StableHlo Idealize.ShloMosaic.ValueIdx
open Cert.ReferenceIdeal Cert.ReferenceIdeal.Gen Cert.ReferenceIdeal.ValueP Cert.ReferenceIdeal.RefCut
open Cert.ReferenceIdeal.RefStrip Cert.ReferenceIdeal.RefLsm
open scoped BigOperators

local notation:50 lhs:51 " =ₑ " rhs:51 => @Eq EReal lhs rhs

/-- a buffer read after a nest of stretches is read where the innermost stretch that defines it leaves it -/
local macro "strip" loc:(Lean.Parser.Tactic.location)? : tactic => `(tactic| simp (disch := decide) only [RefStrip.strip] $(loc)?)

/-- log-softmax does not depend on the shift, and the specification's overwritten row is a row of reals -/
theorem lsm_of_shifted {X : LossSpec.Inp} {Wt : LossSpec.Wts}
    (hX : ∀ i, ∃ r : ℝ, X i = (r : EReal)) (hW : ∀ i, ∃ r : ℝ, Wt i = (r : EReal))
    (n : Fin 512) (ca cb cg cd l : Fin 100000) :
    shiftedLsm (LossSpec.outRow X Wt n ca cb cg cd) l = LossSpec.lsm (LossSpec.outRow X Wt n ca cb cg cd) l := by
  rw [show LossSpec.outRow X Wt n ca cb cg cd = fun c' => ((LossReal.outR hX hW n ca cb cg cd c' : ℝ) : EReal) from
    funext (LossReal.outRow_eq hX hW n ca cb cg cd)]
  exact RowAlgebra.reference_row _ (LossReal.outR hX hW n ca cb cg cd l)

variable (W : Valuation τ sig (Elt Ideal))

abbrev X : LossSpec.Inp := W (Proc.devRef .tc main_arg0)
abbrev Wt : LossSpec.Wts := W (Proc.devRef .tc main_arg1)
abbrev la : LossSpec.Lab := W (Proc.devRef .tc main_arg3)
abbrev lb : LossSpec.Lab := W (Proc.devRef .tc main_arg4)
abbrev lg : LossSpec.Lab := W (Proc.devRef .tc main_arg5)
abbrev ld : LossSpec.Lab := W (Proc.devRef .tc main_arg6)

abbrev afterCos : Valuation τ sig (Elt Ideal) := after opsCos (after opsWhat (after opsXhat W))
abbrev afterPenA : Valuation τ sig (Elt Ideal) := after opsPenA (afterCos W)
abbrev afterPenB : Valuation τ sig (Elt Ideal) := after opsPenB (afterPenA W)
abbrev afterPenG : Valuation τ sig (Elt Ideal) := after opsPenG (afterPenB W)
abbrev afterPen : Valuation τ sig (Elt Ideal) := after opsPenD (afterPenG W)
abbrev afterSet : Valuation τ sig (Elt Ideal) := after opsSetD (after opsSetG (after opsSetB (after opsSetA (afterPen W))))
abbrev afterLsm : Valuation τ sig (Elt Ideal) := after opsLsm (afterSet W)

theorem v17_spec (n : Fin 512) (c : Fin 100000) :
    ((afterCos W (Proc.devRef .tc main_v17) : S512x100000.Idx → EReal) (ix2 n c)) =ₑ LossSpec.cosv (X W) (Wt W) n c :=
  RefHead.v17_cosv _ (X W) (Wt W) (fun n k => by strip; exact RefHead.v8_at W n k)
    (fun c k => by have h := RefHead.v16_at (after opsXhat W) c k; strip at h; exact h) n c

theorem iota (n : Fin 512) :
    ((afterPenA W (Proc.devRef .tc main_v18) : S512.Idx → BitVec 32) (ix1 n)) = BitVec.ofNat 32 n.val :=
  RefGather.v18_row (afterCos W) n

section Values

variable (ha : ∀ n : Fin 512, (la W (ix1 n)).toNat < 100000) (hb : ∀ n : Fin 512, (lb W (ix1 n)).toNat < 100000)
  (hg : ∀ n : Fin 512, (lg W (ix1 n)).toNat < 100000) (hd : ∀ n : Fin 512, (ld W (ix1 n)).toNat < 100000)

include ha in
theorem v34_spec (n : Fin 512) : ((afterPenA W (Proc.devRef .tc main_v34) : S512.Idx → EReal) (ix1 n))
    =ₑ LossSpec.cosv (X W) (Wt W) n ⟨_, ha n⟩ - LossSpec.margin := by
  have h := (congrFun (RefGather.v34_term (afterCos W)) (ix1 n)).trans
    (RefGather.penTerm_apply _ _ _ n rfl (by strip; exact ha n))
  strip at h
  rw [v17_spec] at h
  exact h

include hb in
theorem v50_spec (n : Fin 512) : ((afterPenB W (Proc.devRef .tc main_v50) : S512.Idx → EReal) (ix1 n))
    =ₑ LossSpec.cosv (X W) (Wt W) n ⟨_, hb n⟩ - LossSpec.margin := by
  have h := (congrFun (RefGather.v50_term (afterPenA W)) (ix1 n)).trans
    (RefGather.penTerm_apply _ _ _ n (iota W n) (by strip; exact hb n))
  strip at h
  rw [v17_spec] at h
  exact h

include hg in
theorem v66_spec (n : Fin 512) : ((afterPenG W (Proc.devRef .tc main_v66) : S512.Idx → EReal) (ix1 n))
    =ₑ LossSpec.cosv (X W) (Wt W) n ⟨_, hg n⟩ - LossSpec.margin := by
  have h := (congrFun (RefGather.v66_term (afterPenB W)) (ix1 n)).trans
    (RefGather.penTerm_apply _ _ _ n (by strip; exact iota W n) (by strip; exact hg n))
  strip at h
  rw [v17_spec] at h
  exact h

include hd in
theorem v82_spec (n : Fin 512) : ((afterPen W (Proc.devRef .tc main_v82) : S512.Idx → EReal) (ix1 n))
    =ₑ LossSpec.cosv (X W) (Wt W) n ⟨_, hd n⟩ - LossSpec.margin := by
  have h := (congrFun (RefGather.v82_term (afterPenG W)) (ix1 n)).trans
    (RefGather.penTerm_apply _ _ _ n (by strip; exact iota W n) (by strip; exact hd n))
  strip at h
  rw [v17_spec] at h
  exact h

/-- the specification's overwritten row of example n -/
abbrev row (n : Fin 512) : Fin 100000 → EReal :=
  LossSpec.outRow (X W) (Wt W) n ⟨_, ha n⟩ ⟨_, hb n⟩ ⟨_, hg n⟩ ⟨_, hd n⟩

include ha hb hg hd in
theorem v142_spec (n : Fin 512) (c' : Fin 100000) :
    ((afterSet W (Proc.devRef .tc main_v142) : S512x100000.Idx → EReal) (ix2 n c')) =ₑ row W ha hb hg hd n c' := by
  have h := RefScatter.v142_row_spec (afterPen W) n (by strip; exact iota W) (by strip; exact ha n) (by strip; exact hb n)
    (by strip; exact hg n) (by strip; exact hd n) (X W) (Wt W) (fun c'' => by strip; exact v17_spec W n c'')
    (by strip; exact v34_spec W ha n) (by strip; exact v50_spec W hb n) (by strip; exact v66_spec W hg n)
    (by strip; exact v82_spec W hd n) c'
  strip at h
  exact h

variable (hX : ∀ i, ∃ r : ℝ, X W i = (r : EReal)) (hW : ∀ i, ∃ r : ℝ, Wt W i = (r : EReal))

include ha hb hg hd hX hW in
theorem v143_spec (n : Fin 512) (l : Fin 100000) :
    ((afterLsm W (Proc.devRef .tc main_v143) : S512x100000.Idx → EReal) (ix2 n l))
      =ₑ LossSpec.lsm (row W ha hb hg hd n) l :=
  (RefLsm.v143_row (afterSet W) n l).trans ((congrArg (shiftedLsm · l) (funext (v142_spec W ha hb hg hd n))).trans
    (lsm_of_shifted hX hW n _ _ _ _ l))

include ha hb hg hd hX hW in
/-- the result from any starting contents: the specification's mixed loss over each example's overwritten row -/
theorem result_at :
    ((after (ops (F := Ideal)) W (Proc.devRef .tc main_v221) : S_.Idx → EReal) ix0)
      =ₑ LossSpec.lossOf ((W (Proc.devRef .tc main_arg2) : S_.Idx → EReal) ix0)
          (fun n => LossSpec.lsm (row W ha hb hg hd n) ⟨_, ha n⟩) (fun n => LossSpec.lsm (row W ha hb hg hd n) ⟨_, hb n⟩)
          (fun n => LossSpec.lsm (row W ha hb hg hd n) ⟨_, hg n⟩) (fun n => LossSpec.lsm (row W ha hb hg hd n) ⟨_, hd n⟩) := by
  have h := RefGather.v221_ideal (afterLsm W) (by strip; exact iota W) (fun n => by strip; exact ha n)
    (fun n => by strip; exact hb n) (fun n => by strip; exact hg n) (fun n => by strip; exact hd n)
  strip at h
  simp only [v143_spec W ha hb hg hd hX hW] at h
  rw [RefCut.after_ops]
  exact h

end Values

section Launch

variable (m : (ℓ : Loc nD τ sig) → Buf (Elt Ideal) ℓ) (c : Dev nD)
variable (hX : ∀ i, ∃ r : ℝ, (m ((c.tc : Thread nD τ).loc main_arg0) : LossSpec.Inp) i = (r : EReal))
  (hW : ∀ i, ∃ r : ℝ, (m ((c.tc : Thread nD τ).loc main_arg1) : LossSpec.Wts) i = (r : EReal))
  (ha : ∀ n : Fin 512, ((m ((c.tc : Thread nD τ).loc main_arg3) : LossSpec.Lab) (ix1 n)).toNat < 100000)
  (hb : ∀ n : Fin 512, ((m ((c.tc : Thread nD τ).loc main_arg4) : LossSpec.Lab) (ix1 n)).toNat < 100000)
  (hg : ∀ n : Fin 512, ((m ((c.tc : Thread nD τ).loc main_arg5) : LossSpec.Lab) (ix1 n)).toNat < 100000)
  (hd : ∀ n : Fin 512, ((m ((c.tc : Thread nD τ).loc main_arg6) : LossSpec.Lab) (ix1 n)).toNat < 100000)

include hX hW ha hb hg hd in
theorem result_value :
    ((StableHlo.after (ops (F := Ideal)) (launchContents m c) (Proc.devRef .tc main_v221) : S_.Idx → EReal) ix0)
      = LossSpec.lossOf ((m ((c.tc : Thread nD τ).loc main_arg2) : LossSpec.Lam) ix0)
          (fun n : Fin 512 => LossSpec.lsm (LossSpec.outRow (m ((c.tc : Thread nD τ).loc main_arg0)) (m ((c.tc : Thread nD τ).loc main_arg1)) n
            ⟨((m ((c.tc : Thread nD τ).loc main_arg3) : LossSpec.Lab) (ix1 n)).toNat, ha n⟩
            ⟨((m ((c.tc : Thread nD τ).loc main_arg4) : LossSpec.Lab) (ix1 n)).toNat, hb n⟩
            ⟨((m ((c.tc : Thread nD τ).loc main_arg5) : LossSpec.Lab) (ix1 n)).toNat, hg n⟩
            ⟨((m ((c.tc : Thread nD τ).loc main_arg6) : LossSpec.Lab) (ix1 n)).toNat, hd n⟩)
            ⟨((m ((c.tc : Thread nD τ).loc main_arg3) : LossSpec.Lab) (ix1 n)).toNat, ha n⟩)
          (fun n : Fin 512 => LossSpec.lsm (LossSpec.outRow (m ((c.tc : Thread nD τ).loc main_arg0)) (m ((c.tc : Thread nD τ).loc main_arg1)) n
            ⟨((m ((c.tc : Thread nD τ).loc main_arg3) : LossSpec.Lab) (ix1 n)).toNat, ha n⟩
            ⟨((m ((c.tc : Thread nD τ).loc main_arg4) : LossSpec.Lab) (ix1 n)).toNat, hb n⟩
            ⟨((m ((c.tc : Thread nD τ).loc main_arg5) : LossSpec.Lab) (ix1 n)).toNat, hg n⟩
            ⟨((m ((c.tc : Thread nD τ).loc main_arg6) : LossSpec.Lab) (ix1 n)).toNat, hd n⟩)
            ⟨((m ((c.tc : Thread nD τ).loc main_arg4) : LossSpec.Lab) (ix1 n)).toNat, hb n⟩)
          (fun n : Fin 512 => LossSpec.lsm (LossSpec.outRow (m ((c.tc : Thread nD τ).loc main_arg0)) (m ((c.tc : Thread nD τ).loc main_arg1)) n
            ⟨((m ((c.tc : Thread nD τ).loc main_arg3) : LossSpec.Lab) (ix1 n)).toNat, ha n⟩
            ⟨((m ((c.tc : Thread nD τ).loc main_arg4) : LossSpec.Lab) (ix1 n)).toNat, hb n⟩
            ⟨((m ((c.tc : Thread nD τ).loc main_arg5) : LossSpec.Lab) (ix1 n)).toNat, hg n⟩
            ⟨((m ((c.tc : Thread nD τ).loc main_arg6) : LossSpec.Lab) (ix1 n)).toNat, hd n⟩)
            ⟨((m ((c.tc : Thread nD τ).loc main_arg5) : LossSpec.Lab) (ix1 n)).toNat, hg n⟩)
          (fun n : Fin 512 => LossSpec.lsm (LossSpec.outRow (m ((c.tc : Thread nD τ).loc main_arg0)) (m ((c.tc : Thread nD τ).loc main_arg1)) n
            ⟨((m ((c.tc : Thread nD τ).loc main_arg3) : LossSpec.Lab) (ix1 n)).toNat, ha n⟩
            ⟨((m ((c.tc : Thread nD τ).loc main_arg4) : LossSpec.Lab) (ix1 n)).toNat, hb n⟩
            ⟨((m ((c.tc : Thread nD τ).loc main_arg5) : LossSpec.Lab) (ix1 n)).toNat, hg n⟩
            ⟨((m ((c.tc : Thread nD τ).loc main_arg6) : LossSpec.Lab) (ix1 n)).toNat, hd n⟩)
            ⟨((m ((c.tc : Thread nD τ).loc main_arg6) : LossSpec.Lab) (ix1 n)).toNat, hd n⟩) :=
  result_at (launchContents m c) ha hb hg hd hX hW

end Launch

end Cert.ReferenceIdeal.RefValue

end
-- ==== Proof.Algebraic.lean ====
import proofs.«415580_j72155450573201_1_alg».proof.Defs
import proofs.«415580_j72155450573201_1_alg».proof.Proof.Gen.KernelIdeal
import proofs.«415580_j72155450573201_1_alg».proof.Proof.Gen.ReferenceIdeal
import proofs.«415580_j72155450573201_1_alg».proof.Proof.Gen.Pre_finite_inputs
import proofs.«415580_j72155450573201_1_alg».proof.Proof.FrameRun
import proofs.«415580_j72155450573201_1_alg».proof.Proof.RefFrame
import proofs.«415580_j72155450573201_1_alg».proof.Proof.PreDecode
import proofs.«415580_j72155450573201_1_alg».proof.Proof.KernelValue
import proofs.«415580_j72155450573201_1_alg».proof.Proof.RefValue

set_option maxRecDepth 16384

noncomputable section
namespace Cert.Algebraic

open Idealize.ShloMosaic Idealize.ShloMosaic.TcCoe Idealize.SL.Sem Idealize.ShloMosaic.ValueIdx Idealize.ShloMosaic.StableHlo

-- both runs end at the kernel's value (the reference's arguments are the kernel's) with their arguments kept, as each frame says
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  have hdec := fun c => PreDecode.decode _ _ _ _ _ _ _ (hpre c)
  refine ⟨fun c => open Cert.KernelIdeal in
    Pipeline.afterTail₀ cfgs (Data.dats m) 0 (Kit.V0 m) (Kit.tailOps (F := Ideal)) c main_v205, ?_, ?_⟩
  · open Cert.KernelIdeal in
    exact ⟨fun t ht hf c =>
        ⟨(MeshRun.post (FrameRun.run_main m g) t ht hf c).2 main_v205
            (Pipeline.mem_restRefs_of (win := spec0) main_v205 (by decide) (by decide)),
          MeshRun.post (FrameRun.frame m g) t ht hf c⟩,
      MeshRun.progress (FrameRun.frame m g), MeshRun.fair (FrameRun.frame m g)⟩
  · open Cert.ReferenceIdeal in
    refine ⟨fun t ht hf c => ⟨?_, MeshRun.post (RefFrame.frame m' g') t ht hf c⟩,
      MeshRun.progress (RefFrame.frame m' g'), MeshRun.fair (RefFrame.frame m' g')⟩
    obtain ⟨e0, e1, e2, e3, e4, e5, e6⟩ := hagree c
    obtain ⟨hX, hW, -, ha, hb, hg, hd⟩ := hdec c
    have hdec' := hdec c
    rw [← e0, ← e1, ← e2, ← e3, ← e4, ← e5, ← e6] at hdec'
    obtain ⟨hX', hW', -, ha', hb', hg', hd'⟩ := hdec'
    refine (MeshRun.post (ValueP.run_after m' g') t ht hf c main_v221).trans (funext fun i => ?_)
    obtain rfl := eq_ix0 i
    refine (RefValue.result_value m' c hX' hW' ha' hb' hg' hd').trans
      (Eq.trans ?_ (Cert.KernelIdeal.KernelValue.kernel_value m c hX hW ha hb hg hd).symm)
    simp only [e0, e1, e2, e3, e4, e5, e6]

end Cert.Algebraic
end
-- ==== Proof.lean ====
import proofs.«415580_j72155450573201_1_alg».proof.Defs
import proofs.«415580_j72155450573201_1_alg».proof.Proof.Gen.Kernel
import proofs.«415580_j72155450573201_1_alg».proof.Proof.Gen.KernelIdeal
import proofs.«415580_j72155450573201_1_alg».proof.Proof.Gen.ReferenceIdeal
import proofs.«415580_j72155450573201_1_alg».proof.Proof.Gen.Pre_finite_inputs
import proofs.«415580_j72155450573201_1_alg».proof.Proof.Word.FrameRun
import proofs.«415580_j72155450573201_1_alg».proof.Proof.FrameRun
import proofs.«415580_j72155450573201_1_alg».proof.Proof.RefFrame
import proofs.«415580_j72155450573201_1_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m g _ => Cert.Kernel.FrameRun.frame m g,
    fun m g _ => Cert.KernelIdeal.FrameRun.frame m g,
    fun m g _ => Cert.ReferenceIdeal.RefFrame.frame m g,
    trivial,
    Cert.Algebraic.algebraic⟩

end Cert.Proof

end
